-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v30)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v30) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v143) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x32 : Shape := ⟨2, ![32, 32]⟩
abbrev S32x2048 : Shape := ⟨2, ![32, 2048]⟩
abbrev S32x3x2048x512 : Shape := ⟨4, ![32, 3, 2048, 512]⟩
abbrev S32000x512 : Shape := ⟨2, ![32000, 512]⟩
abbrev S3x2049x512 : Shape := ⟨3, ![3, 2049, 512]⟩
abbrev S32x512 : Shape := ⟨2, ![32, 512]⟩
abbrev S_ : Shape := ⟨0, ![]⟩

class Facts : Prop where
  bcast_S_S32x3x2048x512 : S_.BroadcastsInDim S32x3x2048x512 (![] : Fin 0 → Fin S32x3x2048x512.rank)
  reducesTo_S32x3x2048x512_S_d0_1_2_3 : S32x3x2048x512.ReducesTo [0, 1, 2, 3] S_
  h_S_ : 0 < S_.numel
  bcast_S_S32000x512 : S_.BroadcastsInDim S32000x512 (![] : Fin 0 → Fin S32000x512.rank)
  reducesTo_S32000x512_S_d0_1 : S32000x512.ReducesTo [0, 1] S_
  bcast_S_S3x2049x512 : S_.BroadcastsInDim S3x2049x512 (![] : Fin 0 → Fin S3x2049x512.rank)
  reducesTo_S3x2049x512_S_d0_1_2 : S3x2049x512.ReducesTo [0, 1, 2] S_
  bcast_S_S32x512 : S_.BroadcastsInDim S32x512 (![] : Fin 0 → Fin S32x512.rank)
  reducesTo_S32x512_S_d0_1 : S32x512.ReducesTo [0, 1] S_
  bcast_S_S32x2048 : S_.BroadcastsInDim S32x2048 (![] : Fin 0 → Fin S32x2048.rank)
  reducesTo_S32x2048_S_d0_1 : S32x2048.ReducesTo [0, 1] S_

variable [Facts]

def fn_part2 {F : FTy → Type} [FloatOps F] (main_arg1 : IVec S32x2048 32) (main_v32 : IVec S_ 1) (main_c_12 : IVec S_ 32) : IVec S_ 1 :=
  let main_v33 : IVec S32x2048 32 := broadcastInDim S32x2048 ![] bcast_S_S32x2048 main_c_12
  let main_v34 : IVec S32x2048 1 := cmpi .slt main_arg1 main_v33
  let main_c_13 : IVec S_ 1 := constantI S_ 1 1#1
  let main_v35 : IVec S_ 1 := (fun x v => Host.reduce IntOp.andi x v reducesTo_S32x2048_S_d0_1 h_S_) main_v34 main_c_13
  let main_v36 : IVec S_ 1 := andi main_v32 main_v35
  main_v36

def fn_part1 {F : FTy → Type} [FloatOps F] (main_arg1 : IVec S32x2048 32) (main_arg6 : FVec F S3x2049x512 .f32) (main_arg7 : FVec F S32x512 .f32) (main_v13 : IVec S_ 1) (main_v16 : IVec S3x2049x512 1) : IVec S_ 1 :=
  let main_c_5 : IVec S_ 1 := constantI S_ 1 1#1
  let main_v17 : IVec S_ 1 := (fun x v => Host.reduce IntOp.andi x v reducesTo_S3x2049x512_S_d0_1_2 h_S_) main_v16 main_c_5
  let main_v18 : IVec S_ 1 := andi main_v13 main_v17
  let main_v19 : FVec F S3x2049x512 .f32 := Host.absf main_arg6
  let main_cst_6 : FVec F S_ .f32 := constant S_ .f32 0x7F800000#32
  let main_v20 : FVec F S3x2049x512 .f32 := broadcastInDim S3x2049x512 ![] bcast_S_S3x2049x512 main_cst_6
  let main_v21 : IVec S3x2049x512 1 := cmpf .olt main_v19 main_v20
  let main_c_7 : IVec S_ 1 := constantI S_ 1 1#1
  let main_v22 : IVec S_ 1 := (fun x v => Host.reduce IntOp.andi x v reducesTo_S3x2049x512_S_d0_1_2 h_S_) main_v21 main_c_7
  let main_v23 : IVec S_ 1 := andi main_v18 main_v22
  let main_v24 : FVec F S32x512 .f32 := Host.absf main_arg7
  let main_cst_8 : FVec F S_ .f32 := constant S_ .f32 0x7F800000#32
  let main_v25 : FVec F S32x512 .f32 := broadcastInDim S32x512 ![] bcast_S_S32x512 main_cst_8
  let main_v26 : IVec S32x512 1 := cmpf .olt main_v24 main_v25
  let main_c_9 : IVec S_ 1 := constantI S_ 1 1#1
  let main_v27 : IVec S_ 1 := (fun x v => Host.reduce IntOp.andi x v reducesTo_S32x512_S_d0_1 h_S_) main_v26 main_c_9
  let main_v28 : IVec S_ 1 := andi main_v23 main_v27
  let main_c_10 : IVec S_ 32 := constantI S_ 32 0#32
  let main_v29 : IVec S32x2048 32 := broadcastInDim S32x2048 ![] bcast_S_S32x2048 main_c_10
  let main_v30 : IVec S32x2048 1 := cmpi .sge main_arg1 main_v29
  let main_c_11 : IVec S_ 1 := constantI S_ 1 1#1
  let main_v31 : IVec S_ 1 := (fun x v => Host.reduce IntOp.andi x v reducesTo_S32x2048_S_d0_1 h_S_) main_v30 main_c_11
  let main_v32 : IVec S_ 1 := andi main_v28 main_v31
  let main_c_12 : IVec S_ 32 := constantI S_ 32 2049#32
  fn_part2 (F := F) main_arg1 main_v32 main_c_12

def fn {F : FTy → Type} [FloatOps F] (main_arg0 : IVec S32x32 32) (main_arg1 : IVec S32x2048 32) (main_arg2 : FVec F S32x3x2048x512 .f32) (main_arg3 : FVec F S32x3x2048x512 .f32) (main_arg4 : FVec F S32000x512 .f32) (main_arg5 : FVec F S3x2049x512 .f32) (main_arg6 : FVec F S3x2049x512 .f32) (main_arg7 : FVec F S32x512 .f32) : IVec S_ 1 :=
  let main_v0 : FVec F S32x3x2048x512 .f32 := Host.absf main_arg2
  let main_cst : FVec F S_ .f32 := constant S_ .f32 0x7F800000#32
  let main_v1 : FVec F S32x3x2048x512 .f32 := broadcastInDim S32x3x2048x512 ![] bcast_S_S32x3x2048x512 main_cst
  let main_v2 : IVec S32x3x2048x512 1 := cmpf .olt main_v0 main_v1
  let main_c : IVec S_ 1 := constantI S_ 1 1#1
  let main_v3 : IVec S_ 1 := (fun x v => Host.reduce IntOp.andi x v reducesTo_S32x3x2048x512_S_d0_1_2_3 h_S_) main_v2 main_c
  let main_v4 : FVec F S32x3x2048x512 .f32 := Host.absf main_arg3
  let main_cst_0 : FVec F S_ .f32 := constant S_ .f32 0x7F800000#32
  let main_v5 : FVec F S32x3x2048x512 .f32 := broadcastInDim S32x3x2048x512 ![] bcast_S_S32x3x2048x512 main_cst_0
  let main_v6 : IVec S32x3x2048x512 1 := cmpf .olt main_v4 main_v5
  let main_c_1 : IVec S_ 1 := constantI S_ 1 1#1
  let main_v7 : IVec S_ 1 := (fun x v => Host.reduce IntOp.andi x v reducesTo_S32x3x2048x512_S_d0_1_2_3 h_S_) main_v6 main_c_1
  let main_v8 : IVec S_ 1 := andi main_v3 main_v7
  let main_v9 : FVec F S32000x512 .f32 := Host.absf main_arg4
  let main_cst_2 : FVec F S_ .f32 := constant S_ .f32 0x7F800000#32
  let main_v10 : FVec F S32000x512 .f32 := broadcastInDim S32000x512 ![] bcast_S_S32000x512 main_cst_2
  let main_v11 : IVec S32000x512 1 := cmpf .olt main_v9 main_v10
  let main_c_3 : IVec S_ 1 := constantI S_ 1 1#1
  let main_v12 : IVec S_ 1 := (fun x v => Host.reduce IntOp.andi x v reducesTo_S32000x512_S_d0_1 h_S_) main_v11 main_c_3
  let main_v13 : IVec S_ 1 := andi main_v8 main_v12
  let main_v14 : FVec F S3x2049x512 .f32 := Host.absf main_arg5
  let main_cst_4 : FVec F S_ .f32 := constant S_ .f32 0x7F800000#32
  let main_v15 : FVec F S3x2049x512 .f32 := broadcastInDim S3x2049x512 ![] bcast_S_S3x2049x512 main_cst_4
  let main_v16 : IVec S3x2049x512 1 := cmpf .olt main_v14 main_v15
  fn_part1 (F := F) main_arg1 main_arg6 main_arg7 main_v13 main_v16
-- ==== Kernel.lean ====
abbrev S32x32 : Shape := ⟨2, ![32, 32]⟩
abbrev S32x2048 : Shape := ⟨2, ![32, 2048]⟩
abbrev S32x3x2048x512 : Shape := ⟨4, ![32, 3, 2048, 512]⟩
abbrev S32000x512 : Shape := ⟨2, ![32000, 512]⟩
abbrev S3x2049x512 : Shape := ⟨3, ![3, 2049, 512]⟩
abbrev S32x512 : Shape := ⟨2, ![32, 512]⟩
abbrev S_ : Shape := ⟨0, ![]⟩
abbrev S32x32x1 : Shape := ⟨3, ![32, 32, 1]⟩
abbrev S32x32x512 : Shape := ⟨3, ![32, 32, 512]⟩
abbrev S1x32x512 : Shape := ⟨3, ![1, 32, 512]⟩
abbrev S32x1x512 : Shape := ⟨3, ![32, 1, 512]⟩
abbrev S3x2176x512 : Shape := ⟨3, ![3, 2176, 512]⟩
abbrev S1x2176x512 : Shape := ⟨3, ![1, 2176, 512]⟩
abbrev S2176x512 : Shape := ⟨2, ![2176, 512]⟩
abbrev S1x1x512 : Shape := ⟨3, ![1, 1, 512]⟩
abbrev S1x1x1024x512 : Shape := ⟨4, ![1, 1, 1024, 512]⟩
abbrev S32x1024 : Shape := ⟨2, ![32, 1024]⟩
abbrev S1x512 : Shape := ⟨2, ![1, 512]⟩
abbrev S1x1 : Shape := ⟨2, ![1, 1]⟩
abbrev S1x2176 : Shape := ⟨2, ![1, 2176]⟩
abbrev S1x1024 : Shape := ⟨2, ![1, 1024]⟩
abbrev S1024 : Shape := ⟨1, ![1024]⟩
abbrev S1024x1 : Shape := ⟨2, ![1024, 1]⟩
abbrev S1024x2176 : Shape := ⟨2, ![1024, 2176]⟩
abbrev S1024x512 : Shape := ⟨2, ![1024, 512]⟩
abbrev S1 : Shape := ⟨1, ![1]⟩

abbrev nBuf : Space → Nat
  | .hbm => 46
  | .vmem => 54
  | .smem => 0
  | _ => 0

abbrev bufTy : (tb : Table) → Fin (tcTables nBuf tb) → BufTy
  | .hbm, ⟨0, _⟩ => ⟨S32x32, .i32⟩
  | .hbm, ⟨1, _⟩ => ⟨S32x2048, .i32⟩
  | .hbm, ⟨2, _⟩ => ⟨S32x3x2048x512, .f32⟩
  | .hbm, ⟨3, _⟩ => ⟨S32x3x2048x512, .f32⟩
  | .hbm, ⟨4, _⟩ => ⟨S32000x512, .f32⟩
  | .hbm, ⟨5, _⟩ => ⟨S3x2049x512, .f32⟩
  | .hbm, ⟨6, _⟩ => ⟨S3x2049x512, .f32⟩
  | .hbm, ⟨7, _⟩ => ⟨S32x512, .f32⟩
  | .hbm, ⟨8, _⟩ => ⟨S_, .i32⟩
  | .hbm, ⟨9, _⟩ => ⟨S32x32, .i32⟩
  | .hbm, ⟨10, _⟩ => ⟨S32x32, .i1⟩
  | .hbm, ⟨11, _⟩ => ⟨S_, .i32⟩
  | .hbm, ⟨12, _⟩ => ⟨S32x32, .i32⟩
  | .hbm, ⟨13, _⟩ => ⟨S32x32, .i32⟩
  | .hbm, ⟨14, _⟩ => ⟨S32x32, .i32⟩
  | .hbm, ⟨15, _⟩ => ⟨S32x32x1, .i32⟩
  | .hbm, ⟨16, _⟩ => ⟨S32x32x512, .f32⟩
  | .hbm, ⟨17, _⟩ => ⟨S1x32x512, .f32⟩
  | .hbm, ⟨18, _⟩ => ⟨S32x32x512, .f32⟩
  | .hbm, ⟨19, _⟩ => ⟨S32x32x512, .f32⟩
  | .hbm, ⟨20, _⟩ => ⟨S_, .f32⟩
  | .hbm, ⟨21, _⟩ => ⟨S32x512, .f32⟩
  | .hbm, ⟨22, _⟩ => ⟨S32x1x512, .f32⟩
  | .hbm, ⟨23, _⟩ => ⟨S_, .i32⟩
  | .hbm, ⟨24, _⟩ => ⟨S_, .f32⟩
  | .hbm, ⟨25, _⟩ => ⟨S3x2176x512, .f32⟩
  | .hbm, ⟨26, _⟩ => ⟨S3x2176x512, .bf16⟩
  | .hbm, ⟨27, _⟩ => ⟨S_, .i32⟩
  | .hbm, ⟨28, _⟩ => ⟨S_, .f32⟩
  | .hbm, ⟨29, _⟩ => ⟨S3x2176x512, .f32⟩
  | .hbm, ⟨30, _⟩ => ⟨S3x2176x512, .bf16⟩
  | .hbm, ⟨31, _⟩ => ⟨S1x2176x512, .bf16⟩
  | .hbm, ⟨32, _⟩ => ⟨S2176x512, .bf16⟩
  | .hbm, ⟨33, _⟩ => ⟨S1x2176x512, .bf16⟩
  | .hbm, ⟨34, _⟩ => ⟨S2176x512, .bf16⟩
  | .hbm, ⟨35, _⟩ => ⟨S32x1x512, .f32⟩
  | .hbm, ⟨36, _⟩ => ⟨S1x2176x512, .bf16⟩
  | .hbm, ⟨37, _⟩ => ⟨S2176x512, .bf16⟩
  | .hbm, ⟨38, _⟩ => ⟨S1x2176x512, .bf16⟩
  | .hbm, ⟨39, _⟩ => ⟨S2176x512, .bf16⟩
  | .hbm, ⟨40, _⟩ => ⟨S32x1x512, .f32⟩
  | .hbm, ⟨41, _⟩ => ⟨S1x2176x512, .bf16⟩
  | .hbm, ⟨42, _⟩ => ⟨S2176x512, .bf16⟩
  | .hbm, ⟨43, _⟩ => ⟨S1x2176x512, .bf16⟩
  | .hbm, ⟨44, _⟩ => ⟨S2176x512, .bf16⟩
  | .hbm, ⟨45, _⟩ => ⟨S32x1x512, .f32⟩
  | .local _ .vmem, ⟨0, _⟩ => ⟨S1x1x512, .f32⟩
  | .local _ .vmem, ⟨1, _⟩ => ⟨S1x1x512, .f32⟩
  | .local _ .vmem, ⟨2, _⟩ => ⟨S1x1x1024x512, .f32⟩
  | .local _ .vmem, ⟨3, _⟩ => ⟨S1x1x1024x512, .f32⟩
  | .local _ .vmem, ⟨4, _⟩ => ⟨S1x1x1024x512, .f32⟩
  | .local _ .vmem, ⟨5, _⟩ => ⟨S1x1x1024x512, .f32⟩
  | .local _ .vmem, ⟨6, _⟩ => ⟨S32x1024, .i32⟩
  | .local _ .vmem, ⟨7, _⟩ => ⟨S32x1024, .i32⟩
  | .local _ .vmem, ⟨8, _⟩ => ⟨S2176x512, .bf16⟩
  | .local _ .vmem, ⟨9, _⟩ => ⟨S2176x512, .bf16⟩
  | .local _ .vmem, ⟨10, _⟩ => ⟨S1x1x512, .f32⟩
  | .local _ .vmem, ⟨11, _⟩ => ⟨S1x1x512, .f32⟩
  | .local _ .vmem, ⟨12, _⟩ => ⟨S1x512, .f32⟩
  | .local _ .vmem, ⟨13, _⟩ => ⟨S1x1, .f32⟩
  | .local _ .vmem, ⟨14, _⟩ => ⟨S1x1, .f32⟩
  | .local _ .vmem, ⟨15, _⟩ => ⟨S1x512, .f32⟩
  | .local _ .vmem, ⟨16, _⟩ => ⟨S1x2176, .f32⟩
  | .local _ .vmem, ⟨17, _⟩ => ⟨S1x2176, .f32⟩
  | .local _ .vmem, ⟨18, _⟩ => ⟨S1x1x512, .f32⟩
  | .local _ .vmem, ⟨19, _⟩ => ⟨S1x1x512, .f32⟩
  | .local _ .vmem, ⟨20, _⟩ => ⟨S1x1x1024x512, .f32⟩
  | .local _ .vmem, ⟨21, _⟩ => ⟨S1x1x1024x512, .f32⟩
  | .local _ .vmem, ⟨22, _⟩ => ⟨S1x1x1024x512, .f32⟩
  | .local _ .vmem, ⟨23, _⟩ => ⟨S1x1x1024x512, .f32⟩
  | .local _ .vmem, ⟨24, _⟩ => ⟨S32x1024, .i32⟩
  | .local _ .vmem, ⟨25, _⟩ => ⟨S32x1024, .i32⟩
  | .local _ .vmem, ⟨26, _⟩ => ⟨S2176x512, .bf16⟩
  | .local _ .vmem, ⟨27, _⟩ => ⟨S2176x512, .bf16⟩
  | .local _ .vmem, ⟨28, _⟩ => ⟨S1x1x512, .f32⟩
  | .local _ .vmem, ⟨29, _⟩ => ⟨S1x1x512, .f32⟩
  | .local _ .vmem, ⟨30, _⟩ => ⟨S1x512, .f32⟩
  | .local _ .vmem, ⟨31, _⟩ => ⟨S1x1, .f32⟩
  | .local _ .vmem, ⟨32, _⟩ => ⟨S1x1, .f32⟩
  | .local _ .vmem, ⟨33, _⟩ => ⟨S1x512, .f32⟩
  | .local _ .vmem, ⟨34, _⟩ => ⟨S1x2176, .f32⟩
  | .local _ .vmem, ⟨35, _⟩ => ⟨S1x2176, .f32⟩
  | .local _ .vmem, ⟨36, _⟩ => ⟨S1x1x512, .f32⟩
  | .local _ .vmem, ⟨37, _⟩ => ⟨S1x1x512, .f32⟩
  | .local _ .vmem, ⟨38, _⟩ => ⟨S1x1x1024x512, .f32⟩
  | .local _ .vmem, ⟨39, _⟩ => ⟨S1x1x1024x512, .f32⟩
  | .local _ .vmem, ⟨40, _⟩ => ⟨S1x1x1024x512, .f32⟩
  | .local _ .vmem, ⟨41, _⟩ => ⟨S1x1x1024x512, .f32⟩
  | .local _ .vmem, ⟨42, _⟩ => ⟨S32x1024, .i32⟩
  | .local _ .vmem, ⟨43, _⟩ => ⟨S32x1024, .i32⟩
  | .local _ .vmem, ⟨44, _⟩ => ⟨S2176x512, .bf16⟩
  | .local _ .vmem, ⟨45, _⟩ => ⟨S2176x512, .bf16⟩
  | .local _ .vmem, ⟨46, _⟩ => ⟨S1x1x512, .f32⟩
  | .local _ .vmem, ⟨47, _⟩ => ⟨S1x1x512, .f32⟩
  | .local _ .vmem, ⟨48, _⟩ => ⟨S1x512, .f32⟩
  | .local _ .vmem, ⟨49, _⟩ => ⟨S1x1, .f32⟩
  | .local _ .vmem, ⟨50, _⟩ => ⟨S1x1, .f32⟩
  | .local _ .vmem, ⟨51, _⟩ => ⟨S1x512, .f32⟩
  | .local _ .vmem, ⟨52, _⟩ => ⟨S1x2176, .f32⟩
  | .local _ .vmem, ⟨53, _⟩ => ⟨S1x2176, .f32⟩
  | _, _ => ⟨S32x32, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev main_v1 : Ref sig .tc := ⟨.hbm, 10, rfl⟩
abbrev main_c_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst : Ref sig .tc := ⟨.hbm, 20, rfl⟩
abbrev main_v10 : Ref sig .tc := ⟨.hbm, 21, rfl⟩
abbrev main_v11 : Ref sig .tc := ⟨.hbm, 22, rfl⟩
abbrev main_c_1 : Ref sig .tc := ⟨.hbm, 23, rfl⟩
abbrev main_call0_v0 : Ref sig .tc := ⟨.hbm, 24, rfl⟩
abbrev main_v12 : Ref sig .tc := ⟨.hbm, 25, rfl⟩
abbrev main_v13 : Ref sig .tc := ⟨.hbm, 26, rfl⟩
abbrev main_c_2 : Ref sig .tc := ⟨.hbm, 27, rfl⟩
abbrev main_call1_v0 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_scratch4 : Ref sig .tc := ⟨.vmem, 16, rfl⟩
abbrev cc0_scratch5 : Ref sig .tc := ⟨.vmem, 17, rfl⟩
abbrev cc1_stg0_0 : Ref sig .tc := ⟨.vmem, 18, rfl⟩
abbrev cc1_stg0_1 : Ref sig .tc := ⟨.vmem, 19, rfl⟩
abbrev cc1_stg1_0 : Ref sig .tc := ⟨.vmem, 20, rfl⟩
abbrev cc1_stg1_1 : Ref sig .tc := ⟨.vmem, 21, rfl⟩
abbrev cc1_stg2_0 : Ref sig .tc := ⟨.vmem, 22, rfl⟩
abbrev cc1_stg2_1 : Ref sig .tc := ⟨.vmem, 23, rfl⟩
abbrev cc1_stg3_0 : Ref sig .tc := ⟨.vmem, 24, rfl⟩
abbrev cc1_stg3_1 : Ref sig .tc := ⟨.vmem, 25, rfl⟩
abbrev cc1_stg4_0 : Ref sig .tc := ⟨.vmem, 26, rfl⟩
abbrev cc1_stg5_0 : Ref sig .tc := ⟨.vmem, 27, rfl⟩
abbrev cc1_stg6_0 : Ref sig .tc := ⟨.vmem, 28, rfl⟩
abbrev cc1_stg6_1 : Ref sig .tc := ⟨.vmem, 29, rfl⟩
abbrev cc1_scratch0 : Ref sig .tc := ⟨.vmem, 30, rfl⟩
abbrev cc1_scratch1 : Ref sig .tc := ⟨.vmem, 31, rfl⟩
abbrev cc1_scratch2 : Ref sig .tc := ⟨.vmem, 32, rfl⟩
abbrev cc1_scratch3 : Ref sig .tc := ⟨.vmem, 33, rfl⟩
abbrev cc1_scratch4 : Ref sig .tc := ⟨.vmem, 34, rfl⟩
abbrev cc1_scratch5 : Ref sig .tc := ⟨.vmem, 35, rfl⟩
abbrev cc2_stg0_0 : Ref sig .tc := ⟨.vmem, 36, rfl⟩
abbrev cc2_stg0_1 : Ref sig .tc := ⟨.vmem, 37, rfl⟩
abbrev cc2_stg1_0 : Ref sig .tc := ⟨.vmem, 38, rfl⟩
abbrev cc2_stg1_1 : Ref sig .tc := ⟨.vmem, 39, rfl⟩
abbrev cc2_stg2_0 : Ref sig .tc := ⟨.vmem, 40, rfl⟩
abbrev cc2_stg2_1 : Ref sig .tc := ⟨.vmem, 41, rfl⟩
abbrev cc2_stg3_0 : Ref sig .tc := ⟨.vmem, 42, rfl⟩
abbrev cc2_stg3_1 : Ref sig .tc := ⟨.vmem, 43, rfl⟩
abbrev cc2_stg4_0 : Ref sig .tc := ⟨.vmem, 44, rfl⟩
abbrev cc2_stg5_0 : Ref sig .tc := ⟨.vmem, 45, rfl⟩
abbrev cc2_stg6_0 : Ref sig .tc := ⟨.vmem, 46, rfl⟩
abbrev cc2_stg6_1 : Ref sig .tc := ⟨.vmem, 47, rfl⟩
abbrev cc2_scratch0 : Ref sig .tc := ⟨.vmem, 48, rfl⟩
abbrev cc2_scratch1 : Ref sig .tc := ⟨.vmem, 49, rfl⟩
abbrev cc2_scratch2 : Ref sig .tc := ⟨.vmem, 50, rfl⟩
abbrev cc2_scratch3 : Ref sig .tc := ⟨.vmem, 51, rfl⟩
abbrev cc2_scratch4 : Ref sig .tc := ⟨.vmem, 52, rfl⟩
abbrev cc2_scratch5 : Ref sig .tc := ⟨.vmem, 53, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc1_sem3_0 : DmaSem sig := 18
abbrev cc1_sem3_1 : DmaSem sig := 19
abbrev cc1_sem4_0 : DmaSem sig := 20
abbrev cc1_sem5_0 : DmaSem sig := 21
abbrev cc1_sem6_0 : DmaSem sig := 22
abbrev cc1_sem6_1 : DmaSem sig := 23
abbrev cc2_sem0_0 : DmaSem sig := 24
abbrev cc2_sem0_1 : DmaSem sig := 25
abbrev cc2_sem1_0 : DmaSem sig := 26
abbrev cc2_sem1_1 : DmaSem sig := 27
abbrev cc2_sem2_0 : DmaSem sig := 28
abbrev cc2_sem2_1 : DmaSem sig := 29
abbrev cc2_sem3_0 : DmaSem sig := 30
abbrev cc2_sem3_1 : DmaSem sig := 31
abbrev cc2_sem4_0 : DmaSem sig := 32
abbrev cc2_sem5_0 : DmaSem sig := 33
abbrev cc2_sem6_0 : DmaSem sig := 34
abbrev cc2_sem6_1 : DmaSem sig := 35

abbrev nD : Nat := 1
abbrev τ : Topo := Topo.v7x

variable {F : FTy → Type} [FloatOps F]

abbrev grid0 : Pipeline.Grid := ⟨2, ![32, 2], ![false, false]⟩

def k0_off1 (i : grid0.Coords) : Fin 2 → Nat :=
  let arg0 : BitVec 32 := BitVec.ofNat 32 (i 0).val
  let v3 : Index := Scalar.indexCast arg0
  let c0 : Index := 0#32
  ![v3.toNat, 0]
def k0_cond2 (i : grid0.Coords) : BitVec 1 :=
  let arg1 : BitVec 32 := BitVec.ofNat 32 (i 1).val
  let c1_i32 : BitVec 32 := 1#32
  let v65 : BitVec 1 := Scalar.cmpi .eq arg1 c1_i32
  let v66 : BitVec 32 := Scalar.extui v65
  let c0_i32_36 : BitVec 32 := 0#32
  let v67 : BitVec 1 := Scalar.cmpi .ne v66 c0_i32_36
  v67

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1x1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S32x1024 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S2176x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S2176x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x1x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev grid1 : Pipeline.Grid := ⟨2, ![32, 2], ![false, false]⟩

def k1_off1 (i : grid1.Coords) : Fin 2 → Nat :=
  let arg0 : BitVec 32 := BitVec.ofNat 32 (i 0).val
  let v3 : Index := Scalar.indexCast arg0
  let c0 : Index := 0#32
  ![v3.toNat, 0]
def k1_cond2 (i : grid1.Coords) : BitVec 1 :=
  let arg1 : BitVec 32 := BitVec.ofNat 32 (i 1).val
  let c1_i32 : BitVec 32 := 1#32
  let v65 : BitVec 1 := Scalar.cmpi .eq arg1 c1_i32
  let v66 : BitVec 32 := Scalar.extui v65
  let c0_i32_36 : BitVec 32 := 0#32
  let v67 : BitVec 1 := Scalar.cmpi .ne v66 c0_i32_36
  v67

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![arg0.toNat, c1_i32.toNat, arg1.toNat, c0_i32.toNat]

def cc1_transform_2 (i : grid1.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![arg0.toNat, c1_i32.toNat, arg1.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x1x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1x1x1024x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x1x1024x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S32x1024 .i32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true]

abbrev stage1_4 : Fin 1 → Memref sig .tc .vmem S2176x512 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 1 → Memref sig .tc .vmem S2176x512 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 2 → Memref sig .tc .vmem S1x1x512 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, false]

abbrev grid2 : Pipeline.Grid := ⟨2, ![32, 2], ![false, false]⟩

def k2_off1 (i : grid2.Coords) : Fin 2 → Nat :=
  let arg0 : BitVec 32 := BitVec.ofNat 32 (i 0).val
  let v3 : Index := Scalar.indexCast arg0
  let c0 : Index := 0#32
  ![v3.toNat, 0]
def k2_cond2 (i : grid2.Coords) : BitVec 1 :=
  let arg1 : BitVec 32 := BitVec.ofNat 32 (i 1).val
  let c1_i32 : BitVec 32 := 1#32
  let v65 : BitVec 1 := Scalar.cmpi .eq arg1 c1_i32
  let v66 : BitVec 32 := Scalar.extui v65
  let c0_i32_36 : BitVec 32 := 0#32
  let v67 : BitVec 1 := Scalar.cmpi .ne v66 c0_i32_36
  v67

def cc2_transform_0 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc2_transform_1 (i : grid2.Coords) : Fin 4 → Nat :=
  let arg0 : BitVec 32 := BitVec.ofNat 32 (i 0).val
  let arg1 : BitVec 32 := BitVec.ofNat 32 (i 1).val
  let c2_i32 : BitVec 32 := 2#32
  let c0_i32 : BitVec 32 := 0#32
  let c0_i32_0 : BitVec 32 := 0#32
  ![arg0.toNat, c2_i32.toNat, arg1.toNat, c0_i32.toNat]

def cc2_transform_2 (i : grid2.Coords) : Fin 4 → Nat :=
  let arg0 : BitVec 32 := BitVec.ofNat 32 (i 0).val
  let arg1 : BitVec 32 := BitVec.ofNat 32 (i 1).val
  let c2_i32 : BitVec 32 := 2#32
  let c0_i32 : BitVec 32 := 0#32
  let c0_i32_0 : BitVec 32 := 0#32
  ![arg0.toNat, c2_i32.toNat, arg1.toNat, c0_i32.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S1x1x512 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S1x1x1024x512 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true]

abbrev stage2_2 : Fin 2 → Memref sig .tc .vmem S1x1x1024x512 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev stage2_3 : Fin 2 → Memref sig .tc .vmem S32x1024 .i32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![false, true]

abbrev stage2_4 : Fin 1 → Memref sig .tc .vmem S2176x512 .bf16 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false, false]

abbrev stage2_5 : Fin 1 → Memref sig .tc .vmem S2176x512 .bf16 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false, false]

abbrev stage2_6 : Fin 2 → Memref sig .tc .vmem S1x1x512 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true, false]

class Facts₀ : Prop where
  bcast_S_S32x32 : S_.BroadcastsInDim S32x32 (![] : Fin 0 → Fin S32x32.rank)
  bcast_S32x32_S32x32x1_0_1 : S32x32.BroadcastsInDim S32x32x1 (![0, 1] : Fin 2 → Fin S32x32x1.rank)
  bcast_S32x512_S1x32x512_1_2 : S32x512.BroadcastsInDim S1x32x512 (![1, 2] : Fin 2 → Fin S1x32x512.rank)
  bcast_S1x32x512_S32x32x512_0_1_2 : S1x32x512.BroadcastsInDim S32x32x512 (![0, 1, 2] : Fin 3 → Fin S32x32x512.rank)
  reducesTo_S32x32x512_S32x512_d1 : S32x32x512.ReducesTo [1] S32x512
  h_S_ : 0 < S_.numel
  bcast_S32x512_S32x1x512_0_2 : S32x512.BroadcastsInDim S32x1x512 (![0, 2] : Fin 2 → Fin S32x1x512.rank)
  pads_S3x2049x512_S3x2176x512_000_01270_000 : S3x2049x512.Pads (![0, 0, 0] : Fin 3 → Nat) ![0, 127, 0] ![0, 0, 0] S3x2176x512
  bitsLt_bf16_f32 : FTy.bits .bf16 < FTy.bits .f32
  slices_S3x2176x512_S1x2176x512_0_0_0 : S3x2176x512.Slices ![0, 0, 0] S1x2176x512
  shapeCasts_S1x2176x512_S2176x512 : S1x2176x512.ShapeCasts S2176x512
  inb_S1x1x512_S1x1x512_0_0_0 : ∀ a, (![0, 0, 0] : Fin 3 → Nat) a + S1x1x512.size a ≤ S1x1x512.size a
  h_S1x1x512 : 0 < S1x1x512.numel
  shapeCasts_S1x1x512_S1x512 : S1x1x512.ShapeCasts S1x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S1x2176_S1x2176_0_0 : ∀ a, (![0, 0] : Fin 2 → Nat) a + S1x2176.size a ≤ S1x2176.size a
  h_S1x2176 : 0 < S1x2176.numel
  shapeCasts_S1x2176_S1x2176 : S1x2176.ShapeCasts S1x2176
  inb_S2176x512_S2176x512_0_0 : ∀ a, (![0, 0] : Fin 2 → Nat) a + S2176x512.size a ≤ S2176x512.size a
  h_S2176x512 : 0 < S2176x512.numel
  shapeCasts_S2176x512_S2176x512 : S2176x512.ShapeCasts S2176x512
  h_S1x1024 : 0 < S1x1024.numel
  shapeCasts_S1x1024_S1024 : S1x1024.ShapeCasts S1024
  iota_S1x2176_d1_w32 : S1x2176.Iotas .tc 32 [1]
  shapeCasts_S1024_S1024x1 : S1024.ShapeCasts S1024x1
  broadcasts_S1024x1_S1024x2176 : S1024x1.Broadcasts S1024x2176
  broadcasts_S1x2176_S1024x2176 : S1x2176.Broadcasts S1024x2176
  natLt_1_32 : 1 < 32
  inb_S1x1x1024x512_S1x1x1024x512_0_0_0_0 : ∀ a, (![0, 0, 0, 0] : Fin 4 → Nat) a + S1x1x1024x512.size a ≤ S1x1x1024x512.size a
  h_S1x1x1024x512 : 0 < S1x1x1024x512.numel
  shapeCasts_S1x1x1024x512_S1024x512 : S1x1x1024x512.ShapeCasts S1024x512
  reduces_S1x1024_S1 : S1x1024.Reduces [1] S1
  shapeCasts_S1_S1x1 : S1.ShapeCasts S1x1
  broadcasts_S1x1_S1x1024 : S1x1.Broadcasts S1x1024
  broadcasts_S1x1_S1x512 : S1x1.Broadcasts S1x512
  broadcasts_S1x1_S1x2176 : S1x1.Broadcasts S1x2176
  shapeCasts_S1x512_S1x1x512 : S1x512.ShapeCasts S1x1x512
  slices_S3x2176x512_S1x2176x512_1_0_0 : S3x2176x512.Slices ![1, 0, 0] S1x2176x512
  slices_S3x2176x512_S1x2176x512_2_0_0 : S3x2176x512.Slices ![2, 0, 0] S1x2176x512
  gather_S32000x512_S32x32x1_S32x32x512_2_0_n_n_0_2_1512_wf : GatherDims.WF S32000x512 S32x32x1 S32x32x512 [2] [0] [] [0] [] 2 ![1, 512]
  dot_S1x512_S2176x512_S1x2176_1_1_0_0_n_n_wf : DotDims.WF S1x512 S2176x512 S1x2176 [1] [1] [0] [0] [] []
  dot_S1x512_S1024x512_S1x1024_1_1_0_0_n_n_wf : DotDims.WF S1x512 S1024x512 S1x1024 [1] [1] [0] [0] [] []
  dot_S1x2176_S1024x2176_S1x1024_1_1_0_0_n_n_wf : DotDims.WF S1x2176 S1024x2176 S1x1024 [1] [1] [0] [0] [] []
  dot_S1x1024_S1024x512_S1x512_1_0_0_1_n_n_wf : DotDims.WF S1x1024 S1024x512 S1x512 [1] [0] [0] [1] [] []
  dot_S1x1024_S1024x2176_S1x2176_1_0_0_1_n_n_wf : DotDims.WF S1x1024 S1024x2176 S1x2176 [1] [0] [0] [1] [] []
  dot_S1x2176_S2176x512_S1x512_1_0_0_1_n_n_wf : DotDims.WF S1x2176 S2176x512 S1x512 [1] [0] [0] [1] [] []
  hrank0 : 0 < grid0.rank
  k0_off1_inb : ∀ i : grid0.Coords, ∀ a, (k0_off1 i) a + S1x1024.size a ≤ S32x1024.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x512.size a ≤ S32x1x512.size a
  hwx0_0 : ∀ i : grid0.Coords, EltTy.bits .f32 = 32 ∨ (Rect.block (s := S32x1x512) S1x1x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x1024x512.size a ≤ S32x3x2048x512.size a
  hwx0_1 : ∀ i : grid0.Coords, EltTy.bits .f32 = 32 ∨ (Rect.block (s := S32x3x2048x512) S1x1x1024x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x1024x512.size a ≤ S32x3x2048x512.size a
  hwx0_2 : ∀ i : grid0.Coords, EltTy.bits .f32 = 32 ∨ (Rect.block (s := S32x3x2048x512) S1x1x1024x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S32x1024.size a ≤ S32x2048.size a
  hwx0_3 : ∀ i : grid0.Coords, EltTy.bits .i32 = 32 ∨ (Rect.block (s := S32x2048) S32x1024.size (cc0_transform_3 i) (hinb0_3 i)).WholeWords (EltTy.packing .i32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S2176x512.size a ≤ S2176x512.size a
  hwx0_4 : ∀ i : grid0.Coords, EltTy.bits .bf16 = 32 ∨ (Rect.block (s := S2176x512) S2176x512.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S2176x512.size a ≤ S2176x512.size a
  hwx0_5 : ∀ i : grid0.Coords, EltTy.bits .bf16 = 32 ∨ (Rect.block (s := S2176x512) S2176x512.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x1x512.size a ≤ S32x1x512.size a
  hwx0_6 : ∀ i : grid0.Coords, EltTy.bits .f32 = 32 ∨ (Rect.block (s := S32x1x512) S1x1x512.size (cc0_transform_6 i) (hinb0_6 i)).WholeWords (EltTy.packing .f32)
  hrank1 : 0 < grid1.rank
  k1_off1_inb : ∀ i : grid1.Coords, ∀ a, (k1_off1 i) a + S1x1024.size a ≤ S32x1024.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x1x512.size a ≤ S32x1x512.size a
  hwx1_0 : ∀ i : grid1.Coords, EltTy.bits .f32 = 32 ∨ (Rect.block (s := S32x1x512) S1x1x512.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x1x1024x512.size a ≤ S32x3x2048x512.size a
  hwx1_1 : ∀ i : grid1.Coords, EltTy.bits .f32 = 32 ∨ (Rect.block (s := S32x3x2048x512) S1x1x1024x512.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1x1024x512.size a ≤ S32x3x2048x512.size a
  hwx1_2 : ∀ i : grid1.Coords, EltTy.bits .f32 = 32 ∨ (Rect.block (s := S32x3x2048x512) S1x1x1024x512.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S32x1024.size a ≤ S32x2048.size a
  hwx1_3 : ∀ i : grid1.Coords, EltTy.bits .i32 = 32 ∨ (Rect.block (s := S32x2048) S32x1024.size (cc1_transform_3 i) (hinb1_3 i)).WholeWords (EltTy.packing .i32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S2176x512.size a ≤ S2176x512.size a
  hwx1_4 : ∀ i : grid1.Coords, EltTy.bits .bf16 = 32 ∨ (Rect.block (s := S2176x512) S2176x512.size (cc1_transform_4 i) (hinb1_4 i)).WholeWords (EltTy.packing .bf16)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S2176x512.size a ≤ S2176x512.size a
  hwx1_5 : ∀ i : grid1.Coords, EltTy.bits .bf16 = 32 ∨ (Rect.block (s := S2176x512) S2176x512.size (cc1_transform_5 i) (hinb1_5 i)).WholeWords (EltTy.packing .bf16)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S1x1x512.size a ≤ S32x1x512.size a
  hwx1_6 : ∀ i : grid1.Coords, EltTy.bits .f32 = 32 ∨ (Rect.block (s := S32x1x512) S1x1x512.size (cc1_transform_6 i) (hinb1_6 i)).WholeWords (EltTy.packing .f32)
  hrank2 : 0 < grid2.rank
  k2_off1_inb : ∀ i : grid2.Coords, ∀ a, (k2_off1 i) a + S1x1024.size a ≤ S32x1024.size a
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1x1x512.size a ≤ S32x1x512.size a
  hwx2_0 : ∀ i : grid2.Coords, EltTy.bits .f32 = 32 ∨ (Rect.block (s := S32x1x512) S1x1x512.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1x1x1024x512.size a ≤ S32x3x2048x512.size a
  hwx2_1 : ∀ i : grid2.Coords, EltTy.bits .f32 = 32 ∨ (Rect.block (s := S32x3x2048x512) S1x1x1024x512.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1x1x1024x512.size a ≤ S32x3x2048x512.size a
  hwx2_2 : ∀ i : grid2.Coords, EltTy.bits .f32 = 32 ∨ (Rect.block (s := S32x3x2048x512) S1x1x1024x512.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S32x1024.size a ≤ S32x2048.size a
  hwx2_3 : ∀ i : grid2.Coords, EltTy.bits .i32 = 32 ∨ (Rect.block (s := S32x2048) S32x1024.size (cc2_transform_3 i) (hinb2_3 i)).WholeWords (EltTy.packing .i32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S2176x512.size a ≤ S2176x512.size a
  hwx2_4 : ∀ i : grid2.Coords, EltTy.bits .bf16 = 32 ∨ (Rect.block (s := S2176x512) S2176x512.size (cc2_transform_4 i) (hinb2_4 i)).WholeWords (EltTy.packing .bf16)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S2176x512.size a ≤ S2176x512.size a
  hwx2_5 : ∀ i : grid2.Coords, EltTy.bits .bf16 = 32 ∨ (Rect.block (s := S2176x512) S2176x512.size (cc2_transform_5 i) (hinb2_5 i)).WholeWords (EltTy.packing .bf16)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S1x1x512.size a ≤ S32x1x512.size a
  hwx2_6 : ∀ i : grid2.Coords, EltTy.bits .f32 = 32 ∨ (Rect.block (s := S32x1x512) S1x1x512.size (cc2_transform_6 i) (hinb2_6 i)).WholeWords (EltTy.packing .f32)

variable [Facts₀]

def gather_S32000x512_S32x32x1_S32x32x512_2_0_n_n_0_2_1512 : GatherDims S32000x512 S32x32x1 S32x32x512 where
  offsetDims := [2]
  collapsedSliceDims := [0]
  operandBatchingDims := []
  startIndicesBatchingDims := []
  startIndexMap := [0]
  indexVectorDim := 2
  sliceSizes := ![1, 512]
  wf := gather_S32000x512_S32x32x1_S32x32x512_2_0_n_n_0_2_1512_wf
def dot_S1x512_S2176x512_S1x2176_1_1_0_0_n_n : DotDims S1x512 S2176x512 S1x2176 where
  lhsContracting := [1]
  rhsContracting := [1]
  lhsNonContracting := [0]
  rhsNonContracting := [0]
  lhsBatch := []
  rhsBatch := []
  wf := dot_S1x512_S2176x512_S1x2176_1_1_0_0_n_n_wf
def dot_S1x512_S1024x512_S1x1024_1_1_0_0_n_n : DotDims S1x512 S1024x512 S1x1024 where
  lhsContracting := [1]
  rhsContracting := [1]
  lhsNonContracting := [0]
  rhsNonContracting := [0]
  lhsBatch := []
  rhsBatch := []
  wf := dot_S1x512_S1024x512_S1x1024_1_1_0_0_n_n_wf
def dot_S1x2176_S1024x2176_S1x1024_1_1_0_0_n_n : DotDims S1x2176 S1024x2176 S1x1024 where
  lhsContracting := [1]
  rhsContracting := [1]
  lhsNonContracting := [0]
  rhsNonContracting := [0]
  lhsBatch := []
  rhsBatch := []
  wf := dot_S1x2176_S1024x2176_S1x1024_1_1_0_0_n_n_wf
def dot_S1x1024_S1024x512_S1x512_1_0_0_1_n_n : DotDims S1x1024 S1024x512 S1x512 where
  lhsContracting := [1]
  rhsContracting := [0]
  lhsNonContracting := [0]
  rhsNonContracting := [1]
  lhsBatch := []
  rhsBatch := []
  wf := dot_S1x1024_S1024x512_S1x512_1_0_0_1_n_n_wf
def dot_S1x1024_S1024x2176_S1x2176_1_0_0_1_n_n : DotDims S1x1024 S1024x2176 S1x2176 where
  lhsContracting := [1]
  rhsContracting := [0]
  lhsNonContracting := [0]
  rhsNonContracting := [1]
  lhsBatch := []
  rhsBatch := []
  wf := dot_S1x1024_S1024x2176_S1x2176_1_0_0_1_n_n_wf
def dot_S1x2176_S2176x512_S1x512_1_0_0_1_n_n : DotDims S1x2176 S2176x512 S1x512 where
  lhsContracting := [1]
  rhsContracting := [0]
  lhsNonContracting := [0]
  rhsNonContracting := [1]
  lhsBatch := []
  rhsBatch := []
  wf := dot_S1x2176_S2176x512_S1x512_1_0_0_1_n_n_wf

abbrev win0_0 : Pipeline.Window sig grid0 :=
  Pipeline.Window.ofSpec (Memref.whole main_v11) S1x1x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S1x1x1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S1x1x1024x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg1) S32x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v17) S2176x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v19) S2176x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v20) S1x1x512.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun _ => false | 5 => fun _ => false | 6 => fun i => !(k0_cond2 i == 1#1) | ⟨_ + 7, h⟩ => absurd h (Nat.not_lt.2 (Nat.le_add_left _ _))

abbrev win1_0 : Pipeline.Window sig grid1 :=
  Pipeline.Window.ofSpec (Memref.whole main_v20) S1x1x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg2) S1x1x1024x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg3) S1x1x1024x512.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg1) S32x1024.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v22) S2176x512.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v24) S2176x512.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v25) S1x1x512.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev idle1 : Fin 7 → grid1.Coords → Bool := fun | 0 => fun _ => false | 1 => fun _ => false | 2 => fun _ => false | 3 => fun _ => false | 4 => fun _ => false | 5 => fun _ => false | 6 => fun i => !(k1_cond2 i == 1#1) | ⟨_ + 7, h⟩ => absurd h (Nat.not_lt.2 (Nat.le_add_left _ _))

abbrev win2_0 : Pipeline.Window sig grid2 :=
  Pipeline.Window.ofSpec (Memref.whole main_v25) S1x1x512.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg2) S1x1x1024x512.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg3) S1x1x1024x512.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_arg1) S32x1024.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v27) S2176x512.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v29) S2176x512.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v30) S1x1x512.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev idle2 : Fin 7 → grid2.Coords → Bool := fun | 0 => fun _ => false | 1 => fun _ => false | 2 => fun _ => false | 3 => fun _ => false | 4 => fun _ => false | 5 => fun _ => false | 6 => fun i => !(k2_cond2 i == 1#1) | ⟨_ + 7, h⟩ => absurd h (Nat.not_lt.2 (Nat.le_add_left _ _))

class Facts : Prop extends Facts₀ where

variable [Facts]
-- ==== ReferenceIdeal.lean ====
abbrev S32x32 : Shape := ⟨2, ![32, 32]⟩
abbrev S32x2048 : Shape := ⟨2, ![32, 2048]⟩
abbrev S32x3x2048x512 : Shape := ⟨4, ![32, 3, 2048, 512]⟩
abbrev S32000x512 : Shape := ⟨2, ![32000, 512]⟩
abbrev S3x2049x512 : Shape := ⟨3, ![3, 2049, 512]⟩
abbrev S32x512 : Shape := ⟨2, ![32, 512]⟩
abbrev S_ : Shape := ⟨0, ![]⟩
abbrev S32x32x1 : Shape := ⟨3, ![32, 32, 1]⟩
abbrev S32x32x512 : Shape := ⟨3, ![32, 32, 512]⟩
abbrev S1x32x512 : Shape := ⟨3, ![1, 32, 512]⟩
abbrev S32x1x512 : Shape := ⟨3, ![32, 1, 512]⟩
abbrev S1x2049x512 : Shape := ⟨3, ![1, 2049, 512]⟩
abbrev S2049x512 : Shape := ⟨2, ![2049, 512]⟩
abbrev S32x2048x1 : Shape := ⟨3, ![32, 2048, 1]⟩
abbrev S32x2048x512 : Shape := ⟨3, ![32, 2048, 512]⟩
abbrev S32x1x2048x512 : Shape := ⟨4, ![32, 1, 2048, 512]⟩
abbrev S32 : Shape := ⟨1, ![32]⟩
abbrev S32x1 : Shape := ⟨2, ![32, 1]⟩

abbrev nBuf : Space → Nat
  | .hbm => 182
  | .vmem => 0
  | .smem => 0
  | _ => 0

abbrev hbmTy0_0 (i : Nat) : BufTy := match i % 128 with
  | 0 => ⟨S32x32, .i32⟩
  | 1 => ⟨S32x2048, .i32⟩
  | 2 => ⟨S32x3x2048x512, .f32⟩
  | 3 => ⟨S32x3x2048x512, .f32⟩
  | 4 => ⟨S32000x512, .f32⟩
  | 5 => ⟨S3x2049x512, .f32⟩
  | 6 => ⟨S3x2049x512, .f32⟩
  | 7 => ⟨S32x512, .f32⟩
  | 8 => ⟨S_, .i32⟩
  | 9 => ⟨S32x32, .i32⟩
  | 10 => ⟨S32x32, .i1⟩
  | 11 => ⟨S_, .i32⟩
  | 12 => ⟨S32x32, .i32⟩
  | 13 => ⟨S32x32, .i32⟩
  | 14 => ⟨S32x32, .i32⟩
  | 15 => ⟨S32x32x1, .i32⟩
  | 16 => ⟨S32x32x512, .f32⟩
  | 17 => ⟨S1x32x512, .f32⟩
  | 18 => ⟨S32x32x512, .f32⟩
  | 19 => ⟨S32x32x512, .f32⟩
  | 20 => ⟨S_, .f32⟩
  | 21 => ⟨S32x512, .f32⟩
  | 22 => ⟨S32x1x512, .f32⟩
  | 23 => ⟨S1x2049x512, .f32⟩
  | 24 => ⟨S2049x512, .f32⟩
  | 25 => ⟨S_, .i32⟩
  | 26 => ⟨S32x2048, .i32⟩
  | 27 => ⟨S32x2048, .i1⟩
  | 28 => ⟨S_, .i32⟩
  | 29 => ⟨S32x2048, .i32⟩
  | 30 => ⟨S32x2048, .i32⟩
  | 31 => ⟨S32x2048, .i32⟩
  | 32 => ⟨S32x2048x1, .i32⟩
  | 33 => ⟨S32x2048x512, .f32⟩
  | 34 => ⟨S1x2049x512, .f32⟩
  | 35 => ⟨S2049x512, .f32⟩
  | 36 => ⟨S_, .i32⟩
  | 37 => ⟨S32x2048, .i32⟩
  | 38 => ⟨S32x2048, .i1⟩
  | 39 => ⟨S_, .i32⟩
  | 40 => ⟨S32x2048, .i32⟩
  | 41 => ⟨S32x2048, .i32⟩
  | 42 => ⟨S32x2048, .i32⟩
  | 43 => ⟨S32x2048x1, .i32⟩
  | 44 => ⟨S32x2048x512, .f32⟩
  | 45 => ⟨S32x1x2048x512, .f32⟩
  | 46 => ⟨S32x2048x512, .f32⟩
  | 47 => ⟨S32x2048x512, .f32⟩
  | 48 => ⟨S32x1x2048x512, .f32⟩
  | 49 => ⟨S32x2048x512, .f32⟩
  | 50 => ⟨S32x2048x512, .f32⟩
  | 51 => ⟨S32x2048x512, .f32⟩
  | 52 => ⟨S32x2048x512, .f32⟩
  | 53 => ⟨S_, .f32⟩
  | 54 => ⟨S32x2048, .f32⟩
  | 55 => ⟨S_, .f32⟩
  | 56 => ⟨S32, .f32⟩
  | 57 => ⟨S_, .f32⟩
  | 58 => ⟨S32, .f32⟩
  | 59 => ⟨S32, .f32⟩
  | 60 => ⟨S32x1, .f32⟩
  | 61 => ⟨S32x2048, .f32⟩
  | 62 => ⟨S32x2048, .f32⟩
  | 63 => ⟨S32x2048, .f32⟩
  | 64 => ⟨S_, .f32⟩
  | 65 => ⟨S32, .f32⟩
  | 66 => ⟨S32x1, .f32⟩
  | 67 => ⟨S32x2048, .f32⟩
  | 68 => ⟨S32x2048, .f32⟩
  | 69 => ⟨S32x2048x1, .f32⟩
  | 70 => ⟨S32x2048x512, .f32⟩
  | 71 => ⟨S32x2048x512, .f32⟩
  | 72 => ⟨S_, .f32⟩
  | 73 => ⟨S32x512, .f32⟩
  | 74 => ⟨S32x1x512, .f32⟩
  | 75 => ⟨S32x1x512, .f32⟩
  | 76 => ⟨S1x2049x512, .f32⟩
  | 77 => ⟨S2049x512, .f32⟩
  | 78 => ⟨S_, .i32⟩
  | 79 => ⟨S32x2048, .i32⟩
  | 80 => ⟨S32x2048, .i1⟩
  | 81 => ⟨S_, .i32⟩
  | 82 => ⟨S32x2048, .i32⟩
  | 83 => ⟨S32x2048, .i32⟩
  | 84 => ⟨S32x2048, .i32⟩
  | 85 => ⟨S32x2048x1, .i32⟩
  | 86 => ⟨S32x2048x512, .f32⟩
  | 87 => ⟨S1x2049x512, .f32⟩
  | 88 => ⟨S2049x512, .f32⟩
  | 89 => ⟨S_, .i32⟩
  | 90 => ⟨S32x2048, .i32⟩
  | 91 => ⟨S32x2048, .i1⟩
  | 92 => ⟨S_, .i32⟩
  | 93 => ⟨S32x2048, .i32⟩
  | 94 => ⟨S32x2048, .i32⟩
  | 95 => ⟨S32x2048, .i32⟩
  | 96 => ⟨S32x2048x1, .i32⟩
  | 97 => ⟨S32x2048x512, .f32⟩
  | 98 => ⟨S32x1x2048x512, .f32⟩
  | 99 => ⟨S32x2048x512, .f32⟩
  | 100 => ⟨S32x2048x512, .f32⟩
  | 101 => ⟨S32x1x2048x512, .f32⟩
  | 102 => ⟨S32x2048x512, .f32⟩
  | 103 => ⟨S32x2048x512, .f32⟩
  | 104 => ⟨S32x2048x512, .f32⟩
  | 105 => ⟨S32x2048x512, .f32⟩
  | 106 => ⟨S_, .f32⟩
  | 107 => ⟨S32x2048, .f32⟩
  | 108 => ⟨S_, .f32⟩
  | 109 => ⟨S32, .f32⟩
  | 110 => ⟨S_, .f32⟩
  | 111 => ⟨S32, .f32⟩
  | 112 => ⟨S32, .f32⟩
  | 113 => ⟨S32x1, .f32⟩
  | 114 => ⟨S32x2048, .f32⟩
  | 115 => ⟨S32x2048, .f32⟩
  | 116 => ⟨S32x2048, .f32⟩
  | 117 => ⟨S_, .f32⟩
  | 118 => ⟨S32, .f32⟩
  | 119 => ⟨S32x1, .f32⟩
  | 120 => ⟨S32x2048, .f32⟩
  | 121 => ⟨S32x2048, .f32⟩
  | 122 => ⟨S32x2048x1, .f32⟩
  | 123 => ⟨S32x2048x512, .f32⟩
  | 124 => ⟨S32x2048x512, .f32⟩
  | 125 => ⟨S_, .f32⟩
  | 126 => ⟨S32x512, .f32⟩
  | 127 => ⟨S32x1x512, .f32⟩
  | _ => ⟨S32x32, .i32⟩

abbrev hbmTy0_1 (i : Nat) : BufTy := match i % 128 with
  | 0 => ⟨S32x1x512, .f32⟩
  | 1 => ⟨S1x2049x512, .f32⟩
  | 2 => ⟨S2049x512, .f32⟩
  | 3 => ⟨S_, .i32⟩
  | 4 => ⟨S32x2048, .i32⟩
  | 5 => ⟨S32x2048, .i1⟩
  | 6 => ⟨S_, .i32⟩
  | 7 => ⟨S32x2048, .i32⟩
  | 8 => ⟨S32x2048, .i32⟩
  | 9 => ⟨S32x2048, .i32⟩
  | 10 => ⟨S32x2048x1, .i32⟩
  | 11 => ⟨S32x2048x512, .f32⟩
  | 12 => ⟨S1x2049x512, .f32⟩
  | 13 => ⟨S2049x512, .f32⟩
  | 14 => ⟨S_, .i32⟩
  | 15 => ⟨S32x2048, .i32⟩
  | 16 => ⟨S32x2048, .i1⟩
  | 17 => ⟨S_, .i32⟩
  | 18 => ⟨S32x2048, .i32⟩
  | 19 => ⟨S32x2048, .i32⟩
  | 20 => ⟨S32x2048, .i32⟩
  | 21 => ⟨S32x2048x1, .i32⟩
  | 22 => ⟨S32x2048x512, .f32⟩
  | 23 => ⟨S32x1x2048x512, .f32⟩
  | 24 => ⟨S32x2048x512, .f32⟩
  | 25 => ⟨S32x2048x512, .f32⟩
  | 26 => ⟨S32x1x2048x512, .f32⟩
  | 27 => ⟨S32x2048x512, .f32⟩
  | 28 => ⟨S32x2048x512, .f32⟩
  | 29 => ⟨S32x2048x512, .f32⟩
  | 30 => ⟨S32x2048x512, .f32⟩
  | 31 => ⟨S_, .f32⟩
  | 32 => ⟨S32x2048, .f32⟩
  | 33 => ⟨S_, .f32⟩
  | 34 => ⟨S32, .f32⟩
  | 35 => ⟨S_, .f32⟩
  | 36 => ⟨S32, .f32⟩
  | 37 => ⟨S32, .f32⟩
  | 38 => ⟨S32x1, .f32⟩
  | 39 => ⟨S32x2048, .f32⟩
  | 40 => ⟨S32x2048, .f32⟩
  | 41 => ⟨S32x2048, .f32⟩
  | 42 => ⟨S_, .f32⟩
  | 43 => ⟨S32, .f32⟩
  | 44 => ⟨S32x1, .f32⟩
  | 45 => ⟨S32x2048, .f32⟩
  | 46 => ⟨S32x2048, .f32⟩
  | 47 => ⟨S32x2048x1, .f32⟩
  | 48 => ⟨S32x2048x512, .f32⟩
  | 49 => ⟨S32x2048x512, .f32⟩
  | 50 => ⟨S_, .f32⟩
  | 51 => ⟨S32x512, .f32⟩
  | 52 => ⟨S32x1x512, .f32⟩
  | 53 => ⟨S32x1x512, .f32⟩
  | _ => ⟨S32x32, .i32⟩

abbrev hbmTy (i : Nat) : BufTy := match i / 128 with
  | 0 => hbmTy0_0 i
  | 1 => hbmTy0_1 i
  | _ => ⟨S32x32, .i32⟩

abbrev bufTy : (tb : Table) → Fin (tcTables nBuf tb) → BufTy
  | .hbm, ⟨i, _⟩ => hbmTy i
  | _, _ => ⟨S32x32, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev main_v1 : Ref sig .tc := ⟨.hbm, 10, rfl⟩
abbrev main_c_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_c_1 : Ref sig .tc := ⟨.hbm, 25, rfl⟩
abbrev main_v14 : Ref sig .tc := ⟨.hbm, 26, rfl⟩
abbrev main_v15 : Ref sig .tc := ⟨.hbm, 27, rfl⟩
abbrev main_c_2 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_c_3 : Ref sig .tc := ⟨.hbm, 36, rfl⟩
abbrev main_v23 : Ref sig .tc := ⟨.hbm, 37, rfl⟩
abbrev main_v24 : Ref sig .tc := ⟨.hbm, 38, rfl⟩
abbrev main_c_4 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_cst_5 : Ref sig .tc := ⟨.hbm, 53, rfl⟩
abbrev main_v38 : Ref sig .tc := ⟨.hbm, 54, rfl⟩
abbrev main_cst_6 : Ref sig .tc := ⟨.hbm, 55, rfl⟩
abbrev main_v39 : Ref sig .tc := ⟨.hbm, 56, rfl⟩
abbrev main_cst_7 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_cst_8 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_cst_9 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_c_10 : Ref sig .tc := ⟨.hbm, 78, rfl⟩
abbrev main_v58 : Ref sig .tc := ⟨.hbm, 79, rfl⟩
abbrev main_v59 : Ref sig .tc := ⟨.hbm, 80, rfl⟩
abbrev main_c_11 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_c_12 : Ref sig .tc := ⟨.hbm, 89, rfl⟩
abbrev main_v67 : Ref sig .tc := ⟨.hbm, 90, rfl⟩
abbrev main_v68 : Ref sig .tc := ⟨.hbm, 91, rfl⟩
abbrev main_c_13 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_cst_14 : Ref sig .tc := ⟨.hbm, 106, rfl⟩
abbrev main_v82 : Ref sig .tc := ⟨.hbm, 107, rfl⟩
abbrev main_cst_15 : Ref sig .tc := ⟨.hbm, 108, rfl⟩
abbrev main_v83 : Ref sig .tc := ⟨.hbm, 109, rfl⟩
abbrev main_cst_16 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_cst_17 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_v93 : Ref sig .tc := ⟨.hbm, 121, rfl⟩
abbrev main_v94 : Ref sig .tc := ⟨.hbm, 122, rfl⟩
abbrev main_v95 : Ref sig .tc := ⟨.hbm, 123, rfl⟩
abbrev main_v96 : Ref sig .tc := ⟨.hbm, 124, rfl⟩
abbrev main_cst_18 : Ref sig .tc := ⟨.hbm, 125, rfl⟩
abbrev main_v97 : Ref sig .tc := ⟨.hbm, 126, rfl⟩
abbrev main_v98 : Ref sig .tc := ⟨.hbm, 127, rfl⟩
abbrev main_v99 : Ref sig .tc := ⟨.hbm, 128, rfl⟩
abbrev main_v100 : Ref sig .tc := ⟨.hbm, 129, rfl⟩
abbrev main_v101 : Ref sig .tc := ⟨.hbm, 130, rfl⟩
abbrev main_c_19 : Ref sig .tc := ⟨.hbm, 131, rfl⟩
abbrev main_v102 : Ref sig .tc := ⟨.hbm, 132, rfl⟩
abbrev main_v103 : Ref sig .tc := ⟨.hbm, 133, rfl⟩
abbrev main_c_20 : Ref sig .tc := ⟨.hbm, 134, rfl⟩
abbrev main_v104 : Ref sig .tc := ⟨.hbm, 135, rfl⟩
abbrev main_v105 : Ref sig .tc := ⟨.hbm, 136, rfl⟩
abbrev main_v106 : Ref sig .tc := ⟨.hbm, 137, rfl⟩
abbrev main_v107 : Ref sig .tc := ⟨.hbm, 138, rfl⟩
abbrev main_v108 : Ref sig .tc := ⟨.hbm, 139, rfl⟩
abbrev main_v109 : Ref sig .tc := ⟨.hbm, 140, rfl⟩
abbrev main_v110 : Ref sig .tc := ⟨.hbm, 141, rfl⟩
abbrev main_c_21 : Ref sig .tc := ⟨.hbm, 142, rfl⟩
abbrev main_v111 : Ref sig .tc := ⟨.hbm, 143, rfl⟩
abbrev main_v112 : Ref sig .tc := ⟨.hbm, 144, rfl⟩
abbrev main_c_22 : Ref sig .tc := ⟨.hbm, 145, rfl⟩
abbrev main_v113 : Ref sig .tc := ⟨.hbm, 146, rfl⟩
abbrev main_v114 : Ref sig .tc := ⟨.hbm, 147, rfl⟩
abbrev main_v115 : Ref sig .tc := ⟨.hbm, 148, rfl⟩
abbrev main_v116 : Ref sig .tc := ⟨.hbm, 149, rfl⟩
abbrev main_v117 : Ref sig .tc := ⟨.hbm, 150, rfl⟩
abbrev main_v118 : Ref sig .tc := ⟨.hbm, 151, rfl⟩
abbrev main_v119 : Ref sig .tc := ⟨.hbm, 152, rfl⟩
abbrev main_v120 : Ref sig .tc := ⟨.hbm, 153, rfl⟩
abbrev main_v121 : Ref sig .tc := ⟨.hbm, 154, rfl⟩
abbrev main_v122 : Ref sig .tc := ⟨.hbm, 155, rfl⟩
abbrev main_v123 : Ref sig .tc := ⟨.hbm, 156, rfl⟩
abbrev main_v124 : Ref sig .tc := ⟨.hbm, 157, rfl⟩
abbrev main_v125 : Ref sig .tc := ⟨.hbm, 158, rfl⟩
abbrev main_cst_23 : Ref sig .tc := ⟨.hbm, 159, rfl⟩
abbrev main_v126 : Ref sig .tc := ⟨.hbm, 160, rfl⟩
abbrev main_cst_24 : Ref sig .tc := ⟨.hbm, 161, rfl⟩
abbrev main_v127 : Ref sig .tc := ⟨.hbm, 162, rfl⟩
abbrev main_cst_25 : Ref sig .tc := ⟨.hbm, 163, rfl⟩
abbrev main_v128 : Ref sig .tc := ⟨.hbm, 164, rfl⟩
abbrev main_v129 : Ref sig .tc := ⟨.hbm, 165, rfl⟩
abbrev main_v130 : Ref sig .tc := ⟨.hbm, 166, rfl⟩
abbrev main_v131 : Ref sig .tc := ⟨.hbm, 167, rfl⟩
abbrev main_v132 : Ref sig .tc := ⟨.hbm, 168, rfl⟩
abbrev main_v133 : Ref sig .tc := ⟨.hbm, 169, rfl⟩
abbrev main_cst_26 : Ref sig .tc := ⟨.hbm, 170, rfl⟩
abbrev main_v134 : Ref sig .tc := ⟨.hbm, 171, rfl⟩
abbrev main_v135 : Ref sig .tc := ⟨.hbm, 172, rfl⟩
abbrev main_v136 : Ref sig .tc := ⟨.hbm, 173, rfl⟩
abbrev main_v137 : Ref sig .tc := ⟨.hbm, 174, rfl⟩
abbrev main_v138 : Ref sig .tc := ⟨.hbm, 175, rfl⟩
abbrev main_v139 : Ref sig .tc := ⟨.hbm, 176, rfl⟩
abbrev main_v140 : Ref sig .tc := ⟨.hbm, 177, rfl⟩
abbrev main_cst_27 : Ref sig .tc := ⟨.hbm, 178, rfl⟩
abbrev main_v141 : Ref sig .tc := ⟨.hbm, 179, rfl⟩
abbrev main_v142 : Ref sig .tc := ⟨.hbm, 180, rfl⟩
abbrev main_v143 : Ref sig .tc := ⟨.hbm, 181, rfl⟩

abbrev nD : Nat := 1
abbrev τ : Topo := Topo.v7x

variable {F : FTy → Type} [FloatOps F]

class Facts₀ : Prop where
  bcast_S_S32x32 : S_.BroadcastsInDim S32x32 (![] : Fin 0 → Fin S32x32.rank)
  bcast_S32x32_S32x32x1_0_1 : S32x32.BroadcastsInDim S32x32x1 (![0, 1] : Fin 2 → Fin S32x32x1.rank)
  bcast_S32x512_S1x32x512_1_2 : S32x512.BroadcastsInDim S1x32x512 (![1, 2] : Fin 2 → Fin S1x32x512.rank)
  bcast_S1x32x512_S32x32x512_0_1_2 : S1x32x512.BroadcastsInDim S32x32x512 (![0, 1, 2] : Fin 3 → Fin S32x32x512.rank)
  reducesTo_S32x32x512_S32x512_d1 : S32x32x512.ReducesTo [1] S32x512
  h_S_ : 0 < S_.numel
  bcast_S32x512_S32x1x512_0_2 : S32x512.BroadcastsInDim S32x1x512 (![0, 2] : Fin 2 → Fin S32x1x512.rank)
  slices_S3x2049x512_S1x2049x512_0_0_0 : S3x2049x512.Slices ![0, 0, 0] S1x2049x512
  shapeCasts_S1x2049x512_S2049x512 : S1x2049x512.ShapeCasts S2049x512
  bcast_S_S32x2048 : S_.BroadcastsInDim S32x2048 (![] : Fin 0 → Fin S32x2048.rank)
  bcast_S32x2048_S32x2048x1_0_1 : S32x2048.BroadcastsInDim S32x2048x1 (![0, 1] : Fin 2 → Fin S32x2048x1.rank)
  slices_S32x3x2048x512_S32x1x2048x512_0_0_0_0 : S32x3x2048x512.Slices ![0, 0, 0, 0] S32x1x2048x512
  shapeCasts_S32x1x2048x512_S32x2048x512 : S32x1x2048x512.ShapeCasts S32x2048x512
  bcast_S32x1x512_S32x2048x512_0_1_2 : S32x1x512.BroadcastsInDim S32x2048x512 (![0, 1, 2] : Fin 3 → Fin S32x2048x512.rank)
  reducesTo_S32x2048x512_S32x2048_d2 : S32x2048x512.ReducesTo [2] S32x2048
  reducesTo_S32x2048_S32_d1 : S32x2048.ReducesTo [1] S32
  bcast_S_S32 : S_.BroadcastsInDim S32 (![] : Fin 0 → Fin S32.rank)
  bcast_S32_S32x1_0 : S32.BroadcastsInDim S32x1 (![0] : Fin 1 → Fin S32x1.rank)
  bcast_S32x1_S32x2048_0_1 : S32x1.BroadcastsInDim S32x2048 (![0, 1] : Fin 2 → Fin S32x2048.rank)
  bcast_S32x2048x1_S32x2048x512_0_1_2 : S32x2048x1.BroadcastsInDim S32x2048x512 (![0, 1, 2] : Fin 3 → Fin S32x2048x512.rank)
  reducesTo_S32x2048x512_S32x512_d1 : S32x2048x512.ReducesTo [1] S32x512
  slices_S3x2049x512_S1x2049x512_1_0_0 : S3x2049x512.Slices ![1, 0, 0] S1x2049x512
  slices_S32x3x2048x512_S32x1x2048x512_0_1_0_0 : S32x3x2048x512.Slices ![0, 1, 0, 0] S32x1x2048x512
  slices_S3x2049x512_S1x2049x512_2_0_0 : S3x2049x512.Slices ![2, 0, 0] S1x2049x512
  slices_S32x3x2048x512_S32x1x2048x512_0_2_0_0 : S32x3x2048x512.Slices ![0, 2, 0, 0] S32x1x2048x512
  gather_S32000x512_S32x32x1_S32x32x512_2_0_n_n_0_2_1512_wf : GatherDims.WF S32000x512 S32x32x1 S32x32x512 [2] [0] [] [0] [] 2 ![1, 512]
  gather_S2049x512_S32x2048x1_S32x2048x512_2_0_n_n_0_2_1512_wf : GatherDims.WF S2049x512 S32x2048x1 S32x2048x512 [2] [0] [] [0] [] 2 ![1, 512]

variable [Facts₀]

def gather_S32000x512_S32x32x1_S32x32x512_2_0_n_n_0_2_1512 : GatherDims S32000x512 S32x32x1 S32x32x512 where
  offsetDims := [2]
  collapsedSliceDims := [0]
  operandBatchingDims := []
  startIndicesBatchingDims := []
  startIndexMap := [0]
  indexVectorDim := 2
  sliceSizes := ![1, 512]
  wf := gather_S32000x512_S32x32x1_S32x32x512_2_0_n_n_0_2_1512_wf
def gather_S2049x512_S32x2048x1_S32x2048x512_2_0_n_n_0_2_1512 : GatherDims S2049x512 S32x2048x1 S32x2048x512 where
  offsetDims := [2]
  collapsedSliceDims := [0]
  operandBatchingDims := []
  startIndicesBatchingDims := []
  startIndexMap := [0]
  indexVectorDim := 2
  sliceSizes := ![1, 512]
  wf := gather_S2049x512_S32x2048x1_S32x2048x512_2_0_n_n_0_2_1512_wf

class Facts : Prop extends Facts₀ where

variable [Facts]
-- ==== Proof.Step.lean ====
import proofs.«410490_j37271726195550_3_alg».proof.Proof.Gen.KernelIdeal.Skeleton
import Idealize.ShloMosaic.Lib.Pipeline.FrameBody

noncomputable section

namespace Cert.KernelIdeal.Hop

open Idealize.ShloMosaic Idealize.SL.Sem Cert.KernelIdeal Cert.KernelIdeal.Gen
variable {F : FTy → Type} [FloatOps F]

/-- The online-softmax state carried from one tile of a batch row to the next: query, running maximum, running sum,
    weighted value sum, time logits, per-bucket weight sums. -/
structure Scr (F : FTy → Type) [FloatOps F] where
  u : Vec F S1x512 .f32
  mx : Vec F S1x1 .f32
  l : Vec F S1x1 .f32
  acc : Vec F S1x512 .f32
  tu : Vec F S1x2176 .f32
  q : Vec F S1x2176 .f32

abbrev relRect (i : grid0.Coords) : Rect S32x1024 := Rect.unit (s := S32x1024) (k0_off1 i) S1x1024.size (k0_off1_inb i)

def relRow (i : grid0.Coords) (x5 : Vec F S32x1024 .i32) : Vec F S1x1024 .i32 := View.ld x5 (relRect i)

def reset (x2 : Vec F S1x1x512 .f32) (x6 : Vec F S2176x512 .bf16) : Scr F where
  u := k0_pay7 x2
  mx := k0_pay8
  l := k0_pay9
  acc := k0_pay10
  tu := k0_pay12 x2 x6
  q := k0_pay11

def fold (v4 : Vec F S1x1024 .i32) (x3 x4 : Vec F S1x1x1024x512 .f32) (s : Scr F) : Scr F where
  u := s.u
  mx := k0_pay5 (k0_pay15 v4 s.u x3 s.tu s.mx)
  l := k0_pay1 (k0_pay17 v4 s.u x3 s.tu s.mx) (k0_pay18 v4 s.u x3 s.tu s.mx s.mx s.l)
  acc := k0_pay3 (k0_pay16 v4 s.u x3 s.tu s.mx s.mx) (k0_pay17 v4 s.u x3 s.tu s.mx) x4 s.acc
  tu := s.tu
  q := k0_pay4 (k0_pay13 v4) (k0_pay16 v4 s.u x3 s.tu s.mx s.mx) (k0_pay17 v4 s.u x3 s.tu s.mx) s.q

def stepA (i : grid0.Coords) (x2 : Vec F S1x1x512 .f32) (x3 x4 : Vec F S1x1x1024x512 .f32) (x5 : Vec F S32x1024 .i32)
    (x6 : Vec F S2176x512 .bf16) : Scr F :=
  fold (relRow i x5) x3 x4 (reset x2 x6)

def stepB (i : grid0.Coords) (x3 x4 : Vec F S1x1x1024x512 .f32) (x5 : Vec F S32x1024 .i32) (s : Scr F) : Scr F :=
  fold (relRow i x5) x3 x4 s

def outB (s : Scr F) (x7 : Vec F S2176x512 .bf16) : Vec F S1x1x512 .f32 :=
  k0_pay6 s.q x7 s.acc s.l s.u

end Cert.KernelIdeal.Hop

end
-- ==== Proof.Body.lean ====
import proofs.«410490_j37271726195550_3_alg».proof.Proof.Gen.KernelIdeal.Launch
import proofs.«410490_j37271726195550_3_alg».proof.Proof.Gen.KernelIdeal.Skeleton
import proofs.«410490_j37271726195550_3_alg».proof.Proof.Step
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hop

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
variable {F : FTy → Type} [FloatOps F]

local notation "𝕄" => MT nD τ sig Unit (Elt F) ℕ (UR sig nD τ) ℕ

abbrev cond_1 (i : grid0.Coords) : Prop :=
  (Scalar.cmpi .ne (Scalar.extui (Scalar.cmpi .eq (BitVec.ofNat 32 (i 1).val) 0#32)) 0#32) = 1#1

abbrev cond_2 (i : grid0.Coords) : Prop := k0_cond2 i = 1#1

theorem zeros2 : (![0, 0] : Fin 2 → Nat) = fun _ => 0 := funext fun a => by fin_cases a <;> rfl

theorem zeros3 : (![0, 0, 0] : Fin 3 → Nat) = fun _ => 0 := funext fun a => by fin_cases a <;> rfl

theorem zeros4 : (![0, 0, 0, 0] : Fin 4 → Nat) = fun _ => 0 := funext fun a => by fin_cases a <;> rfl

theorem read_writes_whole {sg : RefSig} {κ : Kind} {sp : Space} {S : Shape} {e : EltTy} (v : View sg κ sp S e)
    (f : v.ty.Contents (Elt F)) {off : Fin S.rank → Nat} (h : off = fun _ => 0) (inb : ∀ a, off a + S.size a ≤ S.size a)
    (w : S.Idx → Elt F e) (L : List (View.Piece (Elt F) S e)) :
    v.read (Elt F) (v.writes (Elt F) f ((⟨Rect.unit off S.size inb, w⟩ : View.Piece (Elt F) S e) :: L)) = w :=
  (View.read_writes_eq_canon v f _ (fun y => ⟨_, List.mem_cons_self .., View.mem_set_unit_zero h inb y⟩)).trans
    (View.canon_cons_unit_zero h inb w L)

set_option maxHeartbeats 4000000 in
theorem sound_A (c : Dev nD) (E : Set ℕ) (i : grid0.Coords) (arg2 : Memref sig .tc .vmem S1x1x512 .f32) (harg2 : arg2.IsWhole) (arg3 : Memref sig .tc .vmem S1x1x1024x512 .f32) (harg3 : arg3.IsWhole) (arg4 : Memref sig .tc .vmem S1x1x1024x512 .f32) (harg4 : arg4.IsWhole) (arg5 : Memref sig .tc .vmem S32x1024 .i32) (harg5 : arg5.IsWhole) (arg6 : Memref sig .tc .vmem S2176x512 .bf16) (harg6 : arg6.IsWhole) (arg7 : Memref sig .tc .vmem S2176x512 .bf16) (harg7 : arg7.IsWhole) (arg8 : Memref sig .tc .vmem S1x1x512 .f32) (harg8 : arg8.IsWhole) (arg9 : Memref sig .tc .vmem S1x512 .f32) (harg9 : arg9.IsWhole) (arg10 : Memref sig .tc .vmem S1x1 .f32) (harg10 : arg10.IsWhole) (arg11 : Memref sig .tc .vmem S1x1 .f32) (harg11 : arg11.IsWhole) (arg12 : Memref sig .tc .vmem S1x512 .f32) (harg12 : arg12.IsWhole) (arg13 : Memref sig .tc .vmem S1x2176 .f32) (harg13 : arg13.IsWhole) (arg14 : Memref sig .tc .vmem S1x2176 .f32) (harg14 : arg14.IsWhole)
    (hc1 : cond_1 i) (hc2 : ¬cond_2 i)
    (x2 : Vec F S1x1x512 .f32) (x3 x4 : Vec F S1x1x1024x512 .f32) (x5 : Vec F S32x1024 .i32)
    (x6 x7 : Vec F S2176x512 .bf16) (x8 : Vec F S1x1x512 .f32) (K : PUnit → sProp 𝕄) :
    iprop(owns (c : Thread nD τ) arg2 fullShare x2 ∗ owns (c : Thread nD τ) arg3 fullShare x3 ∗ owns (c : Thread nD τ) arg4 fullShare x4
        ∗ owns (c : Thread nD τ) arg5 fullShare x5 ∗ owns (c : Thread nD τ) arg6 fullShare x6 ∗ owns (c : Thread nD τ) arg7 fullShare x7
        ∗ owns (c : Thread nD τ) arg8 fullShare x8
        ∗ (∃ d, owns (c : Thread nD τ) arg9 fullShare d) ∗ (∃ d, owns (c : Thread nD τ) arg10 fullShare d) ∗ (∃ d, owns (c : Thread nD τ) arg11 fullShare d)
        ∗ (∃ d, owns (c : Thread nD τ) arg12 fullShare d) ∗ (∃ d, owns (c : Thread nD τ) arg13 fullShare d) ∗ (∃ d, owns (c : Thread nD τ) arg14 fullShare d)
        ∗ (iprop(owns (c : Thread nD τ) arg2 fullShare x2 ∗ owns (c : Thread nD τ) arg3 fullShare x3 ∗ owns (c : Thread nD τ) arg4 fullShare x4
            ∗ owns (c : Thread nD τ) arg5 fullShare x5 ∗ owns (c : Thread nD τ) arg6 fullShare x6 ∗ owns (c : Thread nD τ) arg7 fullShare x7
            ∗ owns (c : Thread nD τ) arg8 fullShare x8
            ∗ owns (c : Thread nD τ) arg9 fullShare (stepA i x2 x3 x4 x5 x6).u ∗ owns (c : Thread nD τ) arg10 fullShare (stepA i x2 x3 x4 x5 x6).mx
            ∗ owns (c : Thread nD τ) arg11 fullShare (stepA i x2 x3 x4 x5 x6).l ∗ owns (c : Thread nD τ) arg12 fullShare (stepA i x2 x3 x4 x5 x6).acc
            ∗ owns (c : Thread nD τ) arg13 fullShare (stepA i x2 x3 x4 x5 x6).tu ∗ owns (c : Thread nD τ) arg14 fullShare (stepA i x2 x3 x4 x5 x6).q) -∗ K ⟨⟩))
      ⊢ wp frame (wpE (defs₀ (F := F)) Variants.none c none) E (cc0__hop_kernel i arg2 harg2 arg3 harg3 arg4 harg4 arg5 harg5 arg6 harg6 arg7 harg7 arg8 harg8 arg9 harg9 arg10 harg10 arg11 harg11 arg12 harg12 arg13 harg13 arg14 harg14) K := by
  simp only [cc0__hop_kernel_eq_skeleton]; unfold cc0__hop_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩,
    ⟨%d9, %f9, -, H9⟩, ⟨%d10, %f10, -, H10⟩, ⟨%d11, %f11, -, H11⟩, ⟨%d12, %f12, -, H12⟩, ⟨%d13, %f13, -, H13⟩, ⟨%d14, %f14, -, H14⟩, Hk⟩
  obtain rfl := harg2.eq_unread hf2; obtain rfl := harg3.eq_unread hf3; obtain rfl := harg4.eq_unread hf4
  obtain rfl := harg5.eq_unread hf5; obtain rfl := harg6.eq_unread hf6; obtain rfl := harg7.eq_unread hf7
  sl_exec (disch := first | exact hc1 | exact hc2)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact hf8
    iexact H8
  isplitl [H9]; iexists _; isplitr; swap; iexact H9; ipureintro; rotate_left
  isplitl [H10]; iexists _; isplitr; swap; iexact H10; ipureintro; rotate_left
  isplitl [H11]; iexists _; isplitr; swap; iexact H11; ipureintro; rotate_left
  isplitl [H12]; iexists _; isplitr; swap; iexact H12; ipureintro; rotate_left
  isplitl [H13]; iexists _; isplitr; swap; iexact H13; ipureintro; rotate_left
  iexists _; isplitr; swap; iexact H14; ipureintro
  all_goals (sl_unfold_run_names; simp only [stepA, fold, reset, relRow, read_writes_whole (S := S1x512) _ _ zeros2, read_writes_whole (S := S1x1) _ _ zeros2,
      read_writes_whole (S := S1x2176) _ _ zeros2, View.readCov_cons_toLoadRect, View.readAt_eq_ld,
      harg2.read_unread, harg3.read_unread, harg4.read_unread, harg5.read_unread, harg6.read_unread,
      View.ld_unit_zero (S := S1x1x512) zeros3, View.ld_unit_zero (S := S1x1x1024x512) zeros4, View.ld_unit_zero (S := S2176x512) zeros2])

set_option maxHeartbeats 4000000 in
theorem sound_B (c : Dev nD) (E : Set ℕ) (i : grid0.Coords) (arg2 : Memref sig .tc .vmem S1x1x512 .f32) (harg2 : arg2.IsWhole) (arg3 : Memref sig .tc .vmem S1x1x1024x512 .f32) (harg3 : arg3.IsWhole) (arg4 : Memref sig .tc .vmem S1x1x1024x512 .f32) (harg4 : arg4.IsWhole) (arg5 : Memref sig .tc .vmem S32x1024 .i32) (harg5 : arg5.IsWhole) (arg6 : Memref sig .tc .vmem S2176x512 .bf16) (harg6 : arg6.IsWhole) (arg7 : Memref sig .tc .vmem S2176x512 .bf16) (harg7 : arg7.IsWhole) (arg8 : Memref sig .tc .vmem S1x1x512 .f32) (harg8 : arg8.IsWhole) (arg9 : Memref sig .tc .vmem S1x512 .f32) (harg9 : arg9.IsWhole) (arg10 : Memref sig .tc .vmem S1x1 .f32) (harg10 : arg10.IsWhole) (arg11 : Memref sig .tc .vmem S1x1 .f32) (harg11 : arg11.IsWhole) (arg12 : Memref sig .tc .vmem S1x512 .f32) (harg12 : arg12.IsWhole) (arg13 : Memref sig .tc .vmem S1x2176 .f32) (harg13 : arg13.IsWhole) (arg14 : Memref sig .tc .vmem S1x2176 .f32) (harg14 : arg14.IsWhole)
    (hc1 : ¬cond_1 i) (hc2 : cond_2 i)
    (x2 : Vec F S1x1x512 .f32) (x3 x4 : Vec F S1x1x1024x512 .f32) (x5 : Vec F S32x1024 .i32)
    (x6 x7 : Vec F S2176x512 .bf16) (s : Scr F) (K : PUnit → sProp 𝕄) :
    iprop(owns (c : Thread nD τ) arg2 fullShare x2 ∗ owns (c : Thread nD τ) arg3 fullShare x3 ∗ owns (c : Thread nD τ) arg4 fullShare x4
        ∗ owns (c : Thread nD τ) arg5 fullShare x5 ∗ owns (c : Thread nD τ) arg6 fullShare x6 ∗ owns (c : Thread nD τ) arg7 fullShare x7
        ∗ (∃ d, owns (c : Thread nD τ) arg8 fullShare d)
        ∗ owns (c : Thread nD τ) arg9 fullShare s.u ∗ owns (c : Thread nD τ) arg10 fullShare s.mx ∗ owns (c : Thread nD τ) arg11 fullShare s.l
        ∗ owns (c : Thread nD τ) arg12 fullShare s.acc ∗ owns (c : Thread nD τ) arg13 fullShare s.tu ∗ owns (c : Thread nD τ) arg14 fullShare s.q
        ∗ (iprop(owns (c : Thread nD τ) arg2 fullShare x2 ∗ owns (c : Thread nD τ) arg3 fullShare x3 ∗ owns (c : Thread nD τ) arg4 fullShare x4
            ∗ owns (c : Thread nD τ) arg5 fullShare x5 ∗ owns (c : Thread nD τ) arg6 fullShare x6 ∗ owns (c : Thread nD τ) arg7 fullShare x7
            ∗ owns (c : Thread nD τ) arg8 fullShare (outB (stepB i x3 x4 x5 s) x7)
            ∗ owns (c : Thread nD τ) arg9 fullShare (stepB i x3 x4 x5 s).u ∗ owns (c : Thread nD τ) arg10 fullShare (stepB i x3 x4 x5 s).mx
            ∗ owns (c : Thread nD τ) arg11 fullShare (stepB i x3 x4 x5 s).l ∗ owns (c : Thread nD τ) arg12 fullShare (stepB i x3 x4 x5 s).acc
            ∗ owns (c : Thread nD τ) arg13 fullShare (stepB i x3 x4 x5 s).tu ∗ owns (c : Thread nD τ) arg14 fullShare (stepB i x3 x4 x5 s).q) -∗ K ⟨⟩))
      ⊢ wp frame (wpE (defs₀ (F := F)) Variants.none c none) E (cc0__hop_kernel i arg2 harg2 arg3 harg3 arg4 harg4 arg5 harg5 arg6 harg6 arg7 harg7 arg8 harg8 arg9 harg9 arg10 harg10 arg11 harg11 arg12 harg12 arg13 harg13 arg14 harg14) K := by
  simp only [cc0__hop_kernel_eq_skeleton]; unfold cc0__hop_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩,
    ⟨%f9, %hf9, H9⟩, ⟨%f10, %hf10, H10⟩, ⟨%f11, %hf11, H11⟩, ⟨%f12, %hf12, H12⟩, ⟨%f13, %hf13, H13⟩, ⟨%f14, %hf14, H14⟩, Hk⟩
  obtain rfl := harg3.eq_unread hf3; obtain rfl := harg4.eq_unread hf4
  obtain rfl := harg5.eq_unread hf5; obtain rfl := harg7.eq_unread hf7
  obtain rfl := harg9.eq_unread hf9; obtain rfl := harg10.eq_unread hf10; obtain rfl := harg11.eq_unread hf11
  obtain rfl := harg12.eq_unread hf12; obtain rfl := harg13.eq_unread hf13; obtain rfl := harg14.eq_unread hf14
  sl_exec (disch := first | exact hc1 | exact hc2)
  sl_step
  iapply Hk
  isplitl [H2]
  · iexists _; isplitr; · ipureintro; exact hf2
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact hf6
    iexact H6
  isplitl [H7]
  · iexists _; isplitr; · ipureintro; exact harg7.read_unread _
    iexact H7
  isplitl [H8]; iexists _; isplitr; swap; iexact H8; ipureintro; rotate_left
  isplitl [H9]; iexists _; isplitr; swap; iexact H9; ipureintro; rotate_left
  isplitl [H10]; iexists _; isplitr; swap; iexact H10; ipureintro; rotate_left
  isplitl [H11]; iexists _; isplitr; swap; iexact H11; ipureintro; rotate_left
  isplitl [H12]; iexists _; isplitr; swap; iexact H12; ipureintro; rotate_left
  isplitl [H13]; iexists _; isplitr; swap; iexact H13; ipureintro; rotate_left
  iexists _; isplitr; swap; iexact H14; ipureintro
  all_goals (sl_unfold_run_names; simp only [stepB, outB, fold, relRow, read_writes_whole (S := S1x512) _ _ zeros2, read_writes_whole (S := S1x1) _ _ zeros2,
      read_writes_whole (S := S1x2176) _ _ zeros2, read_writes_whole (S := S1x1x512) _ _ zeros3, View.readCov_cons_toLoadRect, View.readAt_eq_ld,
      harg3.read_unread, harg4.read_unread, harg5.read_unread, harg7.read_unread, harg9.read_unread, harg10.read_unread,
      harg11.read_unread, harg12.read_unread, harg13.read_unread, harg14.read_unread,
      View.ld_unit_zero (S := S1x1x1024x512) zeros4, View.ld_unit_zero (S := S2176x512) zeros2, View.ld_unit_zero (S := S1x512) zeros2,
      View.ld_unit_zero (S := S1x1) zeros2, View.ld_unit_zero (S := S1x2176) zeros2])

/-- The three hops run one kernel function; each region's copy of it is definitionally this one. -/
abbrev hopKernel := @cc0__hop_kernel F _ _

end Cert.KernelIdeal.Hop

end
-- ==== Proof.Frame0.lean ====
import proofs.«410490_j37271726195550_3_alg».proof.Proof.Gen.KernelIdeal.Launch
import proofs.«410490_j37271726195550_3_alg».proof.Proof.Gen.KernelIdeal.Skeleton
import proofs.«410490_j37271726195550_3_alg».proof.Proof.Gen.KernelIdeal.Points
import proofs.«410490_j37271726195550_3_alg».proof.Proof.Body
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hop0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.Hop
variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The online-softmax state after grid point n: reset and first tile at an even point, second tile folded into the previous state at an odd one. -/
def scrAt0 (c : Dev nD) : (n : ℕ) → n < cfg0.N → Scr F
  | 0, hn => stepA (grid0.coords ⟨0, hn⟩) (iblk0 V c 0 ⟨0, hn⟩) (iblk0 V c 1 ⟨0, hn⟩) (iblk0 V c 2 ⟨0, hn⟩) (iblk0 V c 3 ⟨0, hn⟩) (iblk0 V c 4 ⟨0, hn⟩)
  | n + 1, hn =>
    if (n + 1) % 2 = 0 then
      stepA (grid0.coords ⟨n + 1, hn⟩) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩)
    else
      stepB (grid0.coords ⟨n + 1, hn⟩) (iblk0 V c 1 ⟨n + 1, hn⟩) (iblk0 V c 2 ⟨n + 1, hn⟩) (iblk0 V c 3 ⟨n + 1, hn⟩) (scrAt0 c n (Nat.lt_of_succ_lt hn))

def outAt0 (c : Dev nD) (n : ℕ) (hn : n < cfg0.N) : Vec F S1x1x512 .f32 :=
  outB (scrAt0 V c n hn) (iblk0 V c 5 ⟨n, hn⟩)

theorem scrAt0_even (c : Dev nD) (t : Fin cfg0.N) (h : t.val % 2 = 0) :
    scrAt0 V c t.val t.isLt = stepA (grid0.coords t) (iblk0 V c 0 t) (iblk0 V c 1 t) (iblk0 V c 2 t) (iblk0 V c 3 t) (iblk0 V c 4 t) := by
  obtain ⟨n, hn⟩ := t
  cases n with
  | zero => rfl
  | succ n => exact if_pos h

theorem scrAt0_odd (c : Dev nD) (t : Fin cfg0.N) (h : t.val % 2 = 1) :
    scrAt0 V c t.val t.isLt = stepB (grid0.coords t) (iblk0 V c 1 t) (iblk0 V c 2 t) (iblk0 V c 3 t)
      (scrAt0 V c (t.val - 1) (Nat.lt_of_le_of_lt (Nat.sub_le _ _) t.isLt)) := by
  obtain ⟨n, hn⟩ := t
  cases n with
  | zero => simp at h
  | succ n => exact if_neg (by dsimp only at h; omega)

abbrev scM0_0 : Memref sig .tc .vmem S1x512 .f32 := Memref.whole cc0_scratch0

abbrev scM0_1 : Memref sig .tc .vmem S1x1 .f32 := Memref.whole cc0_scratch1

abbrev scM0_2 : Memref sig .tc .vmem S1x1 .f32 := Memref.whole cc0_scratch2

abbrev scM0_3 : Memref sig .tc .vmem S1x512 .f32 := Memref.whole cc0_scratch3

abbrev scM0_4 : Memref sig .tc .vmem S1x2176 .f32 := Memref.whole cc0_scratch4

abbrev scM0_5 : Memref sig .tc .vmem S1x2176 .f32 := Memref.whole cc0_scratch5

def scrOwns (c : Dev nD) (s : Scr F) : sProp 𝕄 :=
  iprop(owns (c : Thread nD τ) scM0_0 fullShare s.u ∗ owns (c : Thread nD τ) scM0_1 fullShare s.mx ∗ owns (c : Thread nD τ) scM0_2 fullShare s.l
    ∗ owns (c : Thread nD τ) scM0_3 fullShare s.acc ∗ owns (c : Thread nD τ) scM0_4 fullShare s.tu ∗ owns (c : Thread nD τ) scM0_5 fullShare s.q)

def PhiS0 (c : Dev nD) : (n : ℕ) → n ≤ cfg0.N → sProp 𝕄
  | 0, _ => Pipeline.ΦA spec0 c
  | n + 1, hn => iprop(iprop(scrOwns c (scrAt0 V c n hn)
      ∗ Pipeline.scopedRestBut (Ix := Unit) (Name := ℕ) (U := UR sig nD τ) (Lvl := ℕ) (Val := Elt F) spec0 c [cc0_scratch0, cc0_scratch1, cc0_scratch2, cc0_scratch3, cc0_scratch4, cc0_scratch5])
      ∗ (∃ r, prngReg c r))

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => outAt0 V c t.val t.isLt
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]

theorem after0_1 (c : Dev nD) (t : Fin cfg0.N) : (dat0 V c).after 1 t = iblk0 V c 1 t := by dsimp only [dat0]

theorem after0_2 (c : Dev nD) (t : Fin cfg0.N) : (dat0 V c).after 2 t = iblk0 V c 2 t := by dsimp only [dat0]

theorem after0_3 (c : Dev nD) (t : Fin cfg0.N) : (dat0 V c).after 3 t = iblk0 V c 3 t := by dsimp only [dat0]

theorem after0_4 (c : Dev nD) (t : Fin cfg0.N) : (dat0 V c).after 4 t = iblk0 V c 4 t := by dsimp only [dat0]

theorem after0_5 (c : Dev nD) (t : Fin cfg0.N) : (dat0 V c).after 5 t = iblk0 V c 5 t := by dsimp only [dat0]

theorem after0_6 (c : Dev nD) (t : Fin cfg0.N) : (dat0 V c).after 6 t = outAt0 V c t.val t.isLt := by dsimp only [dat0]

theorem hcond_1 : ∀ t : Fin cfg0.N, cond_1 (grid0.coords t) ↔ t.val % 2 = 0 :=
  (by decide +kernel : ∀ t : Fin grid0.N, cond_1 (grid0.coords t) ↔ t.val % 2 = 0)

theorem hcond_2 : ∀ t : Fin cfg0.N, cond_2 (grid0.coords t) ↔ t.val % 2 = 1 :=
  (by decide +kernel : ∀ t : Fin grid0.N, cond_2 (grid0.coords t) ↔ t.val % 2 = 1)

theorem idleAt0_6 : ∀ t : Fin cfg0.N, t.val % 2 = 0 → cfg0.idle 6 (grid0.coords t) = true :=
  (by decide +kernel : ∀ t : Fin grid0.N, t.val % 2 = 0 → cfg0.idle 6 (grid0.coords t) = true)

theorem liveAt0_6 : ∀ t : Fin cfg0.N, t.val % 2 = 1 → cfg0.idle 6 (grid0.coords t) = false :=
  (by decide +kernel : ∀ t : Fin grid0.N, t.val % 2 = 1 → cfg0.idle 6 (grid0.coords t) = false)

theorem noFlush0_6 (t : Fin cfg0.N) (h : t.val % 2 = 0) : (cfg0.win 6).flush t = false := by
  cases hf : (cfg0.win 6).flush t with
  | false => rfl
  | true => have := (flush0_6 t).mp hf; omega

theorem before0_0 (c : Dev nD) (t : Fin cfg0.N) (d) : (dat0 V c).before 0 t d = iblk0 V c 0 t :=
  ((dat0 V c).before_in_eq_fetched 0 rfl (fun _ => rfl) (fun _ _ _ => rfl)
      (fun t => by rw [after0_0]; unfold Dat.blockOf iblk0; rw [A_eq0]; try rfl) t d).trans
    (by unfold Dat.fetched Dat.blockOf iblk0; rw [A_eq0]; try rfl)

theorem before0_1 (c : Dev nD) (t : Fin cfg0.N) (d) : (dat0 V c).before 1 t d = iblk0 V c 1 t :=
  ((dat0 V c).before_in_eq_fetched 1 rfl (fun _ => rfl) (fun _ _ _ => rfl)
      (fun t => by rw [after0_1]; unfold Dat.blockOf iblk0; rw [A_eq0]; try rfl) t d).trans
    (by unfold Dat.fetched Dat.blockOf iblk0; rw [A_eq0]; try rfl)

theorem before0_2 (c : Dev nD) (t : Fin cfg0.N) (d) : (dat0 V c).before 2 t d = iblk0 V c 2 t :=
  ((dat0 V c).before_in_eq_fetched 2 rfl (fun _ => rfl) (fun _ _ _ => rfl)
      (fun t => by rw [after0_2]; unfold Dat.blockOf iblk0; rw [A_eq0]; try rfl) t d).trans
    (by unfold Dat.fetched Dat.blockOf iblk0; rw [A_eq0]; try rfl)

theorem before0_3 (c : Dev nD) (t : Fin cfg0.N) (d) : (dat0 V c).before 3 t d = iblk0 V c 3 t :=
  ((dat0 V c).before_in_eq_fetched 3 rfl (fun _ => rfl) (fun _ _ _ => rfl)
      (fun t => by rw [after0_3]; unfold Dat.blockOf iblk0; rw [A_eq0]; try rfl) t d).trans
    (by unfold Dat.fetched Dat.blockOf iblk0; rw [A_eq0]; try rfl)

theorem before0_4 (c : Dev nD) (t : Fin cfg0.N) (d) : (dat0 V c).before 4 t d = iblk0 V c 4 t :=
  ((dat0 V c).before_in_eq_fetched 4 rfl (fun _ => rfl) (fun _ _ _ => rfl)
      (fun t => by rw [after0_4]; unfold Dat.blockOf iblk0; rw [A_eq0]; try rfl) t d).trans
    (by unfold Dat.fetched Dat.blockOf iblk0; rw [A_eq0]; try rfl)

theorem before0_5 (c : Dev nD) (t : Fin cfg0.N) (d) : (dat0 V c).before 5 t d = iblk0 V c 5 t :=
  ((dat0 V c).before_in_eq_fetched 5 rfl (fun _ => rfl) (fun _ _ _ => rfl)
      (fun t => by rw [after0_5]; unfold Dat.blockOf iblk0; rw [A_eq0]; try rfl) t d).trans
    (by unfold Dat.fetched Dat.blockOf iblk0; rw [A_eq0]; try rfl)

abbrev restBut0 (c : Dev nD) : sProp 𝕄 :=
  Pipeline.scopedRestBut (Ix := Unit) (Name := ℕ) (U := UR sig nD τ) (Lvl := ℕ) (Val := Elt F) spec0 c [cc0_scratch0, cc0_scratch1, cc0_scratch2, cc0_scratch3, cc0_scratch4, cc0_scratch5]

theorem PhiA0_eq (c : Dev nD) :
    (Pipeline.ΦA spec0 c : sProp 𝕄)
      = iprop(iprop(iprop((∃ d, owns (c : Thread nD τ) scM0_0 fullShare d) ∗ (∃ d, owns (c : Thread nD τ) scM0_1 fullShare d)
            ∗ (∃ d, owns (c : Thread nD τ) scM0_2 fullShare d) ∗ (∃ d, owns (c : Thread nD τ) scM0_3 fullShare d)
            ∗ (∃ d, owns (c : Thread nD τ) scM0_4 fullShare d) ∗ (∃ d, owns (c : Thread nD τ) scM0_5 fullShare d))
          ∗ restBut0 c) ∗ (∃ r, prngReg c r)) := by
  unfold Pipeline.ΦA; rw [scopedRest0_split]; simp only [scM0_0, scM0_1, scM0_2, scM0_3, scM0_4, scM0_5, owns_whole]; try rfl

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(scrOwns c (scrAt0 V c n hn) ∗ restBut0 c) ∗ (∃ r, prngReg c r)) := rfl

theorem PhiS0_pos (c : Dev nD) (n : ℕ) (h : n ≤ cfg0.N) (hz : n ≠ 0) :
    PhiS0 V c n h = iprop(iprop(scrOwns c (scrAt0 V c (n - 1) (by omega)) ∗ restBut0 c) ∗ (∃ r, prngReg c r)) := by
  cases n with
  | zero => exact absurd rfl hz
  | succ n => rfl

theorem PhiS0_castSucc (c : Dev nD) (t : Fin cfg0.N) :
    (dat0 V c).Φ t.castSucc = PhiS0 V c t.val (Nat.le_of_lt t.isLt) := by
  dsimp only [dat0]; simp only [Fin.coe_castSucc]

theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

theorem Phi0_out (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq]
  unfold scrOwns
  iintro ⟨⟨⟨H9, H10, H11, H12, H13, H14⟩, Hr⟩, Hg⟩
  isplitr [Hg]
  · isplitr [Hr]
    · isplitl [H9]; · iexists _; iexact H9
      isplitl [H10]; · iexists _; iexact H10
      isplitl [H11]; · iexists _; iexact H11
      isplitl [H12]; · iexists _; iexact H12
      isplitl [H13]; · iexists _; iexact H13
      iexists _; iexact H14
    iexact Hr
  iexact Hg

theorem hout0 (c : Dev nD) : (dat0 V c).Φ (Fin.last cfg0.N) ⊢ Pipeline.ΦA spec0 c :=
  Phi0_out V c _ (by rw [Fin.val_last]; have : cfg0.N = 64 := N_0; omega)

theorem leaves0 (c : Dev nD) (t : Fin cfg0.N) (w : Fin cfg0.W) (h : cfg0.idle w (cfg0.grid.coords t) = false) :
    (dat0 V c).leavesExact w t = owns (c : Thread nD τ) ((cfg0.win w).stage (cfg0.slots t w)) fullShare ((dat0 V c).after w t) := by
  unfold Dat.leavesExact; rw [h]

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

def bodyPost0 (c : Dev nD) (t : Fin cfg0.N) : sProp 𝕄 :=
  iprop((dat0 V c).Φ t.succ ∗ (dat0 V c).owesAt () t.succ
    ∗ (dat0 V c).leavesExact 0 t ∗ (dat0 V c).leavesExact 1 t ∗ (dat0 V c).leavesExact 2 t ∗ (dat0 V c).leavesExact 3 t
    ∗ (dat0 V c).leavesExact 4 t ∗ (dat0 V c).leavesExact 5 t ∗ (dat0 V c).leavesExact 6 t)

theorem Phi0_in (c : Dev nD) (t : Fin cfg0.N) : (dat0 V c).Φ t.castSucc ⊢ Pipeline.ΦA spec0 c := by
  by_cases hz : t.val = 0
  · rw [PhiS0_castSucc V c t, PhiS0_zero V c _ _ hz]
    try exact Idealize.SL.BI.Entails.refl _
  · exact Phi0_out V c t.castSucc (by rw [Fin.coe_castSucc]; exact hz)

/-- By the point's parity: an even point is the first tile (`sound_A`), an odd one the second (`sound_B`). -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  rw [show @cc0__hop_kernel F _ _ = hopKernel from rfl]
  simp only [before0_0, before0_1, before0_2, before0_3, before0_4, before0_5]
  rw [show (dat0 V c).owesAt () t.succ = (dat0 V c).owesAt () t.castSucc from rfl]
  rw [show (dat0 V c).Φ t.succ = PhiS0 V c (t.val + 1) t.isLt from rfl, PhiS0_succ]
  rw [leaves0 V c t 0 rfl, leaves0 V c t 1 rfl, leaves0 V c t 2 rfl, leaves0 V c t 3 rfl, leaves0 V c t 4 rfl, leaves0 V c t 5 rfl,
    after0_0, after0_1, after0_2, after0_3, after0_4, after0_5]
  by_cases h : t.val % 2 = 0
  · have hc1 : cond_1 (grid0.coords t) := (hcond_1 t).mpr h
    have hc2 : ¬cond_2 (grid0.coords t) := fun hh => by have := (hcond_2 t).mp hh; omega
    rw [Dat.leavesExact_idle (dat0 V c) 6 t (idleAt0_6 t h) (noFlush0_6 t h)]
    rw [scrAt0_even V c t h]
    refine (sep_mono_left (Phi0_in V c t)).trans ?_
    rw [PhiA0_eq]
    unfold scrOwns
    iintro ⟨⟨⟨⟨HS9, HS10, HS11, HS12, HS13, HS14⟩, Hr⟩, Hg⟩, Hw, ⟨%da, HA⟩, ⟨%db, HB⟩, ⟨%dc, HC⟩, ⟨%dd, HD⟩, ⟨%de, HE⟩, ⟨%df, HF⟩, ⟨%dout, HO⟩⟩
    iapply (sound_A c Set.univ (grid0.coords t) _ _ _ _ _ _ _ _ _ _ _ _ _ _ _ _ _ _ _ _ _ _ _ _ _ _ hc1 hc2 (iblk0 V c 0 t) (iblk0 V c 1 t) (iblk0 V c 2 t) (iblk0 V c 3 t) (iblk0 V c 4 t) (iblk0 V c 5 t) ((dat0 V c).before 6 t dout) _)
    iframe
    iintro ⟨HA, HB, HC, HD, HE, HF, HO, HS9, HS10, HS11, HS12, HS13, HS14⟩
    iframe
    iexists _; iexact HO
  · have hodd : t.val % 2 = 1 := by omega
    have hc1 : ¬cond_1 (grid0.coords t) := fun hh => h ((hcond_1 t).mp hh)
    have hc2 : cond_2 (grid0.coords t) := (hcond_2 t).mpr hodd
    have hz : t.val ≠ 0 := by omega
    rw [leaves0 V c t 6 (liveAt0_6 t hodd), after0_6]
    unfold outAt0
    rw [scrAt0_odd V c t hodd]
    rw [PhiS0_castSucc V c t, PhiS0_pos V c _ _ hz]
    unfold scrOwns
    iintro ⟨⟨⟨⟨HS9, HS10, HS11, HS12, HS13, HS14⟩, Hr⟩, Hg⟩, Hw, ⟨%da, HA⟩, ⟨%db, HB⟩, ⟨%dc, HC⟩, ⟨%dd, HD⟩, ⟨%de, HE⟩, ⟨%df, HF⟩, ⟨%dout, HO⟩⟩
    iapply (sound_B c Set.univ (grid0.coords t) _ _ _ _ _ _ _ _ _ _ _ _ _ _ _ _ _ _ _ _ _ _ _ _ _ _ hc1 hc2 (iblk0 V c 0 t) (iblk0 V c 1 t) (iblk0 V c 2 t) (iblk0 V c 3 t) (iblk0 V c 4 t) (iblk0 V c 5 t)
      (scrAt0 V c (t.val - 1) (Nat.lt_of_le_of_lt (Nat.sub_le _ _) t.isLt)) _)
    iframe
    isplitl [HO]; · iexists _; iexact HO
    iintro ⟨HA, HB, HC, HD, HE, HF, HO, HS9, HS10, HS11, HS12, HS13, HS14⟩
    iframe

theorem body_obligation0 (c : Dev nD) : BodyObligation (dat0 (F := F) V c) (defs₀ (F := F)) Variants.none () Set.univ := fun t => by
  rw [bigSep_W0, bigSep_W0]
  exact sound_body0 V c t

end Cert.KernelIdeal.Hop0

end
-- ==== Proof.Frame1.lean ====
import proofs.«410490_j37271726195550_3_alg».proof.Proof.Gen.KernelIdeal.Launch
import proofs.«410490_j37271726195550_3_alg».proof.Proof.Gen.KernelIdeal.Skeleton
import proofs.«410490_j37271726195550_3_alg».proof.Proof.Gen.KernelIdeal.Points
import proofs.«410490_j37271726195550_3_alg».proof.Proof.Body
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hop1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.Hop
variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The online-softmax state after grid point n: reset and first tile at an even point, second tile folded into the previous state at an odd one. -/
def scrAt1 (c : Dev nD) : (n : ℕ) → n < cfg1.N → Scr F
  | 0, hn => stepA (grid1.coords ⟨0, hn⟩) (iblk1 V c 0 ⟨0, hn⟩) (iblk1 V c 1 ⟨0, hn⟩) (iblk1 V c 2 ⟨0, hn⟩) (iblk1 V c 3 ⟨0, hn⟩) (iblk1 V c 4 ⟨0, hn⟩)
  | n + 1, hn =>
    if (n + 1) % 2 = 0 then
      stepA (grid1.coords ⟨n + 1, hn⟩) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩)
    else
      stepB (grid1.coords ⟨n + 1, hn⟩) (iblk1 V c 1 ⟨n + 1, hn⟩) (iblk1 V c 2 ⟨n + 1, hn⟩) (iblk1 V c 3 ⟨n + 1, hn⟩) (scrAt1 c n (Nat.lt_of_succ_lt hn))

def outAt1 (c : Dev nD) (n : ℕ) (hn : n < cfg1.N) : Vec F S1x1x512 .f32 :=
  outB (scrAt1 V c n hn) (iblk1 V c 5 ⟨n, hn⟩)

theorem scrAt1_even (c : Dev nD) (t : Fin cfg1.N) (h : t.val % 2 = 0) :
    scrAt1 V c t.val t.isLt = stepA (grid1.coords t) (iblk1 V c 0 t) (iblk1 V c 1 t) (iblk1 V c 2 t) (iblk1 V c 3 t) (iblk1 V c 4 t) := by
  obtain ⟨n, hn⟩ := t
  cases n with
  | zero => rfl
  | succ n => exact if_pos h

theorem scrAt1_odd (c : Dev nD) (t : Fin cfg1.N) (h : t.val % 2 = 1) :
    scrAt1 V c t.val t.isLt = stepB (grid1.coords t) (iblk1 V c 1 t) (iblk1 V c 2 t) (iblk1 V c 3 t)
      (scrAt1 V c (t.val - 1) (Nat.lt_of_le_of_lt (Nat.sub_le _ _) t.isLt)) := by
  obtain ⟨n, hn⟩ := t
  cases n with
  | zero => simp at h
  | succ n => exact if_neg (by dsimp only at h; omega)

abbrev scM1_0 : Memref sig .tc .vmem S1x512 .f32 := Memref.whole cc1_scratch0

abbrev scM1_1 : Memref sig .tc .vmem S1x1 .f32 := Memref.whole cc1_scratch1

abbrev scM1_2 : Memref sig .tc .vmem S1x1 .f32 := Memref.whole cc1_scratch2

abbrev scM1_3 : Memref sig .tc .vmem S1x512 .f32 := Memref.whole cc1_scratch3

abbrev scM1_4 : Memref sig .tc .vmem S1x2176 .f32 := Memref.whole cc1_scratch4

abbrev scM1_5 : Memref sig .tc .vmem S1x2176 .f32 := Memref.whole cc1_scratch5

def scrOwns (c : Dev nD) (s : Scr F) : sProp 𝕄 :=
  iprop(owns (c : Thread nD τ) scM1_0 fullShare s.u ∗ owns (c : Thread nD τ) scM1_1 fullShare s.mx ∗ owns (c : Thread nD τ) scM1_2 fullShare s.l
    ∗ owns (c : Thread nD τ) scM1_3 fullShare s.acc ∗ owns (c : Thread nD τ) scM1_4 fullShare s.tu ∗ owns (c : Thread nD τ) scM1_5 fullShare s.q)

def PhiS1 (c : Dev nD) : (n : ℕ) → n ≤ cfg1.N → sProp 𝕄
  | 0, _ => Pipeline.ΦA spec1 c
  | n + 1, hn => iprop(iprop(scrOwns c (scrAt1 V c n hn)
      ∗ Pipeline.scopedRestBut (Ix := Unit) (Name := ℕ) (U := UR sig nD τ) (Lvl := ℕ) (Val := Elt F) spec1 c [cc1_scratch0, cc1_scratch1, cc1_scratch2, cc1_scratch3, cc1_scratch4, cc1_scratch5])
      ∗ (∃ r, prngReg c r))

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => outAt1 V c t.val t.isLt
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]

theorem after1_1 (c : Dev nD) (t : Fin cfg1.N) : (dat1 V c).after 1 t = iblk1 V c 1 t := by dsimp only [dat1]

theorem after1_2 (c : Dev nD) (t : Fin cfg1.N) : (dat1 V c).after 2 t = iblk1 V c 2 t := by dsimp only [dat1]

theorem after1_3 (c : Dev nD) (t : Fin cfg1.N) : (dat1 V c).after 3 t = iblk1 V c 3 t := by dsimp only [dat1]

theorem after1_4 (c : Dev nD) (t : Fin cfg1.N) : (dat1 V c).after 4 t = iblk1 V c 4 t := by dsimp only [dat1]

theorem after1_5 (c : Dev nD) (t : Fin cfg1.N) : (dat1 V c).after 5 t = iblk1 V c 5 t := by dsimp only [dat1]

theorem after1_6 (c : Dev nD) (t : Fin cfg1.N) : (dat1 V c).after 6 t = outAt1 V c t.val t.isLt := by dsimp only [dat1]

theorem hcond_1 : ∀ t : Fin cfg1.N, cond_1 (grid1.coords t) ↔ t.val % 2 = 0 :=
  (by decide +kernel : ∀ t : Fin grid1.N, cond_1 (grid1.coords t) ↔ t.val % 2 = 0)

theorem hcond_2 : ∀ t : Fin cfg1.N, cond_2 (grid1.coords t) ↔ t.val % 2 = 1 :=
  (by decide +kernel : ∀ t : Fin grid1.N, cond_2 (grid1.coords t) ↔ t.val % 2 = 1)

theorem idleAt1_6 : ∀ t : Fin cfg1.N, t.val % 2 = 0 → cfg1.idle 6 (grid1.coords t) = true :=
  (by decide +kernel : ∀ t : Fin grid1.N, t.val % 2 = 0 → cfg1.idle 6 (grid1.coords t) = true)

theorem liveAt1_6 : ∀ t : Fin cfg1.N, t.val % 2 = 1 → cfg1.idle 6 (grid1.coords t) = false :=
  (by decide +kernel : ∀ t : Fin grid1.N, t.val % 2 = 1 → cfg1.idle 6 (grid1.coords t) = false)

theorem noFlush1_6 (t : Fin cfg1.N) (h : t.val % 2 = 0) : (cfg1.win 6).flush t = false := by
  cases hf : (cfg1.win 6).flush t with
  | false => rfl
  | true => have := (flush1_6 t).mp hf; omega

theorem before1_0 (c : Dev nD) (t : Fin cfg1.N) (d) : (dat1 V c).before 0 t d = iblk1 V c 0 t :=
  ((dat1 V c).before_in_eq_fetched 0 rfl (fun _ => rfl) (fun _ _ _ => rfl)
      (fun t => by rw [after1_0]; unfold Dat.blockOf iblk1; rw [A_eq1]; try rfl) t d).trans
    (by unfold Dat.fetched Dat.blockOf iblk1; rw [A_eq1]; try rfl)

theorem before1_1 (c : Dev nD) (t : Fin cfg1.N) (d) : (dat1 V c).before 1 t d = iblk1 V c 1 t :=
  ((dat1 V c).before_in_eq_fetched 1 rfl (fun _ => rfl) (fun _ _ _ => rfl)
      (fun t => by rw [after1_1]; unfold Dat.blockOf iblk1; rw [A_eq1]; try rfl) t d).trans
    (by unfold Dat.fetched Dat.blockOf iblk1; rw [A_eq1]; try rfl)

theorem before1_2 (c : Dev nD) (t : Fin cfg1.N) (d) : (dat1 V c).before 2 t d = iblk1 V c 2 t :=
  ((dat1 V c).before_in_eq_fetched 2 rfl (fun _ => rfl) (fun _ _ _ => rfl)
      (fun t => by rw [after1_2]; unfold Dat.blockOf iblk1; rw [A_eq1]; try rfl) t d).trans
    (by unfold Dat.fetched Dat.blockOf iblk1; rw [A_eq1]; try rfl)

theorem before1_3 (c : Dev nD) (t : Fin cfg1.N) (d) : (dat1 V c).before 3 t d = iblk1 V c 3 t :=
  ((dat1 V c).before_in_eq_fetched 3 rfl (fun _ => rfl) (fun _ _ _ => rfl)
      (fun t => by rw [after1_3]; unfold Dat.blockOf iblk1; rw [A_eq1]; try rfl) t d).trans
    (by unfold Dat.fetched Dat.blockOf iblk1; rw [A_eq1]; try rfl)

theorem before1_4 (c : Dev nD) (t : Fin cfg1.N) (d) : (dat1 V c).before 4 t d = iblk1 V c 4 t :=
  ((dat1 V c).before_in_eq_fetched 4 rfl (fun _ => rfl) (fun _ _ _ => rfl)
      (fun t => by rw [after1_4]; unfold Dat.blockOf iblk1; rw [A_eq1]; try rfl) t d).trans
    (by unfold Dat.fetched Dat.blockOf iblk1; rw [A_eq1]; try rfl)

theorem before1_5 (c : Dev nD) (t : Fin cfg1.N) (d) : (dat1 V c).before 5 t d = iblk1 V c 5 t :=
  ((dat1 V c).before_in_eq_fetched 5 rfl (fun _ => rfl) (fun _ _ _ => rfl)
      (fun t => by rw [after1_5]; unfold Dat.blockOf iblk1; rw [A_eq1]; try rfl) t d).trans
    (by unfold Dat.fetched Dat.blockOf iblk1; rw [A_eq1]; try rfl)

abbrev restBut1 (c : Dev nD) : sProp 𝕄 :=
  Pipeline.scopedRestBut (Ix := Unit) (Name := ℕ) (U := UR sig nD τ) (Lvl := ℕ) (Val := Elt F) spec1 c [cc1_scratch0, cc1_scratch1, cc1_scratch2, cc1_scratch3, cc1_scratch4, cc1_scratch5]

theorem PhiA1_eq (c : Dev nD) :
    (Pipeline.ΦA spec1 c : sProp 𝕄)
      = iprop(iprop(iprop((∃ d, owns (c : Thread nD τ) scM1_0 fullShare d) ∗ (∃ d, owns (c : Thread nD τ) scM1_1 fullShare d)
            ∗ (∃ d, owns (c : Thread nD τ) scM1_2 fullShare d) ∗ (∃ d, owns (c : Thread nD τ) scM1_3 fullShare d)
            ∗ (∃ d, owns (c : Thread nD τ) scM1_4 fullShare d) ∗ (∃ d, owns (c : Thread nD τ) scM1_5 fullShare d))
          ∗ restBut1 c) ∗ (∃ r, prngReg c r)) := by
  unfold Pipeline.ΦA; rw [scopedRest1_split]; simp only [scM1_0, scM1_1, scM1_2, scM1_3, scM1_4, scM1_5, owns_whole]; try rfl

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(scrOwns c (scrAt1 V c n hn) ∗ restBut1 c) ∗ (∃ r, prngReg c r)) := rfl

theorem PhiS1_pos (c : Dev nD) (n : ℕ) (h : n ≤ cfg1.N) (hz : n ≠ 0) :
    PhiS1 V c n h = iprop(iprop(scrOwns c (scrAt1 V c (n - 1) (by omega)) ∗ restBut1 c) ∗ (∃ r, prngReg c r)) := by
  cases n with
  | zero => exact absurd rfl hz
  | succ n => rfl

theorem PhiS1_castSucc (c : Dev nD) (t : Fin cfg1.N) :
    (dat1 V c).Φ t.castSucc = PhiS1 V c t.val (Nat.le_of_lt t.isLt) := by
  dsimp only [dat1]; simp only [Fin.coe_castSucc]

theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

theorem Phi1_out (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  unfold scrOwns
  iintro ⟨⟨⟨H9, H10, H11, H12, H13, H14⟩, Hr⟩, Hg⟩
  isplitr [Hg]
  · isplitr [Hr]
    · isplitl [H9]; · iexists _; iexact H9
      isplitl [H10]; · iexists _; iexact H10
      isplitl [H11]; · iexists _; iexact H11
      isplitl [H12]; · iexists _; iexact H12
      isplitl [H13]; · iexists _; iexact H13
      iexists _; iexact H14
    iexact Hr
  iexact Hg

theorem hout1 (c : Dev nD) : (dat1 V c).Φ (Fin.last cfg1.N) ⊢ Pipeline.ΦA spec1 c :=
  Phi1_out V c _ (by rw [Fin.val_last]; have : cfg1.N = 64 := N_1; omega)

theorem leaves1 (c : Dev nD) (t : Fin cfg1.N) (w : Fin cfg1.W) (h : cfg1.idle w (cfg1.grid.coords t) = false) :
    (dat1 V c).leavesExact w t = owns (c : Thread nD τ) ((cfg1.win w).stage (cfg1.slots t w)) fullShare ((dat1 V c).after w t) := by
  unfold Dat.leavesExact; rw [h]

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

def bodyPost1 (c : Dev nD) (t : Fin cfg1.N) : sProp 𝕄 :=
  iprop((dat1 V c).Φ t.succ ∗ (dat1 V c).owesAt () t.succ
    ∗ (dat1 V c).leavesExact 0 t ∗ (dat1 V c).leavesExact 1 t ∗ (dat1 V c).leavesExact 2 t ∗ (dat1 V c).leavesExact 3 t
    ∗ (dat1 V c).leavesExact 4 t ∗ (dat1 V c).leavesExact 5 t ∗ (dat1 V c).leavesExact 6 t)

theorem Phi1_in (c : Dev nD) (t : Fin cfg1.N) : (dat1 V c).Φ t.castSucc ⊢ Pipeline.ΦA spec1 c := by
  by_cases hz : t.val = 0
  · rw [PhiS1_castSucc V c t, PhiS1_zero V c _ _ hz]
    try exact Idealize.SL.BI.Entails.refl _
  · exact Phi1_out V c t.castSucc (by rw [Fin.coe_castSucc]; exact hz)

/-- By the point's parity: an even point is the first tile (`sound_A`), an odd one the second (`sound_B`). -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  rw [show @cc1__hop_kernel F _ _ = hopKernel from rfl]
  simp only [before1_0, before1_1, before1_2, before1_3, before1_4, before1_5]
  rw [show (dat1 V c).owesAt () t.succ = (dat1 V c).owesAt () t.castSucc from rfl]
  rw [show (dat1 V c).Φ t.succ = PhiS1 V c (t.val + 1) t.isLt from rfl, PhiS1_succ]
  rw [leaves1 V c t 0 rfl, leaves1 V c t 1 rfl, leaves1 V c t 2 rfl, leaves1 V c t 3 rfl, leaves1 V c t 4 rfl, leaves1 V c t 5 rfl,
    after1_0, after1_1, after1_2, after1_3, after1_4, after1_5]
  by_cases h : t.val % 2 = 0
  · have hc1 : cond_1 (grid1.coords t) := (hcond_1 t).mpr h
    have hc2 : ¬cond_2 (grid1.coords t) := fun hh => by have := (hcond_2 t).mp hh; omega
    rw [Dat.leavesExact_idle (dat1 V c) 6 t (idleAt1_6 t h) (noFlush1_6 t h)]
    rw [scrAt1_even V c t h]
    refine (sep_mono_left (Phi1_in V c t)).trans ?_
    rw [PhiA1_eq]
    unfold scrOwns
    iintro ⟨⟨⟨⟨HS9, HS10, HS11, HS12, HS13, HS14⟩, Hr⟩, Hg⟩, Hw, ⟨%da, HA⟩, ⟨%db, HB⟩, ⟨%dc, HC⟩, ⟨%dd, HD⟩, ⟨%de, HE⟩, ⟨%df, HF⟩, ⟨%dout, HO⟩⟩
    iapply (sound_A c Set.univ (grid1.coords t) _ _ _ _ _ _ _ _ _ _ _ _ _ _ _ _ _ _ _ _ _ _ _ _ _ _ hc1 hc2 (iblk1 V c 0 t) (iblk1 V c 1 t) (iblk1 V c 2 t) (iblk1 V c 3 t) (iblk1 V c 4 t) (iblk1 V c 5 t) ((dat1 V c).before 6 t dout) _)
    iframe
    iintro ⟨HA, HB, HC, HD, HE, HF, HO, HS9, HS10, HS11, HS12, HS13, HS14⟩
    iframe
    iexists _; iexact HO
  · have hodd : t.val % 2 = 1 := by omega
    have hc1 : ¬cond_1 (grid1.coords t) := fun hh => h ((hcond_1 t).mp hh)
    have hc2 : cond_2 (grid1.coords t) := (hcond_2 t).mpr hodd
    have hz : t.val ≠ 0 := by omega
    rw [leaves1 V c t 6 (liveAt1_6 t hodd), after1_6]
    unfold outAt1
    rw [scrAt1_odd V c t hodd]
    rw [PhiS1_castSucc V c t, PhiS1_pos V c _ _ hz]
    unfold scrOwns
    iintro ⟨⟨⟨⟨HS9, HS10, HS11, HS12, HS13, HS14⟩, Hr⟩, Hg⟩, Hw, ⟨%da, HA⟩, ⟨%db, HB⟩, ⟨%dc, HC⟩, ⟨%dd, HD⟩, ⟨%de, HE⟩, ⟨%df, HF⟩, ⟨%dout, HO⟩⟩
    iapply (sound_B c Set.univ (grid1.coords t) _ _ _ _ _ _ _ _ _ _ _ _ _ _ _ _ _ _ _ _ _ _ _ _ _ _ hc1 hc2 (iblk1 V c 0 t) (iblk1 V c 1 t) (iblk1 V c 2 t) (iblk1 V c 3 t) (iblk1 V c 4 t) (iblk1 V c 5 t)
      (scrAt1 V c (t.val - 1) (Nat.lt_of_le_of_lt (Nat.sub_le _ _) t.isLt)) _)
    iframe
    isplitl [HO]; · iexists _; iexact HO
    iintro ⟨HA, HB, HC, HD, HE, HF, HO, HS9, HS10, HS11, HS12, HS13, HS14⟩
    iframe

theorem body_obligation1 (c : Dev nD) : BodyObligation (dat1 (F := F) V c) (defs₀ (F := F)) Variants.none () Set.univ := fun t => by
  rw [bigSep_W1, bigSep_W1]
  exact sound_body1 V c t

end Cert.KernelIdeal.Hop1

end
-- ==== Proof.Frame2.lean ====
import proofs.«410490_j37271726195550_3_alg».proof.Proof.Gen.KernelIdeal.Launch
import proofs.«410490_j37271726195550_3_alg».proof.Proof.Gen.KernelIdeal.Skeleton
import proofs.«410490_j37271726195550_3_alg».proof.Proof.Gen.KernelIdeal.Points
import proofs.«410490_j37271726195550_3_alg».proof.Proof.Body
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hop2

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.Hop
variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The online-softmax state after grid point n: reset and first tile at an even point, second tile folded into the previous state at an odd one. -/
def scrAt2 (c : Dev nD) : (n : ℕ) → n < cfg2.N → Scr F
  | 0, hn => stepA (grid2.coords ⟨0, hn⟩) (iblk2 V c 0 ⟨0, hn⟩) (iblk2 V c 1 ⟨0, hn⟩) (iblk2 V c 2 ⟨0, hn⟩) (iblk2 V c 3 ⟨0, hn⟩) (iblk2 V c 4 ⟨0, hn⟩)
  | n + 1, hn =>
    if (n + 1) % 2 = 0 then
      stepA (grid2.coords ⟨n + 1, hn⟩) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩)
    else
      stepB (grid2.coords ⟨n + 1, hn⟩) (iblk2 V c 1 ⟨n + 1, hn⟩) (iblk2 V c 2 ⟨n + 1, hn⟩) (iblk2 V c 3 ⟨n + 1, hn⟩) (scrAt2 c n (Nat.lt_of_succ_lt hn))

def outAt2 (c : Dev nD) (n : ℕ) (hn : n < cfg2.N) : Vec F S1x1x512 .f32 :=
  outB (scrAt2 V c n hn) (iblk2 V c 5 ⟨n, hn⟩)

theorem scrAt2_even (c : Dev nD) (t : Fin cfg2.N) (h : t.val % 2 = 0) :
    scrAt2 V c t.val t.isLt = stepA (grid2.coords t) (iblk2 V c 0 t) (iblk2 V c 1 t) (iblk2 V c 2 t) (iblk2 V c 3 t) (iblk2 V c 4 t) := by
  obtain ⟨n, hn⟩ := t
  cases n with
  | zero => rfl
  | succ n => exact if_pos h

theorem scrAt2_odd (c : Dev nD) (t : Fin cfg2.N) (h : t.val % 2 = 1) :
    scrAt2 V c t.val t.isLt = stepB (grid2.coords t) (iblk2 V c 1 t) (iblk2 V c 2 t) (iblk2 V c 3 t)
      (scrAt2 V c (t.val - 1) (Nat.lt_of_le_of_lt (Nat.sub_le _ _) t.isLt)) := by
  obtain ⟨n, hn⟩ := t
  cases n with
  | zero => simp at h
  | succ n => exact if_neg (by dsimp only at h; omega)

abbrev scM2_0 : Memref sig .tc .vmem S1x512 .f32 := Memref.whole cc2_scratch0

abbrev scM2_1 : Memref sig .tc .vmem S1x1 .f32 := Memref.whole cc2_scratch1

abbrev scM2_2 : Memref sig .tc .vmem S1x1 .f32 := Memref.whole cc2_scratch2

abbrev scM2_3 : Memref sig .tc .vmem S1x512 .f32 := Memref.whole cc2_scratch3

abbrev scM2_4 : Memref sig .tc .vmem S1x2176 .f32 := Memref.whole cc2_scratch4

abbrev scM2_5 : Memref sig .tc .vmem S1x2176 .f32 := Memref.whole cc2_scratch5

def scrOwns (c : Dev nD) (s : Scr F) : sProp 𝕄 :=
  iprop(owns (c : Thread nD τ) scM2_0 fullShare s.u ∗ owns (c : Thread nD τ) scM2_1 fullShare s.mx ∗ owns (c : Thread nD τ) scM2_2 fullShare s.l
    ∗ owns (c : Thread nD τ) scM2_3 fullShare s.acc ∗ owns (c : Thread nD τ) scM2_4 fullShare s.tu ∗ owns (c : Thread nD τ) scM2_5 fullShare s.q)

def PhiS2 (c : Dev nD) : (n : ℕ) → n ≤ cfg2.N → sProp 𝕄
  | 0, _ => Pipeline.ΦA spec2 c
  | n + 1, hn => iprop(iprop(scrOwns c (scrAt2 V c n hn)
      ∗ Pipeline.scopedRestBut (Ix := Unit) (Name := ℕ) (U := UR sig nD τ) (Lvl := ℕ) (Val := Elt F) spec2 c [cc2_scratch0, cc2_scratch1, cc2_scratch2, cc2_scratch3, cc2_scratch4, cc2_scratch5])
      ∗ (∃ r, prngReg c r))

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => outAt2 V c t.val t.isLt
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]

theorem after2_1 (c : Dev nD) (t : Fin cfg2.N) : (dat2 V c).after 1 t = iblk2 V c 1 t := by dsimp only [dat2]

theorem after2_2 (c : Dev nD) (t : Fin cfg2.N) : (dat2 V c).after 2 t = iblk2 V c 2 t := by dsimp only [dat2]

theorem after2_3 (c : Dev nD) (t : Fin cfg2.N) : (dat2 V c).after 3 t = iblk2 V c 3 t := by dsimp only [dat2]

theorem after2_4 (c : Dev nD) (t : Fin cfg2.N) : (dat2 V c).after 4 t = iblk2 V c 4 t := by dsimp only [dat2]

theorem after2_5 (c : Dev nD) (t : Fin cfg2.N) : (dat2 V c).after 5 t = iblk2 V c 5 t := by dsimp only [dat2]

theorem after2_6 (c : Dev nD) (t : Fin cfg2.N) : (dat2 V c).after 6 t = outAt2 V c t.val t.isLt := by dsimp only [dat2]

theorem hcond_1 : ∀ t : Fin cfg2.N, cond_1 (grid2.coords t) ↔ t.val % 2 = 0 :=
  (by decide +kernel : ∀ t : Fin grid2.N, cond_1 (grid2.coords t) ↔ t.val % 2 = 0)

theorem hcond_2 : ∀ t : Fin cfg2.N, cond_2 (grid2.coords t) ↔ t.val % 2 = 1 :=
  (by decide +kernel : ∀ t : Fin grid2.N, cond_2 (grid2.coords t) ↔ t.val % 2 = 1)

theorem idleAt2_6 : ∀ t : Fin cfg2.N, t.val % 2 = 0 → cfg2.idle 6 (grid2.coords t) = true :=
  (by decide +kernel : ∀ t : Fin grid2.N, t.val % 2 = 0 → cfg2.idle 6 (grid2.coords t) = true)

theorem liveAt2_6 : ∀ t : Fin cfg2.N, t.val % 2 = 1 → cfg2.idle 6 (grid2.coords t) = false :=
  (by decide +kernel : ∀ t : Fin grid2.N, t.val % 2 = 1 → cfg2.idle 6 (grid2.coords t) = false)

theorem noFlush2_6 (t : Fin cfg2.N) (h : t.val % 2 = 0) : (cfg2.win 6).flush t = false := by
  cases hf : (cfg2.win 6).flush t with
  | false => rfl
  | true => have := (flush2_6 t).mp hf; omega

theorem before2_0 (c : Dev nD) (t : Fin cfg2.N) (d) : (dat2 V c).before 0 t d = iblk2 V c 0 t :=
  ((dat2 V c).before_in_eq_fetched 0 rfl (fun _ => rfl) (fun _ _ _ => rfl)
      (fun t => by rw [after2_0]; unfold Dat.blockOf iblk2; rw [A_eq2]; try rfl) t d).trans
    (by unfold Dat.fetched Dat.blockOf iblk2; rw [A_eq2]; try rfl)

theorem before2_1 (c : Dev nD) (t : Fin cfg2.N) (d) : (dat2 V c).before 1 t d = iblk2 V c 1 t :=
  ((dat2 V c).before_in_eq_fetched 1 rfl (fun _ => rfl) (fun _ _ _ => rfl)
      (fun t => by rw [after2_1]; unfold Dat.blockOf iblk2; rw [A_eq2]; try rfl) t d).trans
    (by unfold Dat.fetched Dat.blockOf iblk2; rw [A_eq2]; try rfl)

theorem before2_2 (c : Dev nD) (t : Fin cfg2.N) (d) : (dat2 V c).before 2 t d = iblk2 V c 2 t :=
  ((dat2 V c).before_in_eq_fetched 2 rfl (fun _ => rfl) (fun _ _ _ => rfl)
      (fun t => by rw [after2_2]; unfold Dat.blockOf iblk2; rw [A_eq2]; try rfl) t d).trans
    (by unfold Dat.fetched Dat.blockOf iblk2; rw [A_eq2]; try rfl)

theorem before2_3 (c : Dev nD) (t : Fin cfg2.N) (d) : (dat2 V c).before 3 t d = iblk2 V c 3 t :=
  ((dat2 V c).before_in_eq_fetched 3 rfl (fun _ => rfl) (fun _ _ _ => rfl)
      (fun t => by rw [after2_3]; unfold Dat.blockOf iblk2; rw [A_eq2]; try rfl) t d).trans
    (by unfold Dat.fetched Dat.blockOf iblk2; rw [A_eq2]; try rfl)

theorem before2_4 (c : Dev nD) (t : Fin cfg2.N) (d) : (dat2 V c).before 4 t d = iblk2 V c 4 t :=
  ((dat2 V c).before_in_eq_fetched 4 rfl (fun _ => rfl) (fun _ _ _ => rfl)
      (fun t => by rw [after2_4]; unfold Dat.blockOf iblk2; rw [A_eq2]; try rfl) t d).trans
    (by unfold Dat.fetched Dat.blockOf iblk2; rw [A_eq2]; try rfl)

theorem before2_5 (c : Dev nD) (t : Fin cfg2.N) (d) : (dat2 V c).before 5 t d = iblk2 V c 5 t :=
  ((dat2 V c).before_in_eq_fetched 5 rfl (fun _ => rfl) (fun _ _ _ => rfl)
      (fun t => by rw [after2_5]; unfold Dat.blockOf iblk2; rw [A_eq2]; try rfl) t d).trans
    (by unfold Dat.fetched Dat.blockOf iblk2; rw [A_eq2]; try rfl)

abbrev restBut2 (c : Dev nD) : sProp 𝕄 :=
  Pipeline.scopedRestBut (Ix := Unit) (Name := ℕ) (U := UR sig nD τ) (Lvl := ℕ) (Val := Elt F) spec2 c [cc2_scratch0, cc2_scratch1, cc2_scratch2, cc2_scratch3, cc2_scratch4, cc2_scratch5]

theorem PhiA2_eq (c : Dev nD) :
    (Pipeline.ΦA spec2 c : sProp 𝕄)
      = iprop(iprop(iprop((∃ d, owns (c : Thread nD τ) scM2_0 fullShare d) ∗ (∃ d, owns (c : Thread nD τ) scM2_1 fullShare d)
            ∗ (∃ d, owns (c : Thread nD τ) scM2_2 fullShare d) ∗ (∃ d, owns (c : Thread nD τ) scM2_3 fullShare d)
            ∗ (∃ d, owns (c : Thread nD τ) scM2_4 fullShare d) ∗ (∃ d, owns (c : Thread nD τ) scM2_5 fullShare d))
          ∗ restBut2 c) ∗ (∃ r, prngReg c r)) := by
  unfold Pipeline.ΦA; rw [scopedRest2_split]; simp only [scM2_0, scM2_1, scM2_2, scM2_3, scM2_4, scM2_5, owns_whole]; try rfl

theorem PhiS2_zero (c : Dev nD) (n : ℕ) (h : n ≤ cfg2.N) (hz : n = 0) : PhiS2 V c n h = Pipeline.ΦA spec2 c := by
  subst hz; rfl

theorem PhiS2_succ (c : Dev nD) (n : ℕ) (hn : n < cfg2.N) :
    PhiS2 V c (n + 1) hn = iprop(iprop(scrOwns c (scrAt2 V c n hn) ∗ restBut2 c) ∗ (∃ r, prngReg c r)) := rfl

theorem PhiS2_pos (c : Dev nD) (n : ℕ) (h : n ≤ cfg2.N) (hz : n ≠ 0) :
    PhiS2 V c n h = iprop(iprop(scrOwns c (scrAt2 V c (n - 1) (by omega)) ∗ restBut2 c) ∗ (∃ r, prngReg c r)) := by
  cases n with
  | zero => exact absurd rfl hz
  | succ n => rfl

theorem PhiS2_castSucc (c : Dev nD) (t : Fin cfg2.N) :
    (dat2 V c).Φ t.castSucc = PhiS2 V c t.val (Nat.le_of_lt t.isLt) := by
  dsimp only [dat2]; simp only [Fin.coe_castSucc]

theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

theorem Phi2_out (c : Dev nD) (t : Fin (cfg2.N + 1)) (ht : t.val ≠ 0) : (dat2 V c).Φ t ⊢ Pipeline.ΦA spec2 c := by
  rw [show (dat2 V c).Φ t = PhiS2 V c t.val (Nat.le_of_lt_succ t.isLt) from rfl, PhiS2_pos V c _ _ ht, PhiA2_eq]
  unfold scrOwns
  iintro ⟨⟨⟨H9, H10, H11, H12, H13, H14⟩, Hr⟩, Hg⟩
  isplitr [Hg]
  · isplitr [Hr]
    · isplitl [H9]; · iexists _; iexact H9
      isplitl [H10]; · iexists _; iexact H10
      isplitl [H11]; · iexists _; iexact H11
      isplitl [H12]; · iexists _; iexact H12
      isplitl [H13]; · iexists _; iexact H13
      iexists _; iexact H14
    iexact Hr
  iexact Hg

theorem hout2 (c : Dev nD) : (dat2 V c).Φ (Fin.last cfg2.N) ⊢ Pipeline.ΦA spec2 c :=
  Phi2_out V c _ (by rw [Fin.val_last]; have : cfg2.N = 64 := N_2; omega)

theorem leaves2 (c : Dev nD) (t : Fin cfg2.N) (w : Fin cfg2.W) (h : cfg2.idle w (cfg2.grid.coords t) = false) :
    (dat2 V c).leavesExact w t = owns (c : Thread nD τ) ((cfg2.win w).stage (cfg2.slots t w)) fullShare ((dat2 V c).after w t) := by
  unfold Dat.leavesExact; rw [h]

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d)))

def bodyPost2 (c : Dev nD) (t : Fin cfg2.N) : sProp 𝕄 :=
  iprop((dat2 V c).Φ t.succ ∗ (dat2 V c).owesAt () t.succ
    ∗ (dat2 V c).leavesExact 0 t ∗ (dat2 V c).leavesExact 1 t ∗ (dat2 V c).leavesExact 2 t ∗ (dat2 V c).leavesExact 3 t
    ∗ (dat2 V c).leavesExact 4 t ∗ (dat2 V c).leavesExact 5 t ∗ (dat2 V c).leavesExact 6 t)

theorem Phi2_in (c : Dev nD) (t : Fin cfg2.N) : (dat2 V c).Φ t.castSucc ⊢ Pipeline.ΦA spec2 c := by
  by_cases hz : t.val = 0
  · rw [PhiS2_castSucc V c t, PhiS2_zero V c _ _ hz]
    try exact Idealize.SL.BI.Entails.refl _
  · exact Phi2_out V c t.castSucc (by rw [Fin.coe_castSucc]; exact hz)

/-- By the point's parity: an even point is the first tile (`sound_A`), an odd one the second (`sound_B`). -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  rw [show @cc2__hop_kernel F _ _ = hopKernel from rfl]
  simp only [before2_0, before2_1, before2_2, before2_3, before2_4, before2_5]
  rw [show (dat2 V c).owesAt () t.succ = (dat2 V c).owesAt () t.castSucc from rfl]
  rw [show (dat2 V c).Φ t.succ = PhiS2 V c (t.val + 1) t.isLt from rfl, PhiS2_succ]
  rw [leaves2 V c t 0 rfl, leaves2 V c t 1 rfl, leaves2 V c t 2 rfl, leaves2 V c t 3 rfl, leaves2 V c t 4 rfl, leaves2 V c t 5 rfl,
    after2_0, after2_1, after2_2, after2_3, after2_4, after2_5]
  by_cases h : t.val % 2 = 0
  · have hc1 : cond_1 (grid2.coords t) := (hcond_1 t).mpr h
    have hc2 : ¬cond_2 (grid2.coords t) := fun hh => by have := (hcond_2 t).mp hh; omega
    rw [Dat.leavesExact_idle (dat2 V c) 6 t (idleAt2_6 t h) (noFlush2_6 t h)]
    rw [scrAt2_even V c t h]
    refine (sep_mono_left (Phi2_in V c t)).trans ?_
    rw [PhiA2_eq]
    unfold scrOwns
    iintro ⟨⟨⟨⟨HS9, HS10, HS11, HS12, HS13, HS14⟩, Hr⟩, Hg⟩, Hw, ⟨%da, HA⟩, ⟨%db, HB⟩, ⟨%dc, HC⟩, ⟨%dd, HD⟩, ⟨%de, HE⟩, ⟨%df, HF⟩, ⟨%dout, HO⟩⟩
    iapply (sound_A c Set.univ (grid2.coords t) _ _ _ _ _ _ _ _ _ _ _ _ _ _ _ _ _ _ _ _ _ _ _ _ _ _ hc1 hc2 (iblk2 V c 0 t) (iblk2 V c 1 t) (iblk2 V c 2 t) (iblk2 V c 3 t) (iblk2 V c 4 t) (iblk2 V c 5 t) ((dat2 V c).before 6 t dout) _)
    iframe
    iintro ⟨HA, HB, HC, HD, HE, HF, HO, HS9, HS10, HS11, HS12, HS13, HS14⟩
    iframe
    iexists _; iexact HO
  · have hodd : t.val % 2 = 1 := by omega
    have hc1 : ¬cond_1 (grid2.coords t) := fun hh => h ((hcond_1 t).mp hh)
    have hc2 : cond_2 (grid2.coords t) := (hcond_2 t).mpr hodd
    have hz : t.val ≠ 0 := by omega
    rw [leaves2 V c t 6 (liveAt2_6 t hodd), after2_6]
    unfold outAt2
    rw [scrAt2_odd V c t hodd]
    rw [PhiS2_castSucc V c t, PhiS2_pos V c _ _ hz]
    unfold scrOwns
    iintro ⟨⟨⟨⟨HS9, HS10, HS11, HS12, HS13, HS14⟩, Hr⟩, Hg⟩, Hw, ⟨%da, HA⟩, ⟨%db, HB⟩, ⟨%dc, HC⟩, ⟨%dd, HD⟩, ⟨%de, HE⟩, ⟨%df, HF⟩, ⟨%dout, HO⟩⟩
    iapply (sound_B c Set.univ (grid2.coords t) _ _ _ _ _ _ _ _ _ _ _ _ _ _ _ _ _ _ _ _ _ _ _ _ _ _ hc1 hc2 (iblk2 V c 0 t) (iblk2 V c 1 t) (iblk2 V c 2 t) (iblk2 V c 3 t) (iblk2 V c 4 t) (iblk2 V c 5 t)
      (scrAt2 V c (t.val - 1) (Nat.lt_of_le_of_lt (Nat.sub_le _ _) t.isLt)) _)
    iframe
    isplitl [HO]; · iexists _; iexact HO
    iintro ⟨HA, HB, HC, HD, HE, HF, HO, HS9, HS10, HS11, HS12, HS13, HS14⟩
    iframe

theorem body_obligation2 (c : Dev nD) : BodyObligation (dat2 (F := F) V c) (defs₀ (F := F)) Variants.none () Set.univ := fun t => by
  rw [bigSep_W2, bigSep_W2]
  exact sound_body2 V c t

end Cert.KernelIdeal.Hop2

end
-- ==== Proof.WStep.lean ====
import proofs.«410490_j37271726195550_3_alg».proof.Proof.Gen.Kernel.Skeleton
import Idealize.ShloMosaic.Lib.Pipeline.FrameBody

noncomputable section

namespace Cert.Kernel.Hop

open Idealize.ShloMosaic Idealize.SL.Sem Cert.Kernel Cert.Kernel.Gen
variable {F : FTy → Type} [FloatOps F]

/-- The online-softmax state carried from one tile of a batch row to the next: query, running maximum, running sum,
    weighted value sum, time logits, per-bucket weight sums. -/
structure Scr (F : FTy → Type) [FloatOps F] where
  u : Vec F S1x512 .f32
  mx : Vec F S1x1 .f32
  l : Vec F S1x1 .f32
  acc : Vec F S1x512 .f32
  tu : Vec F S1x2176 .f32
  q : Vec F S1x2176 .f32

abbrev relRect (i : grid0.Coords) : Rect S32x1024 := Rect.unit (s := S32x1024) (k0_off1 i) S1x1024.size (k0_off1_inb i)

def relRow (i : grid0.Coords) (x5 : Vec F S32x1024 .i32) : Vec F S1x1024 .i32 := View.ld x5 (relRect i)

def reset (x2 : Vec F S1x1x512 .f32) (x6 : Vec F S2176x512 .bf16) : Scr F where
  u := k0_pay7 x2
  mx := k0_pay8
  l := k0_pay9
  acc := k0_pay10
  tu := k0_pay12 x2 x6
  q := k0_pay11

def fold (v4 : Vec F S1x1024 .i32) (x3 x4 : Vec F S1x1x1024x512 .f32) (s : Scr F) : Scr F where
  u := s.u
  mx := k0_pay5 (k0_pay15 v4 s.u x3 s.tu s.mx)
  l := k0_pay1 (k0_pay17 v4 s.u x3 s.tu s.mx) (k0_pay18 v4 s.u x3 s.tu s.mx s.mx s.l)
  acc := k0_pay3 (k0_pay16 v4 s.u x3 s.tu s.mx s.mx) (k0_pay17 v4 s.u x3 s.tu s.mx) x4 s.acc
  tu := s.tu
  q := k0_pay4 (k0_pay13 v4) (k0_pay16 v4 s.u x3 s.tu s.mx s.mx) (k0_pay17 v4 s.u x3 s.tu s.mx) s.q

def stepA (i : grid0.Coords) (x2 : Vec F S1x1x512 .f32) (x3 x4 : Vec F S1x1x1024x512 .f32) (x5 : Vec F S32x1024 .i32)
    (x6 : Vec F S2176x512 .bf16) : Scr F :=
  fold (relRow i x5) x3 x4 (reset x2 x6)

def stepB (i : grid0.Coords) (x3 x4 : Vec F S1x1x1024x512 .f32) (x5 : Vec F S32x1024 .i32) (s : Scr F) : Scr F :=
  fold (relRow i x5) x3 x4 s

def outB (s : Scr F) (x7 : Vec F S2176x512 .bf16) : Vec F S1x1x512 .f32 :=
  k0_pay6 s.q x7 s.acc s.l s.u

end Cert.Kernel.Hop

end
-- ==== Proof.WBody.lean ====
import proofs.«410490_j37271726195550_3_alg».proof.Proof.Gen.Kernel.Launch
import proofs.«410490_j37271726195550_3_alg».proof.Proof.Gen.Kernel.Skeleton
import proofs.«410490_j37271726195550_3_alg».proof.Proof.WStep
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hop

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen
variable {F : FTy → Type} [FloatOps F]

local notation "𝕄" => MT nD τ sig Unit (Elt F) ℕ (UR sig nD τ) ℕ

abbrev cond_1 (i : grid0.Coords) : Prop :=
  (Scalar.cmpi .ne (Scalar.extui (Scalar.cmpi .eq (BitVec.ofNat 32 (i 1).val) 0#32)) 0#32) = 1#1

abbrev cond_2 (i : grid0.Coords) : Prop := k0_cond2 i = 1#1

theorem zeros2 : (![0, 0] : Fin 2 → Nat) = fun _ => 0 := funext fun a => by fin_cases a <;> rfl

theorem zeros3 : (![0, 0, 0] : Fin 3 → Nat) = fun _ => 0 := funext fun a => by fin_cases a <;> rfl

theorem zeros4 : (![0, 0, 0, 0] : Fin 4 → Nat) = fun _ => 0 := funext fun a => by fin_cases a <;> rfl

theorem read_writes_whole {sg : RefSig} {κ : Kind} {sp : Space} {S : Shape} {e : EltTy} (v : View sg κ sp S e)
    (f : v.ty.Contents (Elt F)) {off : Fin S.rank → Nat} (h : off = fun _ => 0) (inb : ∀ a, off a + S.size a ≤ S.size a)
    (w : S.Idx → Elt F e) (L : List (View.Piece (Elt F) S e)) :
    v.read (Elt F) (v.writes (Elt F) f ((⟨Rect.unit off S.size inb, w⟩ : View.Piece (Elt F) S e) :: L)) = w :=
  (View.read_writes_eq_canon v f _ (fun y => ⟨_, List.mem_cons_self .., View.mem_set_unit_zero h inb y⟩)).trans
    (View.canon_cons_unit_zero h inb w L)

set_option maxHeartbeats 4000000 in
theorem sound_A (c : Dev nD) (E : Set ℕ) (i : grid0.Coords) (arg2 : Memref sig .tc .vmem S1x1x512 .f32) (harg2 : arg2.IsWhole) (arg3 : Memref sig .tc .vmem S1x1x1024x512 .f32) (harg3 : arg3.IsWhole) (arg4 : Memref sig .tc .vmem S1x1x1024x512 .f32) (harg4 : arg4.IsWhole) (arg5 : Memref sig .tc .vmem S32x1024 .i32) (harg5 : arg5.IsWhole) (arg6 : Memref sig .tc .vmem S2176x512 .bf16) (harg6 : arg6.IsWhole) (arg7 : Memref sig .tc .vmem S2176x512 .bf16) (harg7 : arg7.IsWhole) (arg8 : Memref sig .tc .vmem S1x1x512 .f32) (harg8 : arg8.IsWhole) (arg9 : Memref sig .tc .vmem S1x512 .f32) (harg9 : arg9.IsWhole) (arg10 : Memref sig .tc .vmem S1x1 .f32) (harg10 : arg10.IsWhole) (arg11 : Memref sig .tc .vmem S1x1 .f32) (harg11 : arg11.IsWhole) (arg12 : Memref sig .tc .vmem S1x512 .f32) (harg12 : arg12.IsWhole) (arg13 : Memref sig .tc .vmem S1x2176 .f32) (harg13 : arg13.IsWhole) (arg14 : Memref sig .tc .vmem S1x2176 .f32) (harg14 : arg14.IsWhole)
    (hc1 : cond_1 i) (hc2 : ¬cond_2 i)
    (x2 : Vec F S1x1x512 .f32) (x3 x4 : Vec F S1x1x1024x512 .f32) (x5 : Vec F S32x1024 .i32)
    (x6 x7 : Vec F S2176x512 .bf16) (x8 : Vec F S1x1x512 .f32) (K : PUnit → sProp 𝕄) :
    iprop(owns (c : Thread nD τ) arg2 fullShare x2 ∗ owns (c : Thread nD τ) arg3 fullShare x3 ∗ owns (c : Thread nD τ) arg4 fullShare x4
        ∗ owns (c : Thread nD τ) arg5 fullShare x5 ∗ owns (c : Thread nD τ) arg6 fullShare x6 ∗ owns (c : Thread nD τ) arg7 fullShare x7
        ∗ owns (c : Thread nD τ) arg8 fullShare x8
        ∗ (∃ d, owns (c : Thread nD τ) arg9 fullShare d) ∗ (∃ d, owns (c : Thread nD τ) arg10 fullShare d) ∗ (∃ d, owns (c : Thread nD τ) arg11 fullShare d)
        ∗ (∃ d, owns (c : Thread nD τ) arg12 fullShare d) ∗ (∃ d, owns (c : Thread nD τ) arg13 fullShare d) ∗ (∃ d, owns (c : Thread nD τ) arg14 fullShare d)
        ∗ (iprop(owns (c : Thread nD τ) arg2 fullShare x2 ∗ owns (c : Thread nD τ) arg3 fullShare x3 ∗ owns (c : Thread nD τ) arg4 fullShare x4
            ∗ owns (c : Thread nD τ) arg5 fullShare x5 ∗ owns (c : Thread nD τ) arg6 fullShare x6 ∗ owns (c : Thread nD τ) arg7 fullShare x7
            ∗ owns (c : Thread nD τ) arg8 fullShare x8
            ∗ owns (c : Thread nD τ) arg9 fullShare (stepA i x2 x3 x4 x5 x6).u ∗ owns (c : Thread nD τ) arg10 fullShare (stepA i x2 x3 x4 x5 x6).mx
            ∗ owns (c : Thread nD τ) arg11 fullShare (stepA i x2 x3 x4 x5 x6).l ∗ owns (c : Thread nD τ) arg12 fullShare (stepA i x2 x3 x4 x5 x6).acc
            ∗ owns (c : Thread nD τ) arg13 fullShare (stepA i x2 x3 x4 x5 x6).tu ∗ owns (c : Thread nD τ) arg14 fullShare (stepA i x2 x3 x4 x5 x6).q) -∗ K ⟨⟩))
      ⊢ wp frame (wpE (defs₀ (F := F)) Variants.none c none) E (cc0__hop_kernel i arg2 harg2 arg3 harg3 arg4 harg4 arg5 harg5 arg6 harg6 arg7 harg7 arg8 harg8 arg9 harg9 arg10 harg10 arg11 harg11 arg12 harg12 arg13 harg13 arg14 harg14) K := by
  simp only [cc0__hop_kernel_eq_skeleton]; unfold cc0__hop_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩,
    ⟨%d9, %f9, -, H9⟩, ⟨%d10, %f10, -, H10⟩, ⟨%d11, %f11, -, H11⟩, ⟨%d12, %f12, -, H12⟩, ⟨%d13, %f13, -, H13⟩, ⟨%d14, %f14, -, H14⟩, Hk⟩
  obtain rfl := harg2.eq_unread hf2; obtain rfl := harg3.eq_unread hf3; obtain rfl := harg4.eq_unread hf4
  obtain rfl := harg5.eq_unread hf5; obtain rfl := harg6.eq_unread hf6; obtain rfl := harg7.eq_unread hf7
  sl_exec (disch := first | exact hc1 | exact hc2)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact hf8
    iexact H8
  isplitl [H9]; iexists _; isplitr; swap; iexact H9; ipureintro; rotate_left
  isplitl [H10]; iexists _; isplitr; swap; iexact H10; ipureintro; rotate_left
  isplitl [H11]; iexists _; isplitr; swap; iexact H11; ipureintro; rotate_left
  isplitl [H12]; iexists _; isplitr; swap; iexact H12; ipureintro; rotate_left
  isplitl [H13]; iexists _; isplitr; swap; iexact H13; ipureintro; rotate_left
  iexists _; isplitr; swap; iexact H14; ipureintro
  all_goals (sl_unfold_run_names; simp only [stepA, fold, reset, relRow, read_writes_whole (S := S1x512) _ _ zeros2, read_writes_whole (S := S1x1) _ _ zeros2,
      read_writes_whole (S := S1x2176) _ _ zeros2, View.readCov_cons_toLoadRect, View.readAt_eq_ld,
      harg2.read_unread, harg3.read_unread, harg4.read_unread, harg5.read_unread, harg6.read_unread,
      View.ld_unit_zero (S := S1x1x512) zeros3, View.ld_unit_zero (S := S1x1x1024x512) zeros4, View.ld_unit_zero (S := S2176x512) zeros2])

set_option maxHeartbeats 4000000 in
theorem sound_B (c : Dev nD) (E : Set ℕ) (i : grid0.Coords) (arg2 : Memref sig .tc .vmem S1x1x512 .f32) (harg2 : arg2.IsWhole) (arg3 : Memref sig .tc .vmem S1x1x1024x512 .f32) (harg3 : arg3.IsWhole) (arg4 : Memref sig .tc .vmem S1x1x1024x512 .f32) (harg4 : arg4.IsWhole) (arg5 : Memref sig .tc .vmem S32x1024 .i32) (harg5 : arg5.IsWhole) (arg6 : Memref sig .tc .vmem S2176x512 .bf16) (harg6 : arg6.IsWhole) (arg7 : Memref sig .tc .vmem S2176x512 .bf16) (harg7 : arg7.IsWhole) (arg8 : Memref sig .tc .vmem S1x1x512 .f32) (harg8 : arg8.IsWhole) (arg9 : Memref sig .tc .vmem S1x512 .f32) (harg9 : arg9.IsWhole) (arg10 : Memref sig .tc .vmem S1x1 .f32) (harg10 : arg10.IsWhole) (arg11 : Memref sig .tc .vmem S1x1 .f32) (harg11 : arg11.IsWhole) (arg12 : Memref sig .tc .vmem S1x512 .f32) (harg12 : arg12.IsWhole) (arg13 : Memref sig .tc .vmem S1x2176 .f32) (harg13 : arg13.IsWhole) (arg14 : Memref sig .tc .vmem S1x2176 .f32) (harg14 : arg14.IsWhole)
    (hc1 : ¬cond_1 i) (hc2 : cond_2 i)
    (x2 : Vec F S1x1x512 .f32) (x3 x4 : Vec F S1x1x1024x512 .f32) (x5 : Vec F S32x1024 .i32)
    (x6 x7 : Vec F S2176x512 .bf16) (s : Scr F) (K : PUnit → sProp 𝕄) :
    iprop(owns (c : Thread nD τ) arg2 fullShare x2 ∗ owns (c : Thread nD τ) arg3 fullShare x3 ∗ owns (c : Thread nD τ) arg4 fullShare x4
        ∗ owns (c : Thread nD τ) arg5 fullShare x5 ∗ owns (c : Thread nD τ) arg6 fullShare x6 ∗ owns (c : Thread nD τ) arg7 fullShare x7
        ∗ (∃ d, owns (c : Thread nD τ) arg8 fullShare d)
        ∗ owns (c : Thread nD τ) arg9 fullShare s.u ∗ owns (c : Thread nD τ) arg10 fullShare s.mx ∗ owns (c : Thread nD τ) arg11 fullShare s.l
        ∗ owns (c : Thread nD τ) arg12 fullShare s.acc ∗ owns (c : Thread nD τ) arg13 fullShare s.tu ∗ owns (c : Thread nD τ) arg14 fullShare s.q
        ∗ (iprop(owns (c : Thread nD τ) arg2 fullShare x2 ∗ owns (c : Thread nD τ) arg3 fullShare x3 ∗ owns (c : Thread nD τ) arg4 fullShare x4
            ∗ owns (c : Thread nD τ) arg5 fullShare x5 ∗ owns (c : Thread nD τ) arg6 fullShare x6 ∗ owns (c : Thread nD τ) arg7 fullShare x7
            ∗ owns (c : Thread nD τ) arg8 fullShare (outB (stepB i x3 x4 x5 s) x7)
            ∗ owns (c : Thread nD τ) arg9 fullShare (stepB i x3 x4 x5 s).u ∗ owns (c : Thread nD τ) arg10 fullShare (stepB i x3 x4 x5 s).mx
            ∗ owns (c : Thread nD τ) arg11 fullShare (stepB i x3 x4 x5 s).l ∗ owns (c : Thread nD τ) arg12 fullShare (stepB i x3 x4 x5 s).acc
            ∗ owns (c : Thread nD τ) arg13 fullShare (stepB i x3 x4 x5 s).tu ∗ owns (c : Thread nD τ) arg14 fullShare (stepB i x3 x4 x5 s).q) -∗ K ⟨⟩))
      ⊢ wp frame (wpE (defs₀ (F := F)) Variants.none c none) E (cc0__hop_kernel i arg2 harg2 arg3 harg3 arg4 harg4 arg5 harg5 arg6 harg6 arg7 harg7 arg8 harg8 arg9 harg9 arg10 harg10 arg11 harg11 arg12 harg12 arg13 harg13 arg14 harg14) K := by
  simp only [cc0__hop_kernel_eq_skeleton]; unfold cc0__hop_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩,
    ⟨%f9, %hf9, H9⟩, ⟨%f10, %hf10, H10⟩, ⟨%f11, %hf11, H11⟩, ⟨%f12, %hf12, H12⟩, ⟨%f13, %hf13, H13⟩, ⟨%f14, %hf14, H14⟩, Hk⟩
  obtain rfl := harg3.eq_unread hf3; obtain rfl := harg4.eq_unread hf4
  obtain rfl := harg5.eq_unread hf5; obtain rfl := harg7.eq_unread hf7
  obtain rfl := harg9.eq_unread hf9; obtain rfl := harg10.eq_unread hf10; obtain rfl := harg11.eq_unread hf11
  obtain rfl := harg12.eq_unread hf12; obtain rfl := harg13.eq_unread hf13; obtain rfl := harg14.eq_unread hf14
  sl_exec (disch := first | exact hc1 | exact hc2)
  sl_step
  iapply Hk
  isplitl [H2]
  · iexists _; isplitr; · ipureintro; exact hf2
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact hf6
    iexact H6
  isplitl [H7]
  · iexists _; isplitr; · ipureintro; exact harg7.read_unread _
    iexact H7
  isplitl [H8]; iexists _; isplitr; swap; iexact H8; ipureintro; rotate_left
  isplitl [H9]; iexists _; isplitr; swap; iexact H9; ipureintro; rotate_left
  isplitl [H10]; iexists _; isplitr; swap; iexact H10; ipureintro; rotate_left
  isplitl [H11]; iexists _; isplitr; swap; iexact H11; ipureintro; rotate_left
  isplitl [H12]; iexists _; isplitr; swap; iexact H12; ipureintro; rotate_left
  isplitl [H13]; iexists _; isplitr; swap; iexact H13; ipureintro; rotate_left
  iexists _; isplitr; swap; iexact H14; ipureintro
  all_goals (sl_unfold_run_names; simp only [stepB, outB, fold, relRow, read_writes_whole (S := S1x512) _ _ zeros2, read_writes_whole (S := S1x1) _ _ zeros2,
      read_writes_whole (S := S1x2176) _ _ zeros2, read_writes_whole (S := S1x1x512) _ _ zeros3, View.readCov_cons_toLoadRect, View.readAt_eq_ld,
      harg3.read_unread, harg4.read_unread, harg5.read_unread, harg7.read_unread, harg9.read_unread, harg10.read_unread,
      harg11.read_unread, harg12.read_unread, harg13.read_unread, harg14.read_unread,
      View.ld_unit_zero (S := S1x1x1024x512) zeros4, View.ld_unit_zero (S := S2176x512) zeros2, View.ld_unit_zero (S := S1x512) zeros2,
      View.ld_unit_zero (S := S1x1) zeros2, View.ld_unit_zero (S := S1x2176) zeros2])

/-- The three hops run one kernel function; each region's copy of it is definitionally this one. -/
abbrev hopKernel := @cc0__hop_kernel F _ _

end Cert.Kernel.Hop

end
-- ==== Proof.WFrame0.lean ====
import proofs.«410490_j37271726195550_3_alg».proof.Proof.Gen.Kernel.Launch
import proofs.«410490_j37271726195550_3_alg».proof.Proof.Gen.Kernel.Skeleton
import proofs.«410490_j37271726195550_3_alg».proof.Proof.Gen.Kernel.Points
import proofs.«410490_j37271726195550_3_alg».proof.Proof.WBody
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hop0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen Cert.Kernel.Hop
variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The online-softmax state after grid point n: reset and first tile at an even point, second tile folded into the previous state at an odd one. -/
def scrAt0 (c : Dev nD) : (n : ℕ) → n < cfg0.N → Scr F
  | 0, hn => stepA (grid0.coords ⟨0, hn⟩) (iblk0 V c 0 ⟨0, hn⟩) (iblk0 V c 1 ⟨0, hn⟩) (iblk0 V c 2 ⟨0, hn⟩) (iblk0 V c 3 ⟨0, hn⟩) (iblk0 V c 4 ⟨0, hn⟩)
  | n + 1, hn =>
    if (n + 1) % 2 = 0 then
      stepA (grid0.coords ⟨n + 1, hn⟩) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩)
    else
      stepB (grid0.coords ⟨n + 1, hn⟩) (iblk0 V c 1 ⟨n + 1, hn⟩) (iblk0 V c 2 ⟨n + 1, hn⟩) (iblk0 V c 3 ⟨n + 1, hn⟩) (scrAt0 c n (Nat.lt_of_succ_lt hn))

def outAt0 (c : Dev nD) (n : ℕ) (hn : n < cfg0.N) : Vec F S1x1x512 .f32 :=
  outB (scrAt0 V c n hn) (iblk0 V c 5 ⟨n, hn⟩)

theorem scrAt0_even (c : Dev nD) (t : Fin cfg0.N) (h : t.val % 2 = 0) :
    scrAt0 V c t.val t.isLt = stepA (grid0.coords t) (iblk0 V c 0 t) (iblk0 V c 1 t) (iblk0 V c 2 t) (iblk0 V c 3 t) (iblk0 V c 4 t) := by
  obtain ⟨n, hn⟩ := t
  cases n with
  | zero => rfl
  | succ n => exact if_pos h

theorem scrAt0_odd (c : Dev nD) (t : Fin cfg0.N) (h : t.val % 2 = 1) :
    scrAt0 V c t.val t.isLt = stepB (grid0.coords t) (iblk0 V c 1 t) (iblk0 V c 2 t) (iblk0 V c 3 t)
      (scrAt0 V c (t.val - 1) (Nat.lt_of_le_of_lt (Nat.sub_le _ _) t.isLt)) := by
  obtain ⟨n, hn⟩ := t
  cases n with
  | zero => simp at h
  | succ n => exact if_neg (by dsimp only at h; omega)

abbrev scM0_0 : Memref sig .tc .vmem S1x512 .f32 := Memref.whole cc0_scratch0

abbrev scM0_1 : Memref sig .tc .vmem S1x1 .f32 := Memref.whole cc0_scratch1

abbrev scM0_2 : Memref sig .tc .vmem S1x1 .f32 := Memref.whole cc0_scratch2

abbrev scM0_3 : Memref sig .tc .vmem S1x512 .f32 := Memref.whole cc0_scratch3

abbrev scM0_4 : Memref sig .tc .vmem S1x2176 .f32 := Memref.whole cc0_scratch4

abbrev scM0_5 : Memref sig .tc .vmem S1x2176 .f32 := Memref.whole cc0_scratch5

def scrOwns (c : Dev nD) (s : Scr F) : sProp 𝕄 :=
  iprop(owns (c : Thread nD τ) scM0_0 fullShare s.u ∗ owns (c : Thread nD τ) scM0_1 fullShare s.mx ∗ owns (c : Thread nD τ) scM0_2 fullShare s.l
    ∗ owns (c : Thread nD τ) scM0_3 fullShare s.acc ∗ owns (c : Thread nD τ) scM0_4 fullShare s.tu ∗ owns (c : Thread nD τ) scM0_5 fullShare s.q)

def PhiS0 (c : Dev nD) : (n : ℕ) → n ≤ cfg0.N → sProp 𝕄
  | 0, _ => Pipeline.ΦA spec0 c
  | n + 1, hn => iprop(iprop(scrOwns c (scrAt0 V c n hn)
      ∗ Pipeline.scopedRestBut (Ix := Unit) (Name := ℕ) (U := UR sig nD τ) (Lvl := ℕ) (Val := Elt F) spec0 c [cc0_scratch0, cc0_scratch1, cc0_scratch2, cc0_scratch3, cc0_scratch4, cc0_scratch5])
      ∗ (∃ r, prngReg c r))

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => outAt0 V c t.val t.isLt
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]

theorem after0_1 (c : Dev nD) (t : Fin cfg0.N) : (dat0 V c).after 1 t = iblk0 V c 1 t := by dsimp only [dat0]

theorem after0_2 (c : Dev nD) (t : Fin cfg0.N) : (dat0 V c).after 2 t = iblk0 V c 2 t := by dsimp only [dat0]

theorem after0_3 (c : Dev nD) (t : Fin cfg0.N) : (dat0 V c).after 3 t = iblk0 V c 3 t := by dsimp only [dat0]

theorem after0_4 (c : Dev nD) (t : Fin cfg0.N) : (dat0 V c).after 4 t = iblk0 V c 4 t := by dsimp only [dat0]

theorem after0_5 (c : Dev nD) (t : Fin cfg0.N) : (dat0 V c).after 5 t = iblk0 V c 5 t := by dsimp only [dat0]

theorem after0_6 (c : Dev nD) (t : Fin cfg0.N) : (dat0 V c).after 6 t = outAt0 V c t.val t.isLt := by dsimp only [dat0]

theorem hcond_1 : ∀ t : Fin cfg0.N, cond_1 (grid0.coords t) ↔ t.val % 2 = 0 :=
  (by decide +kernel : ∀ t : Fin grid0.N, cond_1 (grid0.coords t) ↔ t.val % 2 = 0)

theorem hcond_2 : ∀ t : Fin cfg0.N, cond_2 (grid0.coords t) ↔ t.val % 2 = 1 :=
  (by decide +kernel : ∀ t : Fin grid0.N, cond_2 (grid0.coords t) ↔ t.val % 2 = 1)

theorem idleAt0_6 : ∀ t : Fin cfg0.N, t.val % 2 = 0 → cfg0.idle 6 (grid0.coords t) = true :=
  (by decide +kernel : ∀ t : Fin grid0.N, t.val % 2 = 0 → cfg0.idle 6 (grid0.coords t) = true)

theorem liveAt0_6 : ∀ t : Fin cfg0.N, t.val % 2 = 1 → cfg0.idle 6 (grid0.coords t) = false :=
  (by decide +kernel : ∀ t : Fin grid0.N, t.val % 2 = 1 → cfg0.idle 6 (grid0.coords t) = false)

theorem noFlush0_6 (t : Fin cfg0.N) (h : t.val % 2 = 0) : (cfg0.win 6).flush t = false := by
  cases hf : (cfg0.win 6).flush t with
  | false => rfl
  | true => have := (flush0_6 t).mp hf; omega

theorem before0_0 (c : Dev nD) (t : Fin cfg0.N) (d) : (dat0 V c).before 0 t d = iblk0 V c 0 t :=
  ((dat0 V c).before_in_eq_fetched 0 rfl (fun _ => rfl) (fun _ _ _ => rfl)
      (fun t => by rw [after0_0]; unfold Dat.blockOf iblk0; rw [A_eq0]; try rfl) t d).trans
    (by unfold Dat.fetched Dat.blockOf iblk0; rw [A_eq0]; try rfl)

theorem before0_1 (c : Dev nD) (t : Fin cfg0.N) (d) : (dat0 V c).before 1 t d = iblk0 V c 1 t :=
  ((dat0 V c).before_in_eq_fetched 1 rfl (fun _ => rfl) (fun _ _ _ => rfl)
      (fun t => by rw [after0_1]; unfold Dat.blockOf iblk0; rw [A_eq0]; try rfl) t d).trans
    (by unfold Dat.fetched Dat.blockOf iblk0; rw [A_eq0]; try rfl)

theorem before0_2 (c : Dev nD) (t : Fin cfg0.N) (d) : (dat0 V c).before 2 t d = iblk0 V c 2 t :=
  ((dat0 V c).before_in_eq_fetched 2 rfl (fun _ => rfl) (fun _ _ _ => rfl)
      (fun t => by rw [after0_2]; unfold Dat.blockOf iblk0; rw [A_eq0]; try rfl) t d).trans
    (by unfold Dat.fetched Dat.blockOf iblk0; rw [A_eq0]; try rfl)

theorem before0_3 (c : Dev nD) (t : Fin cfg0.N) (d) : (dat0 V c).before 3 t d = iblk0 V c 3 t :=
  ((dat0 V c).before_in_eq_fetched 3 rfl (fun _ => rfl) (fun _ _ _ => rfl)
      (fun t => by rw [after0_3]; unfold Dat.blockOf iblk0; rw [A_eq0]; try rfl) t d).trans
    (by unfold Dat.fetched Dat.blockOf iblk0; rw [A_eq0]; try rfl)

theorem before0_4 (c : Dev nD) (t : Fin cfg0.N) (d) : (dat0 V c).before 4 t d = iblk0 V c 4 t :=
  ((dat0 V c).before_in_eq_fetched 4 rfl (fun _ => rfl) (fun _ _ _ => rfl)
      (fun t => by rw [after0_4]; unfold Dat.blockOf iblk0; rw [A_eq0]; try rfl) t d).trans
    (by unfold Dat.fetched Dat.blockOf iblk0; rw [A_eq0]; try rfl)

theorem before0_5 (c : Dev nD) (t : Fin cfg0.N) (d) : (dat0 V c).before 5 t d = iblk0 V c 5 t :=
  ((dat0 V c).before_in_eq_fetched 5 rfl (fun _ => rfl) (fun _ _ _ => rfl)
      (fun t => by rw [after0_5]; unfold Dat.blockOf iblk0; rw [A_eq0]; try rfl) t d).trans
    (by unfold Dat.fetched Dat.blockOf iblk0; rw [A_eq0]; try rfl)

abbrev restBut0 (c : Dev nD) : sProp 𝕄 :=
  Pipeline.scopedRestBut (Ix := Unit) (Name := ℕ) (U := UR sig nD τ) (Lvl := ℕ) (Val := Elt F) spec0 c [cc0_scratch0, cc0_scratch1, cc0_scratch2, cc0_scratch3, cc0_scratch4, cc0_scratch5]

theorem PhiA0_eq (c : Dev nD) :
    (Pipeline.ΦA spec0 c : sProp 𝕄)
      = iprop(iprop(iprop((∃ d, owns (c : Thread nD τ) scM0_0 fullShare d) ∗ (∃ d, owns (c : Thread nD τ) scM0_1 fullShare d)
            ∗ (∃ d, owns (c : Thread nD τ) scM0_2 fullShare d) ∗ (∃ d, owns (c : Thread nD τ) scM0_3 fullShare d)
            ∗ (∃ d, owns (c : Thread nD τ) scM0_4 fullShare d) ∗ (∃ d, owns (c : Thread nD τ) scM0_5 fullShare d))
          ∗ restBut0 c) ∗ (∃ r, prngReg c r)) := by
  unfold Pipeline.ΦA; rw [scopedRest0_split]; simp only [scM0_0, scM0_1, scM0_2, scM0_3, scM0_4, scM0_5, owns_whole]; try rfl

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(scrOwns c (scrAt0 V c n hn) ∗ restBut0 c) ∗ (∃ r, prngReg c r)) := rfl

theorem PhiS0_pos (c : Dev nD) (n : ℕ) (h : n ≤ cfg0.N) (hz : n ≠ 0) :
    PhiS0 V c n h = iprop(iprop(scrOwns c (scrAt0 V c (n - 1) (by omega)) ∗ restBut0 c) ∗ (∃ r, prngReg c r)) := by
  cases n with
  | zero => exact absurd rfl hz
  | succ n => rfl

theorem PhiS0_castSucc (c : Dev nD) (t : Fin cfg0.N) :
    (dat0 V c).Φ t.castSucc = PhiS0 V c t.val (Nat.le_of_lt t.isLt) := by
  dsimp only [dat0]; simp only [Fin.coe_castSucc]

theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

theorem Phi0_out (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq]
  unfold scrOwns
  iintro ⟨⟨⟨H9, H10, H11, H12, H13, H14⟩, Hr⟩, Hg⟩
  isplitr [Hg]
  · isplitr [Hr]
    · isplitl [H9]; · iexists _; iexact H9
      isplitl [H10]; · iexists _; iexact H10
      isplitl [H11]; · iexists _; iexact H11
      isplitl [H12]; · iexists _; iexact H12
      isplitl [H13]; · iexists _; iexact H13
      iexists _; iexact H14
    iexact Hr
  iexact Hg

theorem hout0 (c : Dev nD) : (dat0 V c).Φ (Fin.last cfg0.N) ⊢ Pipeline.ΦA spec0 c :=
  Phi0_out V c _ (by rw [Fin.val_last]; have : cfg0.N = 64 := N_0; omega)

theorem leaves0 (c : Dev nD) (t : Fin cfg0.N) (w : Fin cfg0.W) (h : cfg0.idle w (cfg0.grid.coords t) = false) :
    (dat0 V c).leavesExact w t = owns (c : Thread nD τ) ((cfg0.win w).stage (cfg0.slots t w)) fullShare ((dat0 V c).after w t) := by
  unfold Dat.leavesExact; rw [h]

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

def bodyPost0 (c : Dev nD) (t : Fin cfg0.N) : sProp 𝕄 :=
  iprop((dat0 V c).Φ t.succ ∗ (dat0 V c).owesAt () t.succ
    ∗ (dat0 V c).leavesExact 0 t ∗ (dat0 V c).leavesExact 1 t ∗ (dat0 V c).leavesExact 2 t ∗ (dat0 V c).leavesExact 3 t
    ∗ (dat0 V c).leavesExact 4 t ∗ (dat0 V c).leavesExact 5 t ∗ (dat0 V c).leavesExact 6 t)

theorem Phi0_in (c : Dev nD) (t : Fin cfg0.N) : (dat0 V c).Φ t.castSucc ⊢ Pipeline.ΦA spec0 c := by
  by_cases hz : t.val = 0
  · rw [PhiS0_castSucc V c t, PhiS0_zero V c _ _ hz]
    try exact Idealize.SL.BI.Entails.refl _
  · exact Phi0_out V c t.castSucc (by rw [Fin.coe_castSucc]; exact hz)

/-- By the point's parity: an even point is the first tile (`sound_A`), an odd one the second (`sound_B`). -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  rw [show @cc0__hop_kernel F _ _ = hopKernel from rfl]
  simp only [before0_0, before0_1, before0_2, before0_3, before0_4, before0_5]
  rw [show (dat0 V c).owesAt () t.succ = (dat0 V c).owesAt () t.castSucc from rfl]
  rw [show (dat0 V c).Φ t.succ = PhiS0 V c (t.val + 1) t.isLt from rfl, PhiS0_succ]
  rw [leaves0 V c t 0 rfl, leaves0 V c t 1 rfl, leaves0 V c t 2 rfl, leaves0 V c t 3 rfl, leaves0 V c t 4 rfl, leaves0 V c t 5 rfl,
    after0_0, after0_1, after0_2, after0_3, after0_4, after0_5]
  by_cases h : t.val % 2 = 0
  · have hc1 : cond_1 (grid0.coords t) := (hcond_1 t).mpr h
    have hc2 : ¬cond_2 (grid0.coords t) := fun hh => by have := (hcond_2 t).mp hh; omega
    rw [Dat.leavesExact_idle (dat0 V c) 6 t (idleAt0_6 t h) (noFlush0_6 t h)]
    rw [scrAt0_even V c t h]
    refine (sep_mono_left (Phi0_in V c t)).trans ?_
    rw [PhiA0_eq]
    unfold scrOwns
    iintro ⟨⟨⟨⟨HS9, HS10, HS11, HS12, HS13, HS14⟩, Hr⟩, Hg⟩, Hw, ⟨%da, HA⟩, ⟨%db, HB⟩, ⟨%dc, HC⟩, ⟨%dd, HD⟩, ⟨%de, HE⟩, ⟨%df, HF⟩, ⟨%dout, HO⟩⟩
    iapply (sound_A c Set.univ (grid0.coords t) _ _ _ _ _ _ _ _ _ _ _ _ _ _ _ _ _ _ _ _ _ _ _ _ _ _ hc1 hc2 (iblk0 V c 0 t) (iblk0 V c 1 t) (iblk0 V c 2 t) (iblk0 V c 3 t) (iblk0 V c 4 t) (iblk0 V c 5 t) ((dat0 V c).before 6 t dout) _)
    iframe
    iintro ⟨HA, HB, HC, HD, HE, HF, HO, HS9, HS10, HS11, HS12, HS13, HS14⟩
    iframe
    iexists _; iexact HO
  · have hodd : t.val % 2 = 1 := by omega
    have hc1 : ¬cond_1 (grid0.coords t) := fun hh => h ((hcond_1 t).mp hh)
    have hc2 : cond_2 (grid0.coords t) := (hcond_2 t).mpr hodd
    have hz : t.val ≠ 0 := by omega
    rw [leaves0 V c t 6 (liveAt0_6 t hodd), after0_6]
    unfold outAt0
    rw [scrAt0_odd V c t hodd]
    rw [PhiS0_castSucc V c t, PhiS0_pos V c _ _ hz]
    unfold scrOwns
    iintro ⟨⟨⟨⟨HS9, HS10, HS11, HS12, HS13, HS14⟩, Hr⟩, Hg⟩, Hw, ⟨%da, HA⟩, ⟨%db, HB⟩, ⟨%dc, HC⟩, ⟨%dd, HD⟩, ⟨%de, HE⟩, ⟨%df, HF⟩, ⟨%dout, HO⟩⟩
    iapply (sound_B c Set.univ (grid0.coords t) _ _ _ _ _ _ _ _ _ _ _ _ _ _ _ _ _ _ _ _ _ _ _ _ _ _ hc1 hc2 (iblk0 V c 0 t) (iblk0 V c 1 t) (iblk0 V c 2 t) (iblk0 V c 3 t) (iblk0 V c 4 t) (iblk0 V c 5 t)
      (scrAt0 V c (t.val - 1) (Nat.lt_of_le_of_lt (Nat.sub_le _ _) t.isLt)) _)
    iframe
    isplitl [HO]; · iexists _; iexact HO
    iintro ⟨HA, HB, HC, HD, HE, HF, HO, HS9, HS10, HS11, HS12, HS13, HS14⟩
    iframe

theorem body_obligation0 (c : Dev nD) : BodyObligation (dat0 (F := F) V c) (defs₀ (F := F)) Variants.none () Set.univ := fun t => by
  rw [bigSep_W0, bigSep_W0]
  exact sound_body0 V c t

end Cert.Kernel.Hop0

end
-- ==== Proof.WFrame1.lean ====
import proofs.«410490_j37271726195550_3_alg».proof.Proof.Gen.Kernel.Launch
import proofs.«410490_j37271726195550_3_alg».proof.Proof.Gen.Kernel.Skeleton
import proofs.«410490_j37271726195550_3_alg».proof.Proof.Gen.Kernel.Points
import proofs.«410490_j37271726195550_3_alg».proof.Proof.WBody
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hop1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen Cert.Kernel.Hop
variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The online-softmax state after grid point n: reset and first tile at an even point, second tile folded into the previous state at an odd one. -/
def scrAt1 (c : Dev nD) : (n : ℕ) → n < cfg1.N → Scr F
  | 0, hn => stepA (grid1.coords ⟨0, hn⟩) (iblk1 V c 0 ⟨0, hn⟩) (iblk1 V c 1 ⟨0, hn⟩) (iblk1 V c 2 ⟨0, hn⟩) (iblk1 V c 3 ⟨0, hn⟩) (iblk1 V c 4 ⟨0, hn⟩)
  | n + 1, hn =>
    if (n + 1) % 2 = 0 then
      stepA (grid1.coords ⟨n + 1, hn⟩) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩)
    else
      stepB (grid1.coords ⟨n + 1, hn⟩) (iblk1 V c 1 ⟨n + 1, hn⟩) (iblk1 V c 2 ⟨n + 1, hn⟩) (iblk1 V c 3 ⟨n + 1, hn⟩) (scrAt1 c n (Nat.lt_of_succ_lt hn))

def outAt1 (c : Dev nD) (n : ℕ) (hn : n < cfg1.N) : Vec F S1x1x512 .f32 :=
  outB (scrAt1 V c n hn) (iblk1 V c 5 ⟨n, hn⟩)

theorem scrAt1_even (c : Dev nD) (t : Fin cfg1.N) (h : t.val % 2 = 0) :
    scrAt1 V c t.val t.isLt = stepA (grid1.coords t) (iblk1 V c 0 t) (iblk1 V c 1 t) (iblk1 V c 2 t) (iblk1 V c 3 t) (iblk1 V c 4 t) := by
  obtain ⟨n, hn⟩ := t
  cases n with
  | zero => rfl
  | succ n => exact if_pos h

theorem scrAt1_odd (c : Dev nD) (t : Fin cfg1.N) (h : t.val % 2 = 1) :
    scrAt1 V c t.val t.isLt = stepB (grid1.coords t) (iblk1 V c 1 t) (iblk1 V c 2 t) (iblk1 V c 3 t)
      (scrAt1 V c (t.val - 1) (Nat.lt_of_le_of_lt (Nat.sub_le _ _) t.isLt)) := by
  obtain ⟨n, hn⟩ := t
  cases n with
  | zero => simp at h
  | succ n => exact if_neg (by dsimp only at h; omega)

abbrev scM1_0 : Memref sig .tc .vmem S1x512 .f32 := Memref.whole cc1_scratch0

abbrev scM1_1 : Memref sig .tc .vmem S1x1 .f32 := Memref.whole cc1_scratch1

abbrev scM1_2 : Memref sig .tc .vmem S1x1 .f32 := Memref.whole cc1_scratch2

abbrev scM1_3 : Memref sig .tc .vmem S1x512 .f32 := Memref.whole cc1_scratch3

abbrev scM1_4 : Memref sig .tc .vmem S1x2176 .f32 := Memref.whole cc1_scratch4

abbrev scM1_5 : Memref sig .tc .vmem S1x2176 .f32 := Memref.whole cc1_scratch5

def scrOwns (c : Dev nD) (s : Scr F) : sProp 𝕄 :=
  iprop(owns (c : Thread nD τ) scM1_0 fullShare s.u ∗ owns (c : Thread nD τ) scM1_1 fullShare s.mx ∗ owns (c : Thread nD τ) scM1_2 fullShare s.l
    ∗ owns (c : Thread nD τ) scM1_3 fullShare s.acc ∗ owns (c : Thread nD τ) scM1_4 fullShare s.tu ∗ owns (c : Thread nD τ) scM1_5 fullShare s.q)

def PhiS1 (c : Dev nD) : (n : ℕ) → n ≤ cfg1.N → sProp 𝕄
  | 0, _ => Pipeline.ΦA spec1 c
  | n + 1, hn => iprop(iprop(scrOwns c (scrAt1 V c n hn)
      ∗ Pipeline.scopedRestBut (Ix := Unit) (Name := ℕ) (U := UR sig nD τ) (Lvl := ℕ) (Val := Elt F) spec1 c [cc1_scratch0, cc1_scratch1, cc1_scratch2, cc1_scratch3, cc1_scratch4, cc1_scratch5])
      ∗ (∃ r, prngReg c r))

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => outAt1 V c t.val t.isLt
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]

theorem after1_1 (c : Dev nD) (t : Fin cfg1.N) : (dat1 V c).after 1 t = iblk1 V c 1 t := by dsimp only [dat1]

theorem after1_2 (c : Dev nD) (t : Fin cfg1.N) : (dat1 V c).after 2 t = iblk1 V c 2 t := by dsimp only [dat1]

theorem after1_3 (c : Dev nD) (t : Fin cfg1.N) : (dat1 V c).after 3 t = iblk1 V c 3 t := by dsimp only [dat1]

theorem after1_4 (c : Dev nD) (t : Fin cfg1.N) : (dat1 V c).after 4 t = iblk1 V c 4 t := by dsimp only [dat1]

theorem after1_5 (c : Dev nD) (t : Fin cfg1.N) : (dat1 V c).after 5 t = iblk1 V c 5 t := by dsimp only [dat1]

theorem after1_6 (c : Dev nD) (t : Fin cfg1.N) : (dat1 V c).after 6 t = outAt1 V c t.val t.isLt := by dsimp only [dat1]

theorem hcond_1 : ∀ t : Fin cfg1.N, cond_1 (grid1.coords t) ↔ t.val % 2 = 0 :=
  (by decide +kernel : ∀ t : Fin grid1.N, cond_1 (grid1.coords t) ↔ t.val % 2 = 0)

theorem hcond_2 : ∀ t : Fin cfg1.N, cond_2 (grid1.coords t) ↔ t.val % 2 = 1 :=
  (by decide +kernel : ∀ t : Fin grid1.N, cond_2 (grid1.coords t) ↔ t.val % 2 = 1)

theorem idleAt1_6 : ∀ t : Fin cfg1.N, t.val % 2 = 0 → cfg1.idle 6 (grid1.coords t) = true :=
  (by decide +kernel : ∀ t : Fin grid1.N, t.val % 2 = 0 → cfg1.idle 6 (grid1.coords t) = true)

theorem liveAt1_6 : ∀ t : Fin cfg1.N, t.val % 2 = 1 → cfg1.idle 6 (grid1.coords t) = false :=
  (by decide +kernel : ∀ t : Fin grid1.N, t.val % 2 = 1 → cfg1.idle 6 (grid1.coords t) = false)

theorem noFlush1_6 (t : Fin cfg1.N) (h : t.val % 2 = 0) : (cfg1.win 6).flush t = false := by
  cases hf : (cfg1.win 6).flush t with
  | false => rfl
  | true => have := (flush1_6 t).mp hf; omega

theorem before1_0 (c : Dev nD) (t : Fin cfg1.N) (d) : (dat1 V c).before 0 t d = iblk1 V c 0 t :=
  ((dat1 V c).before_in_eq_fetched 0 rfl (fun _ => rfl) (fun _ _ _ => rfl)
      (fun t => by rw [after1_0]; unfold Dat.blockOf iblk1; rw [A_eq1]; try rfl) t d).trans
    (by unfold Dat.fetched Dat.blockOf iblk1; rw [A_eq1]; try rfl)

theorem before1_1 (c : Dev nD) (t : Fin cfg1.N) (d) : (dat1 V c).before 1 t d = iblk1 V c 1 t :=
  ((dat1 V c).before_in_eq_fetched 1 rfl (fun _ => rfl) (fun _ _ _ => rfl)
      (fun t => by rw [after1_1]; unfold Dat.blockOf iblk1; rw [A_eq1]; try rfl) t d).trans
    (by unfold Dat.fetched Dat.blockOf iblk1; rw [A_eq1]; try rfl)

theorem before1_2 (c : Dev nD) (t : Fin cfg1.N) (d) : (dat1 V c).before 2 t d = iblk1 V c 2 t :=
  ((dat1 V c).before_in_eq_fetched 2 rfl (fun _ => rfl) (fun _ _ _ => rfl)
      (fun t => by rw [after1_2]; unfold Dat.blockOf iblk1; rw [A_eq1]; try rfl) t d).trans
    (by unfold Dat.fetched Dat.blockOf iblk1; rw [A_eq1]; try rfl)

theorem before1_3 (c : Dev nD) (t : Fin cfg1.N) (d) : (dat1 V c).before 3 t d = iblk1 V c 3 t :=
  ((dat1 V c).before_in_eq_fetched 3 rfl (fun _ => rfl) (fun _ _ _ => rfl)
      (fun t => by rw [after1_3]; unfold Dat.blockOf iblk1; rw [A_eq1]; try rfl) t d).trans
    (by unfold Dat.fetched Dat.blockOf iblk1; rw [A_eq1]; try rfl)

theorem before1_4 (c : Dev nD) (t : Fin cfg1.N) (d) : (dat1 V c).before 4 t d = iblk1 V c 4 t :=
  ((dat1 V c).before_in_eq_fetched 4 rfl (fun _ => rfl) (fun _ _ _ => rfl)
      (fun t => by rw [after1_4]; unfold Dat.blockOf iblk1; rw [A_eq1]; try rfl) t d).trans
    (by unfold Dat.fetched Dat.blockOf iblk1; rw [A_eq1]; try rfl)

theorem before1_5 (c : Dev nD) (t : Fin cfg1.N) (d) : (dat1 V c).before 5 t d = iblk1 V c 5 t :=
  ((dat1 V c).before_in_eq_fetched 5 rfl (fun _ => rfl) (fun _ _ _ => rfl)
      (fun t => by rw [after1_5]; unfold Dat.blockOf iblk1; rw [A_eq1]; try rfl) t d).trans
    (by unfold Dat.fetched Dat.blockOf iblk1; rw [A_eq1]; try rfl)

abbrev restBut1 (c : Dev nD) : sProp 𝕄 :=
  Pipeline.scopedRestBut (Ix := Unit) (Name := ℕ) (U := UR sig nD τ) (Lvl := ℕ) (Val := Elt F) spec1 c [cc1_scratch0, cc1_scratch1, cc1_scratch2, cc1_scratch3, cc1_scratch4, cc1_scratch5]

theorem PhiA1_eq (c : Dev nD) :
    (Pipeline.ΦA spec1 c : sProp 𝕄)
      = iprop(iprop(iprop((∃ d, owns (c : Thread nD τ) scM1_0 fullShare d) ∗ (∃ d, owns (c : Thread nD τ) scM1_1 fullShare d)
            ∗ (∃ d, owns (c : Thread nD τ) scM1_2 fullShare d) ∗ (∃ d, owns (c : Thread nD τ) scM1_3 fullShare d)
            ∗ (∃ d, owns (c : Thread nD τ) scM1_4 fullShare d) ∗ (∃ d, owns (c : Thread nD τ) scM1_5 fullShare d))
          ∗ restBut1 c) ∗ (∃ r, prngReg c r)) := by
  unfold Pipeline.ΦA; rw [scopedRest1_split]; simp only [scM1_0, scM1_1, scM1_2, scM1_3, scM1_4, scM1_5, owns_whole]; try rfl

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(scrOwns c (scrAt1 V c n hn) ∗ restBut1 c) ∗ (∃ r, prngReg c r)) := rfl

theorem PhiS1_pos (c : Dev nD) (n : ℕ) (h : n ≤ cfg1.N) (hz : n ≠ 0) :
    PhiS1 V c n h = iprop(iprop(scrOwns c (scrAt1 V c (n - 1) (by omega)) ∗ restBut1 c) ∗ (∃ r, prngReg c r)) := by
  cases n with
  | zero => exact absurd rfl hz
  | succ n => rfl

theorem PhiS1_castSucc (c : Dev nD) (t : Fin cfg1.N) :
    (dat1 V c).Φ t.castSucc = PhiS1 V c t.val (Nat.le_of_lt t.isLt) := by
  dsimp only [dat1]; simp only [Fin.coe_castSucc]

theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

theorem Phi1_out (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  unfold scrOwns
  iintro ⟨⟨⟨H9, H10, H11, H12, H13, H14⟩, Hr⟩, Hg⟩
  isplitr [Hg]
  · isplitr [Hr]
    · isplitl [H9]; · iexists _; iexact H9
      isplitl [H10]; · iexists _; iexact H10
      isplitl [H11]; · iexists _; iexact H11
      isplitl [H12]; · iexists _; iexact H12
      isplitl [H13]; · iexists _; iexact H13
      iexists _; iexact H14
    iexact Hr
  iexact Hg

theorem hout1 (c : Dev nD) : (dat1 V c).Φ (Fin.last cfg1.N) ⊢ Pipeline.ΦA spec1 c :=
  Phi1_out V c _ (by rw [Fin.val_last]; have : cfg1.N = 64 := N_1; omega)

theorem leaves1 (c : Dev nD) (t : Fin cfg1.N) (w : Fin cfg1.W) (h : cfg1.idle w (cfg1.grid.coords t) = false) :
    (dat1 V c).leavesExact w t = owns (c : Thread nD τ) ((cfg1.win w).stage (cfg1.slots t w)) fullShare ((dat1 V c).after w t) := by
  unfold Dat.leavesExact; rw [h]

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

def bodyPost1 (c : Dev nD) (t : Fin cfg1.N) : sProp 𝕄 :=
  iprop((dat1 V c).Φ t.succ ∗ (dat1 V c).owesAt () t.succ
    ∗ (dat1 V c).leavesExact 0 t ∗ (dat1 V c).leavesExact 1 t ∗ (dat1 V c).leavesExact 2 t ∗ (dat1 V c).leavesExact 3 t
    ∗ (dat1 V c).leavesExact 4 t ∗ (dat1 V c).leavesExact 5 t ∗ (dat1 V c).leavesExact 6 t)

theorem Phi1_in (c : Dev nD) (t : Fin cfg1.N) : (dat1 V c).Φ t.castSucc ⊢ Pipeline.ΦA spec1 c := by
  by_cases hz : t.val = 0
  · rw [PhiS1_castSucc V c t, PhiS1_zero V c _ _ hz]
    try exact Idealize.SL.BI.Entails.refl _
  · exact Phi1_out V c t.castSucc (by rw [Fin.coe_castSucc]; exact hz)

/-- By the point's parity: an even point is the first tile (`sound_A`), an odd one the second (`sound_B`). -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  rw [show @cc1__hop_kernel F _ _ = hopKernel from rfl]
  simp only [before1_0, before1_1, before1_2, before1_3, before1_4, before1_5]
  rw [show (dat1 V c).owesAt () t.succ = (dat1 V c).owesAt () t.castSucc from rfl]
  rw [show (dat1 V c).Φ t.succ = PhiS1 V c (t.val + 1) t.isLt from rfl, PhiS1_succ]
  rw [leaves1 V c t 0 rfl, leaves1 V c t 1 rfl, leaves1 V c t 2 rfl, leaves1 V c t 3 rfl, leaves1 V c t 4 rfl, leaves1 V c t 5 rfl,
    after1_0, after1_1, after1_2, after1_3, after1_4, after1_5]
  by_cases h : t.val % 2 = 0
  · have hc1 : cond_1 (grid1.coords t) := (hcond_1 t).mpr h
    have hc2 : ¬cond_2 (grid1.coords t) := fun hh => by have := (hcond_2 t).mp hh; omega
    rw [Dat.leavesExact_idle (dat1 V c) 6 t (idleAt1_6 t h) (noFlush1_6 t h)]
    rw [scrAt1_even V c t h]
    refine (sep_mono_left (Phi1_in V c t)).trans ?_
    rw [PhiA1_eq]
    unfold scrOwns
    iintro ⟨⟨⟨⟨HS9, HS10, HS11, HS12, HS13, HS14⟩, Hr⟩, Hg⟩, Hw, ⟨%da, HA⟩, ⟨%db, HB⟩, ⟨%dc, HC⟩, ⟨%dd, HD⟩, ⟨%de, HE⟩, ⟨%df, HF⟩, ⟨%dout, HO⟩⟩
    iapply (sound_A c Set.univ (grid1.coords t) _ _ _ _ _ _ _ _ _ _ _ _ _ _ _ _ _ _ _ _ _ _ _ _ _ _ hc1 hc2 (iblk1 V c 0 t) (iblk1 V c 1 t) (iblk1 V c 2 t) (iblk1 V c 3 t) (iblk1 V c 4 t) (iblk1 V c 5 t) ((dat1 V c).before 6 t dout) _)
    iframe
    iintro ⟨HA, HB, HC, HD, HE, HF, HO, HS9, HS10, HS11, HS12, HS13, HS14⟩
    iframe
    iexists _; iexact HO
  · have hodd : t.val % 2 = 1 := by omega
    have hc1 : ¬cond_1 (grid1.coords t) := fun hh => h ((hcond_1 t).mp hh)
    have hc2 : cond_2 (grid1.coords t) := (hcond_2 t).mpr hodd
    have hz : t.val ≠ 0 := by omega
    rw [leaves1 V c t 6 (liveAt1_6 t hodd), after1_6]
    unfold outAt1
    rw [scrAt1_odd V c t hodd]
    rw [PhiS1_castSucc V c t, PhiS1_pos V c _ _ hz]
    unfold scrOwns
    iintro ⟨⟨⟨⟨HS9, HS10, HS11, HS12, HS13, HS14⟩, Hr⟩, Hg⟩, Hw, ⟨%da, HA⟩, ⟨%db, HB⟩, ⟨%dc, HC⟩, ⟨%dd, HD⟩, ⟨%de, HE⟩, ⟨%df, HF⟩, ⟨%dout, HO⟩⟩
    iapply (sound_B c Set.univ (grid1.coords t) _ _ _ _ _ _ _ _ _ _ _ _ _ _ _ _ _ _ _ _ _ _ _ _ _ _ hc1 hc2 (iblk1 V c 0 t) (iblk1 V c 1 t) (iblk1 V c 2 t) (iblk1 V c 3 t) (iblk1 V c 4 t) (iblk1 V c 5 t)
      (scrAt1 V c (t.val - 1) (Nat.lt_of_le_of_lt (Nat.sub_le _ _) t.isLt)) _)
    iframe
    isplitl [HO]; · iexists _; iexact HO
    iintro ⟨HA, HB, HC, HD, HE, HF, HO, HS9, HS10, HS11, HS12, HS13, HS14⟩
    iframe

theorem body_obligation1 (c : Dev nD) : BodyObligation (dat1 (F := F) V c) (defs₀ (F := F)) Variants.none () Set.univ := fun t => by
  rw [bigSep_W1, bigSep_W1]
  exact sound_body1 V c t

end Cert.Kernel.Hop1

end
-- ==== Proof.WFrame2.lean ====
import proofs.«410490_j37271726195550_3_alg».proof.Proof.Gen.Kernel.Launch
import proofs.«410490_j37271726195550_3_alg».proof.Proof.Gen.Kernel.Skeleton
import proofs.«410490_j37271726195550_3_alg».proof.Proof.Gen.Kernel.Points
import proofs.«410490_j37271726195550_3_alg».proof.Proof.WBody
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hop2

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen Cert.Kernel.Hop
variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The online-softmax state after grid point n: reset and first tile at an even point, second tile folded into the previous state at an odd one. -/
def scrAt2 (c : Dev nD) : (n : ℕ) → n < cfg2.N → Scr F
  | 0, hn => stepA (grid2.coords ⟨0, hn⟩) (iblk2 V c 0 ⟨0, hn⟩) (iblk2 V c 1 ⟨0, hn⟩) (iblk2 V c 2 ⟨0, hn⟩) (iblk2 V c 3 ⟨0, hn⟩) (iblk2 V c 4 ⟨0, hn⟩)
  | n + 1, hn =>
    if (n + 1) % 2 = 0 then
      stepA (grid2.coords ⟨n + 1, hn⟩) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩)
    else
      stepB (grid2.coords ⟨n + 1, hn⟩) (iblk2 V c 1 ⟨n + 1, hn⟩) (iblk2 V c 2 ⟨n + 1, hn⟩) (iblk2 V c 3 ⟨n + 1, hn⟩) (scrAt2 c n (Nat.lt_of_succ_lt hn))

def outAt2 (c : Dev nD) (n : ℕ) (hn : n < cfg2.N) : Vec F S1x1x512 .f32 :=
  outB (scrAt2 V c n hn) (iblk2 V c 5 ⟨n, hn⟩)

theorem scrAt2_even (c : Dev nD) (t : Fin cfg2.N) (h : t.val % 2 = 0) :
    scrAt2 V c t.val t.isLt = stepA (grid2.coords t) (iblk2 V c 0 t) (iblk2 V c 1 t) (iblk2 V c 2 t) (iblk2 V c 3 t) (iblk2 V c 4 t) := by
  obtain ⟨n, hn⟩ := t
  cases n with
  | zero => rfl
  | succ n => exact if_pos h

theorem scrAt2_odd (c : Dev nD) (t : Fin cfg2.N) (h : t.val % 2 = 1) :
    scrAt2 V c t.val t.isLt = stepB (grid2.coords t) (iblk2 V c 1 t) (iblk2 V c 2 t) (iblk2 V c 3 t)
      (scrAt2 V c (t.val - 1) (Nat.lt_of_le_of_lt (Nat.sub_le _ _) t.isLt)) := by
  obtain ⟨n, hn⟩ := t
  cases n with
  | zero => simp at h
  | succ n => exact if_neg (by dsimp only at h; omega)

abbrev scM2_0 : Memref sig .tc .vmem S1x512 .f32 := Memref.whole cc2_scratch0

abbrev scM2_1 : Memref sig .tc .vmem S1x1 .f32 := Memref.whole cc2_scratch1

abbrev scM2_2 : Memref sig .tc .vmem S1x1 .f32 := Memref.whole cc2_scratch2

abbrev scM2_3 : Memref sig .tc .vmem S1x512 .f32 := Memref.whole cc2_scratch3

abbrev scM2_4 : Memref sig .tc .vmem S1x2176 .f32 := Memref.whole cc2_scratch4

abbrev scM2_5 : Memref sig .tc .vmem S1x2176 .f32 := Memref.whole cc2_scratch5

def scrOwns (c : Dev nD) (s : Scr F) : sProp 𝕄 :=
  iprop(owns (c : Thread nD τ) scM2_0 fullShare s.u ∗ owns (c : Thread nD τ) scM2_1 fullShare s.mx ∗ owns (c : Thread nD τ) scM2_2 fullShare s.l
    ∗ owns (c : Thread nD τ) scM2_3 fullShare s.acc ∗ owns (c : Thread nD τ) scM2_4 fullShare s.tu ∗ owns (c : Thread nD τ) scM2_5 fullShare s.q)

def PhiS2 (c : Dev nD) : (n : ℕ) → n ≤ cfg2.N → sProp 𝕄
  | 0, _ => Pipeline.ΦA spec2 c
  | n + 1, hn => iprop(iprop(scrOwns c (scrAt2 V c n hn)
      ∗ Pipeline.scopedRestBut (Ix := Unit) (Name := ℕ) (U := UR sig nD τ) (Lvl := ℕ) (Val := Elt F) spec2 c [cc2_scratch0, cc2_scratch1, cc2_scratch2, cc2_scratch3, cc2_scratch4, cc2_scratch5])
      ∗ (∃ r, prngReg c r))

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => outAt2 V c t.val t.isLt
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]

theorem after2_1 (c : Dev nD) (t : Fin cfg2.N) : (dat2 V c).after 1 t = iblk2 V c 1 t := by dsimp only [dat2]

theorem after2_2 (c : Dev nD) (t : Fin cfg2.N) : (dat2 V c).after 2 t = iblk2 V c 2 t := by dsimp only [dat2]

theorem after2_3 (c : Dev nD) (t : Fin cfg2.N) : (dat2 V c).after 3 t = iblk2 V c 3 t := by dsimp only [dat2]

theorem after2_4 (c : Dev nD) (t : Fin cfg2.N) : (dat2 V c).after 4 t = iblk2 V c 4 t := by dsimp only [dat2]

theorem after2_5 (c : Dev nD) (t : Fin cfg2.N) : (dat2 V c).after 5 t = iblk2 V c 5 t := by dsimp only [dat2]

theorem after2_6 (c : Dev nD) (t : Fin cfg2.N) : (dat2 V c).after 6 t = outAt2 V c t.val t.isLt := by dsimp only [dat2]

theorem hcond_1 : ∀ t : Fin cfg2.N, cond_1 (grid2.coords t) ↔ t.val % 2 = 0 :=
  (by decide +kernel : ∀ t : Fin grid2.N, cond_1 (grid2.coords t) ↔ t.val % 2 = 0)

theorem hcond_2 : ∀ t : Fin cfg2.N, cond_2 (grid2.coords t) ↔ t.val % 2 = 1 :=
  (by decide +kernel : ∀ t : Fin grid2.N, cond_2 (grid2.coords t) ↔ t.val % 2 = 1)

theorem idleAt2_6 : ∀ t : Fin cfg2.N, t.val % 2 = 0 → cfg2.idle 6 (grid2.coords t) = true :=
  (by decide +kernel : ∀ t : Fin grid2.N, t.val % 2 = 0 → cfg2.idle 6 (grid2.coords t) = true)

theorem liveAt2_6 : ∀ t : Fin cfg2.N, t.val % 2 = 1 → cfg2.idle 6 (grid2.coords t) = false :=
  (by decide +kernel : ∀ t : Fin grid2.N, t.val % 2 = 1 → cfg2.idle 6 (grid2.coords t) = false)

theorem noFlush2_6 (t : Fin cfg2.N) (h : t.val % 2 = 0) : (cfg2.win 6).flush t = false := by
  cases hf : (cfg2.win 6).flush t with
  | false => rfl
  | true => have := (flush2_6 t).mp hf; omega

theorem before2_0 (c : Dev nD) (t : Fin cfg2.N) (d) : (dat2 V c).before 0 t d = iblk2 V c 0 t :=
  ((dat2 V c).before_in_eq_fetched 0 rfl (fun _ => rfl) (fun _ _ _ => rfl)
      (fun t => by rw [after2_0]; unfold Dat.blockOf iblk2; rw [A_eq2]; try rfl) t d).trans
    (by unfold Dat.fetched Dat.blockOf iblk2; rw [A_eq2]; try rfl)

theorem before2_1 (c : Dev nD) (t : Fin cfg2.N) (d) : (dat2 V c).before 1 t d = iblk2 V c 1 t :=
  ((dat2 V c).before_in_eq_fetched 1 rfl (fun _ => rfl) (fun _ _ _ => rfl)
      (fun t => by rw [after2_1]; unfold Dat.blockOf iblk2; rw [A_eq2]; try rfl) t d).trans
    (by unfold Dat.fetched Dat.blockOf iblk2; rw [A_eq2]; try rfl)

theorem before2_2 (c : Dev nD) (t : Fin cfg2.N) (d) : (dat2 V c).before 2 t d = iblk2 V c 2 t :=
  ((dat2 V c).before_in_eq_fetched 2 rfl (fun _ => rfl) (fun _ _ _ => rfl)
      (fun t => by rw [after2_2]; unfold Dat.blockOf iblk2; rw [A_eq2]; try rfl) t d).trans
    (by unfold Dat.fetched Dat.blockOf iblk2; rw [A_eq2]; try rfl)

theorem before2_3 (c : Dev nD) (t : Fin cfg2.N) (d) : (dat2 V c).before 3 t d = iblk2 V c 3 t :=
  ((dat2 V c).before_in_eq_fetched 3 rfl (fun _ => rfl) (fun _ _ _ => rfl)
      (fun t => by rw [after2_3]; unfold Dat.blockOf iblk2; rw [A_eq2]; try rfl) t d).trans
    (by unfold Dat.fetched Dat.blockOf iblk2; rw [A_eq2]; try rfl)

theorem before2_4 (c : Dev nD) (t : Fin cfg2.N) (d) : (dat2 V c).before 4 t d = iblk2 V c 4 t :=
  ((dat2 V c).before_in_eq_fetched 4 rfl (fun _ => rfl) (fun _ _ _ => rfl)
      (fun t => by rw [after2_4]; unfold Dat.blockOf iblk2; rw [A_eq2]; try rfl) t d).trans
    (by unfold Dat.fetched Dat.blockOf iblk2; rw [A_eq2]; try rfl)

theorem before2_5 (c : Dev nD) (t : Fin cfg2.N) (d) : (dat2 V c).before 5 t d = iblk2 V c 5 t :=
  ((dat2 V c).before_in_eq_fetched 5 rfl (fun _ => rfl) (fun _ _ _ => rfl)
      (fun t => by rw [after2_5]; unfold Dat.blockOf iblk2; rw [A_eq2]; try rfl) t d).trans
    (by unfold Dat.fetched Dat.blockOf iblk2; rw [A_eq2]; try rfl)

abbrev restBut2 (c : Dev nD) : sProp 𝕄 :=
  Pipeline.scopedRestBut (Ix := Unit) (Name := ℕ) (U := UR sig nD τ) (Lvl := ℕ) (Val := Elt F) spec2 c [cc2_scratch0, cc2_scratch1, cc2_scratch2, cc2_scratch3, cc2_scratch4, cc2_scratch5]

theorem PhiA2_eq (c : Dev nD) :
    (Pipeline.ΦA spec2 c : sProp 𝕄)
      = iprop(iprop(iprop((∃ d, owns (c : Thread nD τ) scM2_0 fullShare d) ∗ (∃ d, owns (c : Thread nD τ) scM2_1 fullShare d)
            ∗ (∃ d, owns (c : Thread nD τ) scM2_2 fullShare d) ∗ (∃ d, owns (c : Thread nD τ) scM2_3 fullShare d)
            ∗ (∃ d, owns (c : Thread nD τ) scM2_4 fullShare d) ∗ (∃ d, owns (c : Thread nD τ) scM2_5 fullShare d))
          ∗ restBut2 c) ∗ (∃ r, prngReg c r)) := by
  unfold Pipeline.ΦA; rw [scopedRest2_split]; simp only [scM2_0, scM2_1, scM2_2, scM2_3, scM2_4, scM2_5, owns_whole]; try rfl

theorem PhiS2_zero (c : Dev nD) (n : ℕ) (h : n ≤ cfg2.N) (hz : n = 0) : PhiS2 V c n h = Pipeline.ΦA spec2 c := by
  subst hz; rfl

theorem PhiS2_succ (c : Dev nD) (n : ℕ) (hn : n < cfg2.N) :
    PhiS2 V c (n + 1) hn = iprop(iprop(scrOwns c (scrAt2 V c n hn) ∗ restBut2 c) ∗ (∃ r, prngReg c r)) := rfl

theorem PhiS2_pos (c : Dev nD) (n : ℕ) (h : n ≤ cfg2.N) (hz : n ≠ 0) :
    PhiS2 V c n h = iprop(iprop(scrOwns c (scrAt2 V c (n - 1) (by omega)) ∗ restBut2 c) ∗ (∃ r, prngReg c r)) := by
  cases n with
  | zero => exact absurd rfl hz
  | succ n => rfl

theorem PhiS2_castSucc (c : Dev nD) (t : Fin cfg2.N) :
    (dat2 V c).Φ t.castSucc = PhiS2 V c t.val (Nat.le_of_lt t.isLt) := by
  dsimp only [dat2]; simp only [Fin.coe_castSucc]

theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

theorem Phi2_out (c : Dev nD) (t : Fin (cfg2.N + 1)) (ht : t.val ≠ 0) : (dat2 V c).Φ t ⊢ Pipeline.ΦA spec2 c := by
  rw [show (dat2 V c).Φ t = PhiS2 V c t.val (Nat.le_of_lt_succ t.isLt) from rfl, PhiS2_pos V c _ _ ht, PhiA2_eq]
  unfold scrOwns
  iintro ⟨⟨⟨H9, H10, H11, H12, H13, H14⟩, Hr⟩, Hg⟩
  isplitr [Hg]
  · isplitr [Hr]
    · isplitl [H9]; · iexists _; iexact H9
      isplitl [H10]; · iexists _; iexact H10
      isplitl [H11]; · iexists _; iexact H11
      isplitl [H12]; · iexists _; iexact H12
      isplitl [H13]; · iexists _; iexact H13
      iexists _; iexact H14
    iexact Hr
  iexact Hg

theorem hout2 (c : Dev nD) : (dat2 V c).Φ (Fin.last cfg2.N) ⊢ Pipeline.ΦA spec2 c :=
  Phi2_out V c _ (by rw [Fin.val_last]; have : cfg2.N = 64 := N_2; omega)

theorem leaves2 (c : Dev nD) (t : Fin cfg2.N) (w : Fin cfg2.W) (h : cfg2.idle w (cfg2.grid.coords t) = false) :
    (dat2 V c).leavesExact w t = owns (c : Thread nD τ) ((cfg2.win w).stage (cfg2.slots t w)) fullShare ((dat2 V c).after w t) := by
  unfold Dat.leavesExact; rw [h]

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d)))

def bodyPost2 (c : Dev nD) (t : Fin cfg2.N) : sProp 𝕄 :=
  iprop((dat2 V c).Φ t.succ ∗ (dat2 V c).owesAt () t.succ
    ∗ (dat2 V c).leavesExact 0 t ∗ (dat2 V c).leavesExact 1 t ∗ (dat2 V c).leavesExact 2 t ∗ (dat2 V c).leavesExact 3 t
    ∗ (dat2 V c).leavesExact 4 t ∗ (dat2 V c).leavesExact 5 t ∗ (dat2 V c).leavesExact 6 t)

theorem Phi2_in (c : Dev nD) (t : Fin cfg2.N) : (dat2 V c).Φ t.castSucc ⊢ Pipeline.ΦA spec2 c := by
  by_cases hz : t.val = 0
  · rw [PhiS2_castSucc V c t, PhiS2_zero V c _ _ hz]
    try exact Idealize.SL.BI.Entails.refl _
  · exact Phi2_out V c t.castSucc (by rw [Fin.coe_castSucc]; exact hz)

/-- By the point's parity: an even point is the first tile (`sound_A`), an odd one the second (`sound_B`). -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  rw [show @cc2__hop_kernel F _ _ = hopKernel from rfl]
  simp only [before2_0, before2_1, before2_2, before2_3, before2_4, before2_5]
  rw [show (dat2 V c).owesAt () t.succ = (dat2 V c).owesAt () t.castSucc from rfl]
  rw [show (dat2 V c).Φ t.succ = PhiS2 V c (t.val + 1) t.isLt from rfl, PhiS2_succ]
  rw [leaves2 V c t 0 rfl, leaves2 V c t 1 rfl, leaves2 V c t 2 rfl, leaves2 V c t 3 rfl, leaves2 V c t 4 rfl, leaves2 V c t 5 rfl,
    after2_0, after2_1, after2_2, after2_3, after2_4, after2_5]
  by_cases h : t.val % 2 = 0
  · have hc1 : cond_1 (grid2.coords t) := (hcond_1 t).mpr h
    have hc2 : ¬cond_2 (grid2.coords t) := fun hh => by have := (hcond_2 t).mp hh; omega
    rw [Dat.leavesExact_idle (dat2 V c) 6 t (idleAt2_6 t h) (noFlush2_6 t h)]
    rw [scrAt2_even V c t h]
    refine (sep_mono_left (Phi2_in V c t)).trans ?_
    rw [PhiA2_eq]
    unfold scrOwns
    iintro ⟨⟨⟨⟨HS9, HS10, HS11, HS12, HS13, HS14⟩, Hr⟩, Hg⟩, Hw, ⟨%da, HA⟩, ⟨%db, HB⟩, ⟨%dc, HC⟩, ⟨%dd, HD⟩, ⟨%de, HE⟩, ⟨%df, HF⟩, ⟨%dout, HO⟩⟩
    iapply (sound_A c Set.univ (grid2.coords t) _ _ _ _ _ _ _ _ _ _ _ _ _ _ _ _ _ _ _ _ _ _ _ _ _ _ hc1 hc2 (iblk2 V c 0 t) (iblk2 V c 1 t) (iblk2 V c 2 t) (iblk2 V c 3 t) (iblk2 V c 4 t) (iblk2 V c 5 t) ((dat2 V c).before 6 t dout) _)
    iframe
    iintro ⟨HA, HB, HC, HD, HE, HF, HO, HS9, HS10, HS11, HS12, HS13, HS14⟩
    iframe
    iexists _; iexact HO
  · have hodd : t.val % 2 = 1 := by omega
    have hc1 : ¬cond_1 (grid2.coords t) := fun hh => h ((hcond_1 t).mp hh)
    have hc2 : cond_2 (grid2.coords t) := (hcond_2 t).mpr hodd
    have hz : t.val ≠ 0 := by omega
    rw [leaves2 V c t 6 (liveAt2_6 t hodd), after2_6]
    unfold outAt2
    rw [scrAt2_odd V c t hodd]
    rw [PhiS2_castSucc V c t, PhiS2_pos V c _ _ hz]
    unfold scrOwns
    iintro ⟨⟨⟨⟨HS9, HS10, HS11, HS12, HS13, HS14⟩, Hr⟩, Hg⟩, Hw, ⟨%da, HA⟩, ⟨%db, HB⟩, ⟨%dc, HC⟩, ⟨%dd, HD⟩, ⟨%de, HE⟩, ⟨%df, HF⟩, ⟨%dout, HO⟩⟩
    iapply (sound_B c Set.univ (grid2.coords t) _ _ _ _ _ _ _ _ _ _ _ _ _ _ _ _ _ _ _ _ _ _ _ _ _ _ hc1 hc2 (iblk2 V c 0 t) (iblk2 V c 1 t) (iblk2 V c 2 t) (iblk2 V c 3 t) (iblk2 V c 4 t) (iblk2 V c 5 t)
      (scrAt2 V c (t.val - 1) (Nat.lt_of_le_of_lt (Nat.sub_le _ _) t.isLt)) _)
    iframe
    isplitl [HO]; · iexists _; iexact HO
    iintro ⟨HA, HB, HC, HD, HE, HF, HO, HS9, HS10, HS11, HS12, HS13, HS14⟩
    iframe

theorem body_obligation2 (c : Dev nD) : BodyObligation (dat2 (F := F) V c) (defs₀ (F := F)) Variants.none () Set.univ := fun t => by
  rw [bigSep_W2, bigSep_W2]
  exact sound_body2 V c t

end Cert.Kernel.Hop2

end
-- ==== Proof.HopMath.lean ====
import Idealize.ShloMosaic.PureOps.Ideal
import Mathlib.Algebra.BigOperators.Fin

noncomputable section

namespace Cert.HopMath

open Idealize.ShloMosaic
variable {nM nD nT nTp : ℕ}

def refLogit (K : Fin nM → Fin nD → EReal) (A : Fin nT → Fin nD → EReal) (r : Fin nM → Fin nT) (u : Fin nD → EReal)
    (m : Fin nM) : EReal :=
  ∑ d, (K m d + A (r m) d) * u d

def refHop (K V : Fin nM → Fin nD → EReal) (A C : Fin nT → Fin nD → EReal) (r : Fin nM → Fin nT) (u : Fin nD → EReal)
    (d : Fin nD) : EReal :=
  (∑ m, (V m d + C (r m) d)
      * Ideal.div (Ideal.exp (refLogit K A r u m - Finset.univ.fold max ⊥ (refLogit K A r u)))
          (∑ m', Ideal.exp (refLogit K A r u m' - Finset.univ.fold max ⊥ (refLogit K A r u))))
    + u d

def tuRow (u : Fin nD → EReal) (Ap : Fin nTp → Fin nD → EReal) (t : Fin nTp) : EReal := ∑ d, u d * Ap t d

def tileLogit (u : Fin nD → EReal) (K : Fin nM → Fin nD → EReal) (tu : Fin nTp → EReal) (oh : Fin nM → Fin nTp → EReal)
    (m : Fin nM) : EReal :=
  (∑ d, u d * K m d) + ∑ t, tu t * oh m t

structure St (nD nTp : ℕ) where
  mx : EReal
  l : EReal
  acc : Fin nD → EReal
  q : Fin nTp → EReal

def St.init : St nD nTp := ⟨⊥, 0, fun _ => 0, fun _ => 0⟩

/-- One tile folded into the online-softmax state: the new maximum, then every running sum rescaled by exp (old maximum - new maximum). -/
def foldTile (u : Fin nD → EReal) (K V : Fin nM → Fin nD → EReal) (tu : Fin nTp → EReal) (oh : Fin nM → Fin nTp → EReal)
    (s : St nD nTp) : St nD nTp where
  mx := max s.mx (Finset.univ.fold max ⊥ (tileLogit u K tu oh))
  l := Ideal.exp (s.mx - max s.mx (Finset.univ.fold max ⊥ (tileLogit u K tu oh))) * s.l
        + ∑ m, Ideal.exp (tileLogit u K tu oh m - max s.mx (Finset.univ.fold max ⊥ (tileLogit u K tu oh)))
  acc := fun d => Ideal.exp (s.mx - max s.mx (Finset.univ.fold max ⊥ (tileLogit u K tu oh))) * s.acc d
        + ∑ m, Ideal.exp (tileLogit u K tu oh m - max s.mx (Finset.univ.fold max ⊥ (tileLogit u K tu oh))) * V m d
  q := fun t => Ideal.exp (s.mx - max s.mx (Finset.univ.fold max ⊥ (tileLogit u K tu oh))) * s.q t
        + ∑ m, Ideal.exp (tileLogit u K tu oh m - max s.mx (Finset.univ.fold max ⊥ (tileLogit u K tu oh))) * oh m t

def twoTiles (u : Fin nD → EReal) (K0 K1 V0 V1 : Fin nM → Fin nD → EReal) (Ap : Fin nTp → Fin nD → EReal)
    (oh0 oh1 : Fin nM → Fin nTp → EReal) : St nD nTp :=
  foldTile u K1 V1 (tuRow u Ap) oh1 (foldTile u K0 V0 (tuRow u Ap) oh0 St.init)

def kernelHop (u : Fin nD → EReal) (K0 K1 V0 V1 : Fin nM → Fin nD → EReal) (Ap Cp : Fin nTp → Fin nD → EReal)
    (oh0 oh1 : Fin nM → Fin nTp → EReal) (d : Fin nD) : EReal :=
  Ideal.div ((twoTiles u K0 K1 V0 V1 Ap oh0 oh1).acc d + ∑ t, (twoTiles u K0 K1 V0 V1 Ap oh0 oh1).q t * Cp t d)
      (twoTiles u K0 K1 V0 V1 Ap oh0 oh1).l
    + u d

def IsReal {ι : Type} (f : ι → EReal) : Prop := ∀ i, ∃ x : ℝ, f i = (x : EReal)

theorem coe_sum {ι : Type} (s : Finset ι) (f : ι → ℝ) :
    (∑ i ∈ s, (f i : EReal)) = ((∑ i ∈ s, f i : ℝ) : EReal) := by
  classical
  induction s using Finset.induction_on with
  | empty => simp
  | insert a s ha ih => rw [Finset.sum_insert ha, Finset.sum_insert ha, ih, EReal.coe_add]

theorem coe_max (a b : ℝ) : max (a : EReal) (b : EReal) = ((max a b : ℝ) : EReal) :=
  (EReal.coe_strictMono.monotone.map_max).symm

theorem div_coe_coe (a : ℝ) {b : ℝ} (hb : b ≠ 0) : Ideal.div (a : EReal) (b : EReal) = ((a / b : ℝ) : EReal) := by
  rw [Ideal.div_coe hb, ← EReal.coe_mul, mul_one_div]

theorem fold_max_real {n : ℕ} (hn : 0 < n) (f : Fin n → ℝ) :
    ∃ x : ℝ, Finset.univ.fold max ⊥ (fun i => (f i : EReal)) = (x : EReal) := by
  refine ⟨(Finset.univ.fold max ⊥ (fun i => (f i : EReal))).toReal, (EReal.coe_toReal ?_ ?_).symm⟩
  · apply ne_of_lt
    rw [Finset.fold_max_lt]
    exact ⟨bot_lt_top, fun i _ => EReal.coe_lt_top _⟩
  · apply ne_of_gt
    rw [Finset.lt_fold_max]
    exact Or.inr ⟨⟨0, hn⟩, Finset.mem_univ _, EReal.bot_lt_coe _⟩

theorem sum_mul_onehot (hle : nT ≤ nTp) (j : Fin nT) (g : Fin nTp → EReal) :
    ∑ t : Fin nTp, g t * (if t.val = j.val then (1 : EReal) else 0) = g ⟨j.val, lt_of_lt_of_le j.2 hle⟩ := by
  rw [Finset.sum_eq_single ⟨j.val, lt_of_lt_of_le j.2 hle⟩]
  · simp
  · intro t _ ht
    rw [if_neg (fun h => ht (Fin.ext h)), mul_zero]
  · intro h
    exact absurd (Finset.mem_univ _) h

theorem sum_onehot_mul (hle : nT ≤ nTp) (j : Fin nT) (g : Fin nTp → ℝ) :
    ∑ t : Fin nTp, (if t.val = j.val then (1 : ℝ) else 0) * g t = g ⟨j.val, lt_of_lt_of_le j.2 hle⟩ := by
  rw [Finset.sum_eq_single ⟨j.val, lt_of_lt_of_le j.2 hle⟩]
  · simp
  · intro t _ ht
    rw [if_neg (fun h => ht (Fin.ext h)), zero_mul]
  · intro h
    exact absurd (Finset.mem_univ _) h

/-- A softmax-weighted average does not depend on the shift inside exp: exp (b - a) cancels between numerator and denominator. -/
theorem wavg_shift {ι : Type} [Fintype ι] [Nonempty ι] (z w : ι → ℝ) (a b : ℝ) :
    (∑ m, Real.exp (z m - a) * w m) / (∑ m, Real.exp (z m - a))
      = ∑ m, w m * (Real.exp (z m - b) / ∑ m', Real.exp (z m' - b)) := by
  have he : ∀ m, Real.exp (z m - a) = Real.exp (b - a) * Real.exp (z m - b) := by
    intro m
    rw [← Real.exp_add]
    congr 1
    ring
  simp_rw [he, mul_assoc]
  rw [← Finset.mul_sum, ← Finset.mul_sum, mul_div_mul_left _ _ (Real.exp_pos _).ne', Finset.sum_div]
  apply Finset.sum_congr rfl
  intro m _
  ring

theorem hist_sum {n : ℕ} (hle : nT ≤ nTp) (j : Fin n → Fin nT) (f : Fin n → ℝ) (cc : Fin nT → ℝ) :
    ∑ t : Fin nTp, (∑ m, f m * (if t.val = (j m).val then (1 : ℝ) else 0)) * (if h : t.val < nT then cc ⟨t.val, h⟩ else 0)
      = ∑ m, f m * cc (j m) := by
  simp_rw [Finset.sum_mul]
  rw [Finset.sum_comm]
  apply Finset.sum_congr rfl
  intro m _
  simp_rw [mul_assoc]
  rw [← Finset.mul_sum, sum_onehot_mul hle (j m)]
  simp [(j m).2]

theorem kernel_real {n : ℕ} (hn : 0 < n) (hle : nT ≤ nTp) (j : Fin (n + n) → Fin nT) (x v : Fin (n + n) → ℝ)
    (cc : Fin nT → ℝ) (T0 M R ud : ℝ) :
    ((Real.exp (T0 - M) * (∑ m, Real.exp (x (Fin.castAdd n m) - T0) * v (Fin.castAdd n m))
          + ∑ m, Real.exp (x (Fin.natAdd n m) - M) * v (Fin.natAdd n m))
        + ∑ t : Fin nTp,
            (Real.exp (T0 - M)
                  * (∑ m, Real.exp (x (Fin.castAdd n m) - T0) * (if t.val = (j (Fin.castAdd n m)).val then (1 : ℝ) else 0))
                + ∑ m, Real.exp (x (Fin.natAdd n m) - M) * (if t.val = (j (Fin.natAdd n m)).val then (1 : ℝ) else 0))
              * (if h : t.val < nT then cc ⟨t.val, h⟩ else 0))
        / (Real.exp (T0 - M) * (∑ m, Real.exp (x (Fin.castAdd n m) - T0)) + ∑ m, Real.exp (x (Fin.natAdd n m) - M))
      + ud
      = ∑ m, (v m + cc (j m)) * (Real.exp (x m - R) / ∑ m', Real.exp (x m' - R)) + ud := by
  have e0 : ∀ m, Real.exp (T0 - M) * Real.exp (x (Fin.castAdd n m) - T0) = Real.exp (x (Fin.castAdd n m) - M) := by
    intro m
    rw [← Real.exp_add]
    congr 1
    ring
  have hA : ∀ w : Fin (n + n) → ℝ,
      Real.exp (T0 - M) * (∑ m, Real.exp (x (Fin.castAdd n m) - T0) * w (Fin.castAdd n m))
          + ∑ m, Real.exp (x (Fin.natAdd n m) - M) * w (Fin.natAdd n m)
        = ∑ m, Real.exp (x m - M) * w m := by
    intro w
    rw [Fin.sum_univ_add, Finset.mul_sum]
    congr 1
    apply Finset.sum_congr rfl
    intro m _
    rw [← mul_assoc, e0]
  have hL : Real.exp (T0 - M) * (∑ m, Real.exp (x (Fin.castAdd n m) - T0)) + ∑ m, Real.exp (x (Fin.natAdd n m) - M)
      = ∑ m, Real.exp (x m - M) := by
    have := hA (fun _ => 1)
    simpa using this
  have hQ : ∑ t : Fin nTp,
            (Real.exp (T0 - M)
                  * (∑ m, Real.exp (x (Fin.castAdd n m) - T0) * (if t.val = (j (Fin.castAdd n m)).val then (1 : ℝ) else 0))
                + ∑ m, Real.exp (x (Fin.natAdd n m) - M) * (if t.val = (j (Fin.natAdd n m)).val then (1 : ℝ) else 0))
              * (if h : t.val < nT then cc ⟨t.val, h⟩ else 0)
      = Real.exp (T0 - M) * (∑ m, Real.exp (x (Fin.castAdd n m) - T0) * cc (j (Fin.castAdd n m)))
          + ∑ m, Real.exp (x (Fin.natAdd n m) - M) * cc (j (Fin.natAdd n m)) := by
    simp_rw [add_mul, Finset.sum_add_distrib, mul_assoc (Real.exp (T0 - M))]
    rw [← Finset.mul_sum, hist_sum hle (fun m => j (Fin.castAdd n m)), hist_sum hle (fun m => j (Fin.natAdd n m))]
  haveI : Nonempty (Fin (n + n)) := ⟨⟨0, by omega⟩⟩
  rw [hQ, hA v, hA (fun m => cc (j m)), hL, ← Finset.sum_add_distrib]
  simp_rw [← mul_add]
  rw [wavg_shift x (fun m => v m + cc (j m)) M R]

theorem refLogit_coe (K : Fin nM → Fin nD → EReal) (A : Fin nT → Fin nD → EReal) (r : Fin nM → Fin nT) (u : Fin nD → EReal)
    (k : Fin nM → Fin nD → ℝ) (a : Fin nT → Fin nD → ℝ) (uu : Fin nD → ℝ)
    (hK : ∀ m d, K m d = (k m d : EReal)) (hA : ∀ t d, A t d = (a t d : EReal)) (hu : ∀ d, u d = (uu d : EReal))
    (m : Fin nM) :
    refLogit K A r u m = ((∑ d, (k m d + a (r m) d) * uu d : ℝ) : EReal) := by
  simp only [refLogit, hK, hA, hu, ← EReal.coe_add, ← EReal.coe_mul, coe_sum]

theorem tileLogit_coe (hle : nT ≤ nTp) (K : Fin nM → Fin nD → EReal) (A : Fin nT → Fin nD → EReal)
    (Ap : Fin nTp → Fin nD → EReal) (r : Fin nM → Fin nT) (u : Fin nD → EReal) (oh : Fin nM → Fin nTp → EReal)
    (k : Fin nM → Fin nD → ℝ) (a : Fin nT → Fin nD → ℝ) (uu : Fin nD → ℝ)
    (hK : ∀ m d, K m d = (k m d : EReal)) (hA : ∀ t d, A t d = (a t d : EReal)) (hu : ∀ d, u d = (uu d : EReal))
    (hAp : ∀ t d, Ap t d = if h : t.val < nT then A ⟨t.val, h⟩ d else 0)
    (hoh : ∀ m t, oh m t = if t.val = (r m).val then 1 else 0) (m : Fin nM) :
    tileLogit u K (tuRow u Ap) oh m = ((∑ d, (k m d + a (r m) d) * uu d : ℝ) : EReal) := by
  have h1 : ∑ t, tuRow u Ap t * oh m t = tuRow u Ap ⟨(r m).val, lt_of_lt_of_le (r m).2 hle⟩ := by
    simp_rw [hoh]
    exact sum_mul_onehot hle (r m) _
  have h2 : tuRow u Ap ⟨(r m).val, lt_of_lt_of_le (r m).2 hle⟩ = ((∑ d, uu d * a (r m) d : ℝ) : EReal) := by
    simp only [tuRow, hAp, dif_pos (r m).2, Fin.eta, hA, hu, ← EReal.coe_mul, coe_sum]
  rw [tileLogit, h1, h2]
  simp only [hK, hu, ← EReal.coe_mul, coe_sum, ← EReal.coe_add]
  congr 1
  rw [← Finset.sum_add_distrib]
  apply Finset.sum_congr rfl
  intro d _
  ring

theorem refHop_coe (hM : 0 < nM) (K V : Fin nM → Fin nD → EReal) (A C : Fin nT → Fin nD → EReal) (r : Fin nM → Fin nT)
    (u : Fin nD → EReal) (k v : Fin nM → Fin nD → ℝ) (a c : Fin nT → Fin nD → ℝ) (uu : Fin nD → ℝ)
    (hK : ∀ m d, K m d = (k m d : EReal)) (hV : ∀ m d, V m d = (v m d : EReal))
    (hA : ∀ t d, A t d = (a t d : EReal)) (hC : ∀ t d, C t d = (c t d : EReal)) (hu : ∀ d, u d = (uu d : EReal))
    (d : Fin nD) :
    ∃ R : ℝ, refHop K V A C r u d
      = ((∑ m, (v m d + c (r m) d)
            * (Real.exp ((∑ d', (k m d' + a (r m) d') * uu d') - R)
                / ∑ m', Real.exp ((∑ d', (k m' d' + a (r m') d') * uu d') - R)) + uu d : ℝ) : EReal) := by
  have hx : refLogit K A r u = fun m => ((∑ d', (k m d' + a (r m) d') * uu d' : ℝ) : EReal) :=
    funext (refLogit_coe K A r u k a uu hK hA hu)
  obtain ⟨R, hR⟩ := fold_max_real hM (fun m => ∑ d', (k m d' + a (r m) d') * uu d')
  refine ⟨R, ?_⟩
  have hS : (∑ m', Real.exp ((∑ d', (k m' d' + a (r m') d') * uu d') - R)) ≠ 0 :=
    (Finset.sum_pos (fun _ _ => Real.exp_pos _) ⟨⟨0, hM⟩, Finset.mem_univ _⟩).ne'
  simp only [refHop, hx, hR, hV, hC, hu, ← EReal.coe_sub, Ideal.exp_coe, coe_sum]
  simp only [div_coe_coe _ hS, ← EReal.coe_add, ← EReal.coe_mul, coe_sum]

theorem twoTiles_coe (u : Fin nD → EReal) (K0 K1 V0 V1 : Fin nM → Fin nD → EReal) (Ap : Fin nTp → Fin nD → EReal)
    (oh0 oh1 : Fin nM → Fin nTp → EReal) (x0 x1 : Fin nM → ℝ) (v0 v1 : Fin nM → Fin nD → ℝ)
    (o0 o1 : Fin nM → Fin nTp → ℝ) (T0 T1 : ℝ)
    (hx0 : ∀ m, tileLogit u K0 (tuRow u Ap) oh0 m = (x0 m : EReal))
    (hx1 : ∀ m, tileLogit u K1 (tuRow u Ap) oh1 m = (x1 m : EReal))
    (hT0 : Finset.univ.fold max ⊥ (fun m => (x0 m : EReal)) = (T0 : EReal))
    (hT1 : Finset.univ.fold max ⊥ (fun m => (x1 m : EReal)) = (T1 : EReal))
    (hV0 : ∀ m d, V0 m d = (v0 m d : EReal)) (hV1 : ∀ m d, V1 m d = (v1 m d : EReal))
    (ho0 : ∀ m t, oh0 m t = (o0 m t : EReal)) (ho1 : ∀ m t, oh1 m t = (o1 m t : EReal)) :
    twoTiles u K0 K1 V0 V1 Ap oh0 oh1 =
      ⟨((max T0 T1 : ℝ) : EReal),
        ((Real.exp (T0 - max T0 T1) * (∑ m, Real.exp (x0 m - T0)) + ∑ m, Real.exp (x1 m - max T0 T1) : ℝ) : EReal),
        fun d => ((Real.exp (T0 - max T0 T1) * (∑ m, Real.exp (x0 m - T0) * v0 m d)
                    + ∑ m, Real.exp (x1 m - max T0 T1) * v1 m d : ℝ) : EReal),
        fun t => ((Real.exp (T0 - max T0 T1) * (∑ m, Real.exp (x0 m - T0) * o0 m t)
                    + ∑ m, Real.exp (x1 m - max T0 T1) * o1 m t : ℝ) : EReal)⟩ := by
  have hx0' : tileLogit u K0 (tuRow u Ap) oh0 = fun m => (x0 m : EReal) := funext hx0
  have hx1' : tileLogit u K1 (tuRow u Ap) oh1 = fun m => (x1 m : EReal) := funext hx1
  simp only [twoTiles, foldTile, St.init, hx0', hx1', hT0, hT1, hV0, hV1, ho0, ho1, max_bot_left, EReal.bot_sub,
    Ideal.exp_bot, zero_mul, mul_zero, zero_add, coe_max, ← EReal.coe_sub, Ideal.exp_coe, ← EReal.coe_mul, coe_sum,
    ← EReal.coe_add]

theorem refHop_real (hM : 0 < nM) (K V : Fin nM → Fin nD → EReal) (A C : Fin nT → Fin nD → EReal) (r : Fin nM → Fin nT)
    (u : Fin nD → EReal) (hK : ∀ m, IsReal (K m)) (hV : ∀ m, IsReal (V m)) (hA : ∀ t, IsReal (A t)) (hC : ∀ t, IsReal (C t))
    (hu : IsReal u) : IsReal (refHop K V A C r u) := by
  have hK' : ∀ m d, ∃ x : ℝ, K m d = (x : EReal) := hK
  have hV' : ∀ m d, ∃ x : ℝ, V m d = (x : EReal) := hV
  have hA' : ∀ t d, ∃ x : ℝ, A t d = (x : EReal) := hA
  have hC' : ∀ t d, ∃ x : ℝ, C t d = (x : EReal) := hC
  have hu' : ∀ d, ∃ x : ℝ, u d = (x : EReal) := hu
  choose k hk using hK'
  choose v hv using hV'
  choose a ha using hA'
  choose c hc using hC'
  choose uu huu using hu'
  intro d
  obtain ⟨R, hR⟩ := refHop_coe hM K V A C r u k v a c uu hk hv ha hc huu d
  exact ⟨_, hR⟩

/-- On real entries the two-tile running-maximum hop is the one-pass softmax hop: u distributes over key + time row, a one-hot row picks
    the bucket its time index names, and `wavg_shift` removes the running maximum. -/
theorem kernelHop_eq_refHop (hM : 0 < nM) (hle : nT ≤ nTp)
    (K V : Fin (nM + nM) → Fin nD → EReal) (A C : Fin nT → Fin nD → EReal) (Ap Cp : Fin nTp → Fin nD → EReal)
    (r : Fin (nM + nM) → Fin nT) (u : Fin nD → EReal) (oh0 oh1 : Fin nM → Fin nTp → EReal)
    (hK : ∀ m, IsReal (K m)) (hV : ∀ m, IsReal (V m)) (hA : ∀ t, IsReal (A t)) (hC : ∀ t, IsReal (C t)) (hu : IsReal u)
    (hAp : ∀ t d, Ap t d = if h : t.val < nT then A ⟨t.val, h⟩ d else 0)
    (hCp : ∀ t d, Cp t d = if h : t.val < nT then C ⟨t.val, h⟩ d else 0)
    (hoh0 : ∀ m t, oh0 m t = if t.val = (r (Fin.castAdd nM m)).val then 1 else 0)
    (hoh1 : ∀ m t, oh1 m t = if t.val = (r (Fin.natAdd nM m)).val then 1 else 0)
    (d : Fin nD) :
    kernelHop u (fun m => K (Fin.castAdd nM m)) (fun m => K (Fin.natAdd nM m)) (fun m => V (Fin.castAdd nM m))
        (fun m => V (Fin.natAdd nM m)) Ap Cp oh0 oh1 d
      = refHop K V A C r u d := by
  have hK' : ∀ m d, ∃ x : ℝ, K m d = (x : EReal) := hK
  have hV' : ∀ m d, ∃ x : ℝ, V m d = (x : EReal) := hV
  have hA' : ∀ t d, ∃ x : ℝ, A t d = (x : EReal) := hA
  have hC' : ∀ t d, ∃ x : ℝ, C t d = (x : EReal) := hC
  have hu' : ∀ d, ∃ x : ℝ, u d = (x : EReal) := hu
  choose k hk using hK'
  choose v hv using hV'
  choose a ha using hA'
  choose c hc using hC'
  choose uu huu using hu'
  have hx0 : ∀ m, tileLogit u (fun m => K (Fin.castAdd nM m)) (tuRow u Ap) oh0 m
      = ((∑ d', (k (Fin.castAdd nM m) d' + a (r (Fin.castAdd nM m)) d') * uu d' : ℝ) : EReal) :=
    tileLogit_coe hle (fun m => K (Fin.castAdd nM m)) A Ap (fun m => r (Fin.castAdd nM m)) u oh0
      (fun m => k (Fin.castAdd nM m)) a uu (fun m d' => hk _ d') ha huu hAp hoh0
  have hx1 : ∀ m, tileLogit u (fun m => K (Fin.natAdd nM m)) (tuRow u Ap) oh1 m
      = ((∑ d', (k (Fin.natAdd nM m) d' + a (r (Fin.natAdd nM m)) d') * uu d' : ℝ) : EReal) :=
    tileLogit_coe hle (fun m => K (Fin.natAdd nM m)) A Ap (fun m => r (Fin.natAdd nM m)) u oh1
      (fun m => k (Fin.natAdd nM m)) a uu (fun m d' => hk _ d') ha huu hAp hoh1
  obtain ⟨T0, hT0⟩ := fold_max_real hM (fun m => ∑ d', (k (Fin.castAdd nM m) d' + a (r (Fin.castAdd nM m)) d') * uu d')
  obtain ⟨T1, hT1⟩ := fold_max_real hM (fun m => ∑ d', (k (Fin.natAdd nM m) d' + a (r (Fin.natAdd nM m)) d') * uu d')
  obtain ⟨R, hR⟩ := refHop_coe (Nat.add_pos_left hM nM) K V A C r u k v a c uu hk hv ha hc huu d
  have hCp' : ∀ t d, Cp t d = ((if h : t.val < nT then c ⟨t.val, h⟩ d else 0 : ℝ) : EReal) := by
    intro t d
    rw [hCp]
    split_ifs with h
    · exact hc _ _
    · rfl
  have ho0 : ∀ m t, oh0 m t = ((if t.val = (r (Fin.castAdd nM m)).val then (1 : ℝ) else 0 : ℝ) : EReal) := by
    intro m t
    rw [hoh0]
    split_ifs <;> rfl
  have ho1 : ∀ m t, oh1 m t = ((if t.val = (r (Fin.natAdd nM m)).val then (1 : ℝ) else 0 : ℝ) : EReal) := by
    intro m t
    rw [hoh1]
    split_ifs <;> rfl
  have hTT := twoTiles_coe u (fun m => K (Fin.castAdd nM m)) (fun m => K (Fin.natAdd nM m))
    (fun m => V (Fin.castAdd nM m)) (fun m => V (Fin.natAdd nM m)) Ap oh0 oh1 _ _
    (fun m => v (Fin.castAdd nM m)) (fun m => v (Fin.natAdd nM m)) _ _ T0 T1 hx0 hx1 hT0 hT1
    (fun m d' => hv _ d') (fun m d' => hv _ d') ho0 ho1
  rw [hR, kernelHop, hTT]
  simp only [hCp', huu, ← EReal.coe_mul, coe_sum, ← EReal.coe_add]
  rw [div_coe_coe, ← EReal.coe_add]
  · refine congrArg Real.toEReal ?_
    exact kernel_real hM hle r (fun m => ∑ d', (k m d' + a (r m) d') * uu d') (fun m => v m d) (fun t => c t d)
      T0 (max T0 T1) R (uu d)
  · exact (add_pos_of_nonneg_of_pos
      (mul_nonneg (Real.exp_pos _).le (Finset.sum_nonneg fun _ _ => (Real.exp_pos _).le))
      (Finset.sum_pos (fun _ _ => Real.exp_pos _) ⟨⟨0, hM⟩, Finset.mem_univ _⟩)).ne'

end Cert.HopMath

end
-- ==== Proof.Spec3.lean ====
import proofs.«410490_j37271726195550_3_alg».proof.Proof.HopMath
import Idealize.ShloMosaic.Lib.ValueIdx

noncomputable section

namespace Cert.Spec3

open Idealize.ShloMosaic Idealize.ShloMosaic.ValueIdx Cert.HopMath

def memOf (a : (⟨4, ![32, 3, 2048, 512]⟩ : Shape).Idx → EReal) (b : Fin 32) (i : Fin 3) : Fin (1024 + 1024) → Fin 512 → EReal :=
  fun m d => a (ix4 b i m d)

def tabOf (a : (⟨3, ![3, 2049, 512]⟩ : Shape).Idx → EReal) (i : Fin 3) : Fin 2049 → Fin 512 → EReal :=
  fun t d => a (ix3 i t d)

def relOf (a : (⟨2, ![32, 2048]⟩ : Shape).Idx → BitVec 32) (b : Fin 32) : Fin (1024 + 1024) → Fin 2049 :=
  fun m => ⟨(a (ix2 b m)).toNat % 2049, Nat.mod_lt _ (by decide)⟩

def hop (rel : (⟨2, ![32, 2048]⟩ : Shape).Idx → BitVec 32) (keys vals : (⟨4, ![32, 3, 2048, 512]⟩ : Shape).Idx → EReal)
    (ta tc : (⟨3, ![3, 2049, 512]⟩ : Shape).Idx → EReal) (i : Fin 3) (u : Fin 32 → Fin 512 → EReal) : Fin 32 → Fin 512 → EReal :=
  fun b d => refHop (memOf keys b i) (memOf vals b i) (tabOf ta i) (tabOf tc i) (relOf rel b) (u b) d

def result (rel : (⟨2, ![32, 2048]⟩ : Shape).Idx → BitVec 32) (keys vals : (⟨4, ![32, 3, 2048, 512]⟩ : Shape).Idx → EReal)
    (ta tc : (⟨3, ![3, 2049, 512]⟩ : Shape).Idx → EReal) (u0 : Fin 32 → Fin 512 → EReal) : Fin 32 → Fin 512 → EReal :=
  hop rel keys vals ta tc 2 (hop rel keys vals ta tc 1 (hop rel keys vals ta tc 0 u0))

theorem hop_real (rel : (⟨2, ![32, 2048]⟩ : Shape).Idx → BitVec 32) (keys vals : (⟨4, ![32, 3, 2048, 512]⟩ : Shape).Idx → EReal)
    (ta tc : (⟨3, ![3, 2049, 512]⟩ : Shape).Idx → EReal) (hk : IsReal keys) (hv : IsReal vals) (hta : IsReal ta) (htc : IsReal tc)
    (i : Fin 3) (u : Fin 32 → Fin 512 → EReal) (hu : ∀ b, IsReal (u b)) (b : Fin 32) : IsReal (hop rel keys vals ta tc i u b) :=
  refHop_real (by decide) _ _ _ _ _ _ (fun m d => hk _) (fun m d => hv _) (fun t d => hta _) (fun t d => htc _) (hu b)

end Cert.Spec3

end
-- ==== Proof.HostSide.lean ====
import Idealize.ShloMosaic.Lib.ReduceAll
import Idealize.ShloMosaic.Lib.ValueIdx
import Idealize.ShloMosaic.Lib.KernelVsHost
import Idealize.ShloMosaic.Lib.Pipeline.Value
import Idealize.ShloMosaic.PureOps.Ideal
import proofs.«410490_j37271726195550_3_alg».proof.Pre_finite_inputs
import proofs.«410490_j37271726195550_3_alg».proof.Proof.HopMath
import proofs.«410490_j37271726195550_3_alg».proof.Proof.Gen.KernelIdeal.Regions

set_option maxRecDepth 16384

noncomputable section

namespace Cert.PreFacts

open Idealize.ShloMosaic Idealize.ShloMosaic.ValueIdx
open Cert.Pre_finite_inputs

instance : Subsingleton S_.Idx := ⟨fun a b => funext fun d => d.elim0⟩

theorem real_of_abs_lt_top (x : Ideal .f32)
    (h : FloatOps.cmpf .olt (FloatOps.hostAbsf x) (FloatOps.ofBits (F := Ideal) .f32 0x7F800000#32) = 1#1) :
    ∃ r : ℝ, x = (r : EReal) := by
  have htop : Ideal.ofBits .f32 0x7F800000#32 = ⊤ := by simp [Ideal.ofBits, Ideal.ieee]
  have h' : Ideal.cmp .olt (max (x : EReal) (-(x : EReal))) (Ideal.ofBits .f32 0x7F800000#32) = 1#1 := h
  rw [htop] at h'
  unfold Ideal.cmp at h'
  induction x using EReal.rec with
  | bot => simp at h'
  | coe r => exact ⟨r, rfl⟩
  | top => simp at h'

theorem toNat_lt_of_signed (w : BitVec 32) (h0 : IntOp.cmpi .sge w 0#32 = 1#1) (h1 : IntOp.cmpi .slt w 2049#32 = 1#1) :
    w.toNat < 2049 := by
  rw [IntOp.cmpi_sge] at h0
  rw [IntOp.cmpi_slt] at h1
  have e0 : (0#32 : BitVec 32).toInt = 0 := by decide
  have e1 : (2049#32 : BitVec 32).toInt = 2049 := by decide
  rw [e0] at h0
  rw [e1] at h1
  have h32 := w.isLt
  unfold BitVec.toInt at h0 h1
  split at h1 <;> omega

variable [Facts]

theorem pre_decode (a0 : IVec S32x32 32) (a1 : IVec S32x2048 32) (a2 a3 : FVec Ideal S32x3x2048x512 .f32)
    (a4 : FVec Ideal S32000x512 .f32) (a5 a6 : FVec Ideal S3x2049x512 .f32) (a7 : FVec Ideal S32x512 .f32)
    (h : Cert.Pre_finite_inputs.fn (F := Ideal) a0 a1 a2 a3 a4 a5 a6 a7 = fun _ => 1#1) :
    Cert.HopMath.IsReal a2 ∧ Cert.HopMath.IsReal a3 ∧ Cert.HopMath.IsReal a4 ∧ Cert.HopMath.IsReal a5
      ∧ Cert.HopMath.IsReal a6 ∧ Cert.HopMath.IsReal a7 ∧ ∀ j, (a1 j).toNat < 2049 := by
  have e := congrFun h ix0
  dsimp only [Cert.Pre_finite_inputs.fn, Cert.Pre_finite_inputs.fn_part1, Cert.Pre_finite_inputs.fn_part2] at e
  simp only [andi, IntOp.andi_eq_one] at e
  obtain ⟨⟨⟨⟨⟨⟨⟨h2, h3⟩, h4⟩, h5⟩, h6⟩, h7⟩, hge⟩, hlt⟩ := e
  refine ⟨fun i => ?_, fun i => ?_, fun i => ?_, fun i => ?_, fun i => ?_, fun i => ?_, fun j => ?_⟩
  · exact real_of_abs_lt_top (a2 i) (Host.reduce_andi_all _ _ _ _ _ h2 i)
  · exact real_of_abs_lt_top (a3 i) (Host.reduce_andi_all _ _ _ _ _ h3 i)
  · exact real_of_abs_lt_top (a4 i) (Host.reduce_andi_all _ _ _ _ _ h4 i)
  · exact real_of_abs_lt_top (a5 i) (Host.reduce_andi_all _ _ _ _ _ h5 i)
  · exact real_of_abs_lt_top (a6 i) (Host.reduce_andi_all _ _ _ _ _ h6 i)
  · exact real_of_abs_lt_top (a7 i) (Host.reduce_andi_all _ _ _ _ _ h7 i)
  · exact toNat_lt_of_signed (a1 j) (Host.reduce_andi_all _ _ _ _ _ hge j) (Host.reduce_andi_all _ _ _ _ _ hlt j)

end Cert.PreFacts

namespace Cert.KernelIdeal.HostVals

open Idealize.ShloMosaic Idealize.ShloMosaic.TcCoe Idealize.ShloMosaic.ValueIdx
open Idealize.SL.Sem
open Cert.KernelIdeal Cert.KernelIdeal.Gen
open Cert.HopMath (IsReal)
variable {F : FTy → Type} [FloatOps F]

def padRows (x : FVec F S3x2049x512 .f32) : FVec F S3x2176x512 .bf16 :=
  truncf .bf16 (pad S3x2176x512 ![0, 0, 0] ![0, 127, 0] ![0, 0, 0] x (sitofp (F := F) .f32 (constantI S_ 32 0#32))
    pads_S3x2049x512_S3x2176x512_000_01270_000 h_S_) bitsLt_bf16_f32

def slab (k : Nat) (hs : S3x2176x512.Slices ![k, 0, 0] S1x2176x512) (y : FVec F S3x2176x512 .bf16) : FVec F S2176x512 .bf16 :=
  shapeCast S2176x512 (extractStridedSlice S1x2176x512 ![k, 0, 0] y hs) shapeCasts_S1x2176x512_S2176x512

theorem slab_padRows_apply (x : FVec Ideal S3x2049x512 .f32) (k : Fin 3) (hs : S3x2176x512.Slices ![k.val, 0, 0] S1x2176x512)
    (t : Fin 2176) (d : Fin 512) :
    (slab (F := Ideal) k.val hs (padRows x) : S2176x512.Idx → EReal) (ix2 t d)
      = if h : t.val < 2049 then x (ix3 k ⟨t.val, h⟩ d) else 0 := by
  unfold slab
  rw [shapeCast_apply _ _ (ix2 t d) (ix3 (0 : Fin 1) t d) (by
    rw [Shape.rowMajor_val_three, Shape.rowMajor_val_two]; simp [S1x2176x512, S2176x512])]
  rw [extractStridedSlice_apply _ _ hs (ix3 (0 : Fin 1) t d) (ix3 k t d) (by
    intro a; fin_cases a <;> simp)]
  unfold padRows
  show pad S3x2176x512 ![0, 0, 0] ![0, 127, 0] ![0, 0, 0] x (sitofp (F := Ideal) .f32 (constantI S_ 32 0#32))
    pads_S3x2049x512_S3x2176x512_000_01270_000 h_S_ (ix3 k t d) = _
  by_cases h : t.val < 2049
  · rw [dif_pos h]
    exact pad_apply_of_inside _ _ _ x _ _ _ (ix3 k t d) (ix3 k ⟨t.val, h⟩ d) (by
      intro a; fin_cases a <;> simp)
  · rw [dif_neg h]
    rw [pad_apply_of_not_inside _ _ _ x _ _ _ (ix3 k t d) (1 : Fin 3) (fun hh => h (by
      have h3 : (t.val - 0) / (0 + 1) < 2049 := hh.2.2
      omega))]
    show (((0#32 : BitVec 32).toInt : ℝ) : EReal) = 0
    simp

section Terms

variable (m : (ℓ : Loc nD τ sig) → Buf (Elt F) ℓ) (outs : Outs (F := F))

theorem v13_eq (c : Dev nD) : V5 (F := F) m c main_v13 = padRows (m ((c : Thread nD τ).loc main_arg5)) := by
  dsimp only [V5, V4, V3, V2, V1, V0]
  simp only [hostOps0_4, hostOps0_3, hostOps0_2, hostOps0_1, hostOps0]
  after_results
  rfl

theorem v15_eq (c : Dev nD) : V5 (F := F) m c main_v15 = padRows (m ((c : Thread nD τ).loc main_arg6)) := by
  dsimp only [V5, V4, V3, V2, V1, V0]
  simp only [hostOps0_4, hostOps0_3, hostOps0_2, hostOps0_1, hostOps0]
  after_results
  rfl

theorem v17_eq (c : Dev nD) :
    V5 (F := F) m c main_v17 = slab 0 slices_S3x2176x512_S1x2176x512_0_0_0 (padRows (m ((c : Thread nD τ).loc main_arg5))) := by
  dsimp only [V5, V4, V3, V2, V1, V0]
  simp only [hostOps0_4, hostOps0_3, hostOps0_2, hostOps0_1, hostOps0]
  after_results
  rfl

theorem v19_eq (c : Dev nD) :
    V5 (F := F) m c main_v19 = slab 0 slices_S3x2176x512_S1x2176x512_0_0_0 (padRows (m ((c : Thread nD τ).loc main_arg6))) := by
  dsimp only [V5, V4, V3, V2, V1, V0]
  simp only [hostOps0_4, hostOps0_3, hostOps0_2, hostOps0_1, hostOps0]
  after_results
  rfl

theorem hostOps1_v22 (W : Valuation τ sig (Elt F)) :
    StableHlo.after hostOps1 W (Proc.devRef .tc main_v22)
      = slab 1 slices_S3x2176x512_S1x2176x512_1_0_0 (W (Proc.devRef .tc main_v13)) := by
  simp only [hostOps1]
  after_results
  rfl

theorem hostOps1_v24 (W : Valuation τ sig (Elt F)) :
    StableHlo.after hostOps1 W (Proc.devRef .tc main_v24)
      = slab 1 slices_S3x2176x512_S1x2176x512_1_0_0 (W (Proc.devRef .tc main_v15)) := by
  simp only [hostOps1]
  after_results
  rfl

theorem hostOps2_v27 (W : Valuation τ sig (Elt F)) :
    StableHlo.after hostOps2 W (Proc.devRef .tc main_v27)
      = slab 2 slices_S3x2176x512_S1x2176x512_2_0_0 (W (Proc.devRef .tc main_v13)) := by
  simp only [hostOps2]
  after_results
  rfl

theorem hostOps2_v29 (W : Valuation τ sig (Elt F)) :
    StableHlo.after hostOps2 W (Proc.devRef .tc main_v29)
      = slab 2 slices_S3x2176x512_S1x2176x512_2_0_0 (W (Proc.devRef .tc main_v15)) := by
  simp only [hostOps2]
  after_results
  rfl

theorem V6_v13 (c : Dev nD) : V6 (F := F) m outs c main_v13 = padRows (m ((c : Thread nD τ).loc main_arg5)) :=
  (V6_of m outs c main_v13 (by decide)).trans (v13_eq m c)

theorem V6_v15 (c : Dev nD) : V6 (F := F) m outs c main_v15 = padRows (m ((c : Thread nD τ).loc main_arg6)) :=
  (V6_of m outs c main_v15 (by decide)).trans (v15_eq m c)

theorem V8_v13 (c : Dev nD) : V8 (F := F) m outs c main_v13 = padRows (m ((c : Thread nD τ).loc main_arg5)) :=
  (V8_of m outs c main_v13 (by decide)).trans <| (V7_of m outs c main_v13 (by decide)).trans (V6_v13 m outs c)

theorem V8_v15 (c : Dev nD) : V8 (F := F) m outs c main_v15 = padRows (m ((c : Thread nD τ).loc main_arg6)) :=
  (V8_of m outs c main_v15 (by decide)).trans <| (V7_of m outs c main_v15 (by decide)).trans (V6_v15 m outs c)

theorem v22_eq (c : Dev nD) :
    V7 (F := F) m outs c main_v22 = slab 1 slices_S3x2176x512_S1x2176x512_1_0_0 (padRows (m ((c : Thread nD τ).loc main_arg5))) :=
  (hostOps1_v22 (V6 m outs c)).trans (congrArg (slab 1 slices_S3x2176x512_S1x2176x512_1_0_0) (V6_v13 m outs c))

theorem v24_eq (c : Dev nD) :
    V7 (F := F) m outs c main_v24 = slab 1 slices_S3x2176x512_S1x2176x512_1_0_0 (padRows (m ((c : Thread nD τ).loc main_arg6))) :=
  (hostOps1_v24 (V6 m outs c)).trans (congrArg (slab 1 slices_S3x2176x512_S1x2176x512_1_0_0) (V6_v15 m outs c))

theorem v27_eq (c : Dev nD) :
    V9 (F := F) m outs c main_v27 = slab 2 slices_S3x2176x512_S1x2176x512_2_0_0 (padRows (m ((c : Thread nD τ).loc main_arg5))) :=
  (hostOps2_v27 (V8 m outs c)).trans (congrArg (slab 2 slices_S3x2176x512_S1x2176x512_2_0_0) (V8_v13 m outs c))

theorem v29_eq (c : Dev nD) :
    V9 (F := F) m outs c main_v29 = slab 2 slices_S3x2176x512_S1x2176x512_2_0_0 (padRows (m ((c : Thread nD τ).loc main_arg6))) :=
  (hostOps2_v29 (V8 m outs c)).trans (congrArg (slab 2 slices_S3x2176x512_S1x2176x512_2_0_0) (V8_v15 m outs c))

end Terms

section Entries

variable (m : (ℓ : Loc nD τ sig) → Buf (Elt Ideal) ℓ) (outs : Outs (F := Ideal))

theorem v17_apply (c : Dev nD) (t : Fin 2176) (d : Fin 512) :
    (V5 (F := Ideal) m c main_v17 : S2176x512.Idx → EReal) (ix2 t d)
      = if h : t.val < 2049 then (m ((c : Thread nD τ).loc main_arg5) : S3x2049x512.Idx → EReal) (ix3 0 ⟨t.val, h⟩ d) else (0 : EReal) := by
  rw [v17_eq]; exact slab_padRows_apply _ 0 _ t d

theorem v19_apply (c : Dev nD) (t : Fin 2176) (d : Fin 512) :
    (V5 (F := Ideal) m c main_v19 : S2176x512.Idx → EReal) (ix2 t d)
      = if h : t.val < 2049 then (m ((c : Thread nD τ).loc main_arg6) : S3x2049x512.Idx → EReal) (ix3 0 ⟨t.val, h⟩ d) else (0 : EReal) := by
  rw [v19_eq]; exact slab_padRows_apply _ 0 _ t d

theorem v22_apply (c : Dev nD) (t : Fin 2176) (d : Fin 512) :
    (V7 (F := Ideal) m outs c main_v22 : S2176x512.Idx → EReal) (ix2 t d)
      = if h : t.val < 2049 then (m ((c : Thread nD τ).loc main_arg5) : S3x2049x512.Idx → EReal) (ix3 1 ⟨t.val, h⟩ d) else (0 : EReal) := by
  rw [v22_eq]; exact slab_padRows_apply _ 1 _ t d

theorem v24_apply (c : Dev nD) (t : Fin 2176) (d : Fin 512) :
    (V7 (F := Ideal) m outs c main_v24 : S2176x512.Idx → EReal) (ix2 t d)
      = if h : t.val < 2049 then (m ((c : Thread nD τ).loc main_arg6) : S3x2049x512.Idx → EReal) (ix3 1 ⟨t.val, h⟩ d) else (0 : EReal) := by
  rw [v24_eq]; exact slab_padRows_apply _ 1 _ t d

theorem v27_apply (c : Dev nD) (t : Fin 2176) (d : Fin 512) :
    (V9 (F := Ideal) m outs c main_v27 : S2176x512.Idx → EReal) (ix2 t d)
      = if h : t.val < 2049 then (m ((c : Thread nD τ).loc main_arg5) : S3x2049x512.Idx → EReal) (ix3 2 ⟨t.val, h⟩ d) else (0 : EReal) := by
  rw [v27_eq]; exact slab_padRows_apply _ 2 _ t d

theorem v29_apply (c : Dev nD) (t : Fin 2176) (d : Fin 512) :
    (V9 (F := Ideal) m outs c main_v29 : S2176x512.Idx → EReal) (ix2 t d)
      = if h : t.val < 2049 then (m ((c : Thread nD τ).loc main_arg6) : S3x2049x512.Idx → EReal) (ix3 2 ⟨t.val, h⟩ d) else (0 : EReal) := by
  rw [v29_eq]; exact slab_padRows_apply _ 2 _ t d

end Entries

def u0T (V0 : Valuation τ sig (Elt F)) : (Proc.devRef .tc main_v11 : DevRef τ sig).ty.Contents (Elt F) :=
  broadcastInDim S32x1x512 ![0, 2] bcast_S32x512_S32x1x512_0_2 (Host.reduceAdd (mulf (Host.gather gather_S32000x512_S32x32x1_S32x32x512_2_0_n_n_0_2_1512 (V0 (Proc.devRef .tc main_arg4)) (broadcastInDim S32x32x1 ![0, 1] bcast_S32x32_S32x32x1_0_1 (select (cmpi .slt (V0 (Proc.devRef .tc main_arg0)) (broadcastInDim S32x32 ![] bcast_S_S32x32 (constantI S_ 32 0#32))) (addi (V0 (Proc.devRef .tc main_arg0)) (broadcastInDim S32x32 ![] bcast_S_S32x32 (constantI S_ 32 32000#32))) (V0 (Proc.devRef .tc main_arg0))))) (broadcastInDim S32x32x512 ![0, 1, 2] bcast_S1x32x512_S32x32x512_0_1_2 (broadcastInDim S1x32x512 ![1, 2] bcast_S32x512_S1x32x512_1_2 (V0 (Proc.devRef .tc main_arg7))))) (constant S_ .f32 0x00000000#32) reducesTo_S32x32x512_S32x512_d1 h_S_)

theorem v11_eq (m : (ℓ : Loc nD τ sig) → Buf (Elt F) ℓ) (c : Dev nD) :
    V5 (F := F) m c main_v11 = u0T (fun b => m (c, b)) := by
  refine (V5_of m c main_v11 (by decide)).trans <| (V4_of m c main_v11 (by decide)).trans <|
    (V3_of m c main_v11 (by decide)).trans <| (V2_of m c main_v11 (by decide)).trans ?_
  show StableHlo.after hostOps0 (fun b => m (c, b)) (Proc.devRef .tc main_v11) = _
  simp only [hostOps0]
  after_results
  rfl

theorem isReal_mulf {s : Shape} {a b : FVec Ideal s .f32} (ha : IsReal a) (hb : IsReal b) : IsReal (mulf a b) := by
  intro i
  obtain ⟨x, hx⟩ := ha i
  obtain ⟨y, hy⟩ := hb i
  refine ⟨x * y, ?_⟩
  show (a i : EReal) * b i = _
  rw [hx, hy, EReal.coe_mul]

theorem isReal_reduceAdd {s t u : Shape} {axes : List (Fin s.rank)} (x : FVec Ideal s .f32) (init : u.Idx → Ideal .f32)
    (h : s.ReducesTo axes t) (hu : 0 < u.numel) (hx : IsReal x) (hi : IsReal init) :
    IsReal (Host.reduceAdd x init h hu) := by
  intro j
  choose f hf using hx
  obtain ⟨r0, hr0⟩ := hi (Shape.Idx.first hu)
  refine ⟨r0 + ∑ i ∈ Finset.univ.filter (fun i => h.drop i = j), f i, ?_⟩
  show Ideal.hostReduceAdd h x (init (Shape.Idx.first hu)) j = _
  unfold Ideal.hostReduceAdd
  rw [hr0, Finset.sum_congr rfl (fun i _ => hf i), Cert.HopMath.coe_sum, EReal.coe_add]

theorem isReal_broadcastInDim {s t : Shape} (dims : Fin s.rank → Fin t.rank) (h : s.BroadcastsInDim t dims) {x : s.Idx → EReal}
    (hx : IsReal x) : IsReal (broadcastInDim t dims h x) := fun j => hx _

theorem isReal_gather {s si t : Shape} {w : Nat} (g : GatherDims s si t) {x : s.Idx → EReal} (idx : IVec si w)
    (hx : IsReal x) : IsReal (Host.gather g x idx) := fun j => hx _

theorem u0T_isReal (V0 : Valuation τ sig (Elt Ideal)) (h4 : IsReal (V0 main_arg4)) (h7 : IsReal (V0 main_arg7)) :
    IsReal (u0T (F := Ideal) V0 : S32x1x512.Idx → EReal) := by
  unfold u0T
  exact isReal_broadcastInDim _ _ (isReal_reduceAdd _ _ _ _
    (isReal_mulf (isReal_gather _ _ h4) (isReal_broadcastInDim _ _ (isReal_broadcastInDim _ _ h7)))
    (fun i => ⟨0, Ideal.ofBits_zero_f32⟩))

theorem u0T_real (V0 : Valuation τ sig (Elt Ideal)) (h4 : IsReal (V0 main_arg4)) (h7 : IsReal (V0 main_arg7)) :
    ∀ (b : Fin 32) (d : Fin 512), ∃ x : ℝ, (u0T (F := Ideal) V0 : S32x1x512.Idx → EReal) (ix3 b 0 d) = (x : EReal) :=
  fun b d => u0T_isReal V0 h4 h7 (ix3 b 0 d)

section Untouched

variable (m : (ℓ : Loc nD τ sig) → Buf (Elt F) ℓ) (outs : Outs (F := F))

theorem V5_main_arg1 (c : Dev nD) : V5 (F := F) m c main_arg1 = m ((c : Thread nD τ).loc main_arg1) :=
  (V5_of m c main_arg1 (by decide)).trans <| (V4_of m c main_arg1 (by decide)).trans <| (V3_of m c main_arg1 (by decide)).trans <| (V2_of m c main_arg1 (by decide)).trans <| (V1_of m c main_arg1 (by decide)).trans rfl

theorem V5_main_arg2 (c : Dev nD) : V5 (F := F) m c main_arg2 = m ((c : Thread nD τ).loc main_arg2) :=
  (V5_of m c main_arg2 (by decide)).trans <| (V4_of m c main_arg2 (by decide)).trans <| (V3_of m c main_arg2 (by decide)).trans <| (V2_of m c main_arg2 (by decide)).trans <| (V1_of m c main_arg2 (by decide)).trans rfl

theorem V5_main_arg3 (c : Dev nD) : V5 (F := F) m c main_arg3 = m ((c : Thread nD τ).loc main_arg3) :=
  (V5_of m c main_arg3 (by decide)).trans <| (V4_of m c main_arg3 (by decide)).trans <| (V3_of m c main_arg3 (by decide)).trans <| (V2_of m c main_arg3 (by decide)).trans <| (V1_of m c main_arg3 (by decide)).trans rfl

theorem V7_main_arg1 (c : Dev nD) : V7 (F := F) m outs c main_arg1 = m ((c : Thread nD τ).loc main_arg1) :=
  (V7_of m outs c main_arg1 (by decide)).trans <| (V6_of m outs c main_arg1 (by decide)).trans (V5_main_arg1 m c)

theorem V7_main_arg2 (c : Dev nD) : V7 (F := F) m outs c main_arg2 = m ((c : Thread nD τ).loc main_arg2) :=
  (V7_of m outs c main_arg2 (by decide)).trans <| (V6_of m outs c main_arg2 (by decide)).trans (V5_main_arg2 m c)

theorem V7_main_arg3 (c : Dev nD) : V7 (F := F) m outs c main_arg3 = m ((c : Thread nD τ).loc main_arg3) :=
  (V7_of m outs c main_arg3 (by decide)).trans <| (V6_of m outs c main_arg3 (by decide)).trans (V5_main_arg3 m c)

theorem V9_main_arg1 (c : Dev nD) : V9 (F := F) m outs c main_arg1 = m ((c : Thread nD τ).loc main_arg1) :=
  (V9_of m outs c main_arg1 (by decide)).trans <| (V8_of m outs c main_arg1 (by decide)).trans (V7_main_arg1 m outs c)

theorem V9_main_arg2 (c : Dev nD) : V9 (F := F) m outs c main_arg2 = m ((c : Thread nD τ).loc main_arg2) :=
  (V9_of m outs c main_arg2 (by decide)).trans <| (V8_of m outs c main_arg2 (by decide)).trans (V7_main_arg2 m outs c)

theorem V9_main_arg3 (c : Dev nD) : V9 (F := F) m outs c main_arg3 = m ((c : Thread nD τ).loc main_arg3) :=
  (V9_of m outs c main_arg3 (by decide)).trans <| (V8_of m outs c main_arg3 (by decide)).trans (V7_main_arg3 m outs c)

theorem V7_main_v20 (c : Dev nD) : V7 (F := F) m outs c main_v20 = outs 6 main_v20 c := by
  refine (V7_of m outs c main_v20 (by decide)).trans ?_
  show Function.update (V5 m c) (Proc.devRef .tc main_v20) (outs 6 main_v20 c) (Proc.devRef .tc main_v20) = _
  exact Function.update_self ..

theorem V9_main_v25 (c : Dev nD) : V9 (F := F) m outs c main_v25 = outs 8 main_v25 c := by
  refine (V9_of m outs c main_v25 (by decide)).trans ?_
  show Function.update (V7 m outs c) (Proc.devRef .tc main_v25) (outs 8 main_v25 c) (Proc.devRef .tc main_v25) = _
  exact Function.update_self ..

end Untouched

end Cert.KernelIdeal.HostVals

end
-- ==== Proof.RefRead.lean ====
import proofs.«410490_j37271726195550_3_alg».proof.Proof.Gen.ReferenceIdeal.Run
import proofs.«410490_j37271726195550_3_alg».proof.Proof.HopMath
import proofs.«410490_j37271726195550_3_alg».proof.Proof.Spec3
import Idealize.ShloMosaic.Lib.IdealHost
import Idealize.ShloMosaic.Lib.Pipeline.Value
import Idealize.ShloMosaic.Lib.StableHlo.Predicate

noncomputable section

namespace Cert.ReferenceIdeal.RefValue

open Cert.ReferenceIdeal Cert.ReferenceIdeal.Gen Cert.ReferenceIdeal.Value Idealize.ShloMosaic Idealize.ShloMosaic.TcCoe
  Idealize.SL.Sem Idealize.ShloMosaic.StableHlo Idealize.ShloMosaic.ValueIdx

section Generic

variable {F : FTy → Type} [FloatOps F]

def relFix (rel : (⟨S32x2048, .i32⟩ : BufTy).Contents (Elt F)) : (⟨S32x2048, .i32⟩ : BufTy).Contents (Elt F) :=
  select (cmpi .slt rel (broadcastInDim S32x2048 ![] bcast_S_S32x2048 (constantI S_ 32 0#32))) (addi rel (broadcastInDim S32x2048 ![] bcast_S_S32x2048 (constantI S_ 32 2049#32))) rel

def rowsT (tab : (⟨S2049x512, .f32⟩ : BufTy).Contents (Elt F)) (rel : (⟨S32x2048, .i32⟩ : BufTy).Contents (Elt F)) :
    (⟨S32x2048x512, .f32⟩ : BufTy).Contents (Elt F) :=
  Host.gather gather_S2049x512_S32x2048x1_S32x2048x512_2_0_n_n_0_2_1512 tab (broadcastInDim S32x2048x1 ![0, 1] bcast_S32x2048_S32x2048x1_0_1 (relFix (F := F) rel))

def logitsT (K : (⟨S32x2048x512, .f32⟩ : BufTy).Contents (Elt F)) (A : (⟨S2049x512, .f32⟩ : BufTy).Contents (Elt F))
    (rel : (⟨S32x2048, .i32⟩ : BufTy).Contents (Elt F)) (u : (⟨S32x1x512, .f32⟩ : BufTy).Contents (Elt F)) :
    (⟨S32x2048, .f32⟩ : BufTy).Contents (Elt F) :=
  Host.reduceAdd (mulf (addf K (rowsT A rel)) (broadcastInDim S32x2048x512 ![0, 1, 2] bcast_S32x1x512_S32x2048x512_0_1_2 u)) (constant S_ .f32 0x00000000#32) reducesTo_S32x2048x512_S32x2048_d2 h_S_

def expT (L : (⟨S32x2048, .f32⟩ : BufTy).Contents (Elt F)) : (⟨S32x2048, .f32⟩ : BufTy).Contents (Elt F) :=
  Host.exp (subf L (broadcastInDim S32x2048 ![0, 1] bcast_S32x1_S32x2048_0_1 (broadcastInDim S32x1 ![0] bcast_S32_S32x1_0 (maximumf (broadcastInDim S32 ![] bcast_S_S32 (constant S_ .f32 0xFF800000#32)) (Host.reduce FloatOps.maximumf L (constant S_ .f32 0xFF800000#32) reducesTo_S32x2048_S32_d1 h_S_)))))

def outT (V : (⟨S32x2048x512, .f32⟩ : BufTy).Contents (Elt F)) (C : (⟨S2049x512, .f32⟩ : BufTy).Contents (Elt F))
    (rel : (⟨S32x2048, .i32⟩ : BufTy).Contents (Elt F)) (E : (⟨S32x2048, .f32⟩ : BufTy).Contents (Elt F))
    (u : (⟨S32x1x512, .f32⟩ : BufTy).Contents (Elt F)) : (⟨S32x1x512, .f32⟩ : BufTy).Contents (Elt F) :=
  addf (broadcastInDim S32x1x512 ![0, 2] bcast_S32x512_S32x1x512_0_2 (Host.reduceAdd (mulf (addf V (rowsT C rel)) (broadcastInDim S32x2048x512 ![0, 1, 2] bcast_S32x2048x1_S32x2048x512_0_1_2 (broadcastInDim S32x2048x1 ![0, 1] bcast_S32x2048_S32x2048x1_0_1 (Host.divf E (broadcastInDim S32x2048 ![0, 1] bcast_S32x1_S32x2048_0_1 (broadcastInDim S32x1 ![0] bcast_S32_S32x1_0 (Host.reduceAdd E (constant S_ .f32 0x00000000#32) reducesTo_S32x2048_S32_d1 h_S_))))))) (constant S_ .f32 0x00000000#32) reducesTo_S32x2048x512_S32x512_d1 h_S_)) u

def hopT (K V : (⟨S32x2048x512, .f32⟩ : BufTy).Contents (Elt F)) (A C : (⟨S2049x512, .f32⟩ : BufTy).Contents (Elt F))
    (rel : (⟨S32x2048, .i32⟩ : BufTy).Contents (Elt F)) (u : (⟨S32x1x512, .f32⟩ : BufTy).Contents (Elt F)) :
    (⟨S32x1x512, .f32⟩ : BufTy).Contents (Elt F) :=
  outT V C rel (expT (logitsT K A rel u)) u

def memT (off : Fin 4 → Nat) (h : S32x3x2048x512.Slices off S32x1x2048x512)
    (a : (⟨S32x3x2048x512, .f32⟩ : BufTy).Contents (Elt F)) : (⟨S32x2048x512, .f32⟩ : BufTy).Contents (Elt F) :=
  shapeCast _ (extractStridedSlice S32x1x2048x512 off a h) shapeCasts_S32x1x2048x512_S32x2048x512

def tabT (off : Fin 3 → Nat) (h : S3x2049x512.Slices off S1x2049x512)
    (a : (⟨S3x2049x512, .f32⟩ : BufTy).Contents (Elt F)) : (⟨S2049x512, .f32⟩ : BufTy).Contents (Elt F) :=
  shapeCast _ (extractStridedSlice S1x2049x512 off a h) shapeCasts_S1x2049x512_S2049x512

def u1T (V0 : Valuation τ sig (Elt F)) : (⟨S32x1x512, .f32⟩ : BufTy).Contents (Elt F) :=
  hopT (memT ![0, 0, 0, 0] slices_S32x3x2048x512_S32x1x2048x512_0_0_0_0 (V0 (Proc.devRef .tc main_arg2)))
    (memT ![0, 0, 0, 0] slices_S32x3x2048x512_S32x1x2048x512_0_0_0_0 (V0 (Proc.devRef .tc main_arg3)))
    (tabT ![0, 0, 0] slices_S3x2049x512_S1x2049x512_0_0_0 (V0 (Proc.devRef .tc main_arg5)))
    (tabT ![0, 0, 0] slices_S3x2049x512_S1x2049x512_0_0_0 (V0 (Proc.devRef .tc main_arg6)))
    (V0 (Proc.devRef .tc main_arg1)) (res_main_v11 V0)

def u2T (V0 : Valuation τ sig (Elt F)) : (⟨S32x1x512, .f32⟩ : BufTy).Contents (Elt F) :=
  hopT (memT ![0, 1, 0, 0] slices_S32x3x2048x512_S32x1x2048x512_0_1_0_0 (V0 (Proc.devRef .tc main_arg2)))
    (memT ![0, 1, 0, 0] slices_S32x3x2048x512_S32x1x2048x512_0_1_0_0 (V0 (Proc.devRef .tc main_arg3)))
    (tabT ![1, 0, 0] slices_S3x2049x512_S1x2049x512_1_0_0 (V0 (Proc.devRef .tc main_arg5)))
    (tabT ![1, 0, 0] slices_S3x2049x512_S1x2049x512_1_0_0 (V0 (Proc.devRef .tc main_arg6)))
    (V0 (Proc.devRef .tc main_arg1)) (u1T V0)

def resultT (V0 : Valuation τ sig (Elt F)) : (Proc.devRef .tc main_v143 : DevRef τ sig).ty.Contents (Elt F) :=
  hopT (memT ![0, 2, 0, 0] slices_S32x3x2048x512_S32x1x2048x512_0_2_0_0 (V0 (Proc.devRef .tc main_arg2)))
    (memT ![0, 2, 0, 0] slices_S32x3x2048x512_S32x1x2048x512_0_2_0_0 (V0 (Proc.devRef .tc main_arg3)))
    (tabT ![2, 0, 0] slices_S3x2049x512_S1x2049x512_2_0_0 (V0 (Proc.devRef .tc main_arg5)))
    (tabT ![2, 0, 0] slices_S3x2049x512_S1x2049x512_2_0_0 (V0 (Proc.devRef .tc main_arg6)))
    (V0 (Proc.devRef .tc main_arg1)) (u2T V0)

theorem v38_eq (V0 : Valuation τ sig (Elt F)) : res_main_v38 V0 =
    logitsT (memT ![0, 0, 0, 0] slices_S32x3x2048x512_S32x1x2048x512_0_0_0_0 (V0 (Proc.devRef .tc main_arg2)))
      (tabT ![0, 0, 0] slices_S3x2049x512_S1x2049x512_0_0_0 (V0 (Proc.devRef .tc main_arg5)))
      (V0 (Proc.devRef .tc main_arg1)) (res_main_v11 V0) := rfl

theorem v45_eq (V0 : Valuation τ sig (Elt F)) : res_main_v45 V0 = expT (res_main_v38 V0) := rfl

theorem v55_eq (V0 : Valuation τ sig (Elt F)) : res_main_v55 V0 = u1T V0 := by
  rw [u1T, hopT, ← v38_eq, ← v45_eq]; rfl

theorem v82_eq (V0 : Valuation τ sig (Elt F)) : res_main_v82 V0 =
    logitsT (memT ![0, 1, 0, 0] slices_S32x3x2048x512_S32x1x2048x512_0_1_0_0 (V0 (Proc.devRef .tc main_arg2)))
      (tabT ![1, 0, 0] slices_S3x2049x512_S1x2049x512_1_0_0 (V0 (Proc.devRef .tc main_arg5)))
      (V0 (Proc.devRef .tc main_arg1)) (res_main_v55 V0) := rfl

theorem v89_eq (V0 : Valuation τ sig (Elt F)) : res_main_v89 V0 = expT (res_main_v82 V0) := rfl

theorem v99_eq (V0 : Valuation τ sig (Elt F)) : res_main_v99 V0 = u2T V0 := by
  rw [u2T, hopT, ← v55_eq, ← v82_eq, ← v89_eq]; rfl

theorem v126_eq (V0 : Valuation τ sig (Elt F)) : res_main_v126 V0 =
    logitsT (memT ![0, 2, 0, 0] slices_S32x3x2048x512_S32x1x2048x512_0_2_0_0 (V0 (Proc.devRef .tc main_arg2)))
      (tabT ![2, 0, 0] slices_S3x2049x512_S1x2049x512_2_0_0 (V0 (Proc.devRef .tc main_arg5)))
      (V0 (Proc.devRef .tc main_arg1)) (res_main_v99 V0) := rfl

theorem v133_eq (V0 : Valuation τ sig (Elt F)) : res_main_v133 V0 = expT (res_main_v126 V0) := rfl

theorem resultT_eq (V0 : Valuation τ sig (Elt F)) :
    resultT V0 = outT (memT ![0, 2, 0, 0] slices_S32x3x2048x512_S32x1x2048x512_0_2_0_0 (V0 (Proc.devRef .tc main_arg3)))
      (tabT ![2, 0, 0] slices_S3x2049x512_S1x2049x512_2_0_0 (V0 (Proc.devRef .tc main_arg6)))
      (V0 (Proc.devRef .tc main_arg1)) (res_main_v133 V0) (res_main_v99 V0) := by
  rw [resultT, hopT, ← v99_eq, ← v126_eq, ← v133_eq]

theorem run_resultT (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v143) = resultT (launchContents m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨(h c).1.trans (resultT_eq (launchContents m c)).symm, (h c).2⟩) (run m ρ)

end Generic

section Gather

variable {N C A B w : Nat} {α : Type}

private theorem clamp_eq {z : Int} (n : Fin N) (hz : z = (n.val : Int)) : min z.toNat (N - 1) = n.val := by
  rw [hz, Int.toNat_natCast]
  have := n.isLt
  omega

private theorem g_operandIdx (wf) (idx : IVec ⟨3, ![A, B, 1]⟩ w) (a : Fin A) (b : Fin B) (c : Fin C) (n : Fin N)
    (hn : (idx (ix3 a b 0)).toInt = (n.val : Int)) :
    (⟨[2], [0], [], [], [0], 2, ![1, C], wf⟩ : GatherDims ⟨2, ![N, C]⟩ ⟨3, ![A, B, 1]⟩ ⟨3, ![A, B, C]⟩).operandIdx
        (ix3 a b c) idx = ix2 n c := by
  funext k
  refine Fin.ext ?_
  show GatherDims.start _ (ix3 a b c) idx k + GatherDims.batchCoord _ (ix3 a b c) k + GatherDims.offCoord _ (ix3 a b c) k = _
  rw [GatherDims.batchCoord_eq_zero _ _ _ List.not_mem_nil, Nat.add_zero]
  match k with
  | ⟨0, _⟩ =>
    show GatherDims.start _ (ix3 a b c) idx 0 + GatherDims.offCoord _ (ix3 a b c) 0 = n.val
    rw [GatherDims.offCoord_eq_zero _ _ _ (fun h => ((GatherDims.mem_sKept _ _).mp h).1 (List.mem_singleton.mpr rfl)),
      Nat.add_zero]
    unfold GatherDims.start
    rw [dif_pos (List.mem_cons_self)]
    have hsi : GatherDims.siIdx (⟨[2], [0], [], [], [0], 2, ![1, C], wf⟩ :
        GatherDims ⟨2, ![N, C]⟩ ⟨3, ![A, B, 1]⟩ ⟨3, ![A, B, C]⟩) (ix3 a b c)
        ⟨List.idxOf (0 : Fin 2) [0], List.idxOf_lt_length_iff.2 List.mem_cons_self⟩ = ix3 a b 0 := by
      funext b'; refine Fin.ext ?_
      match b' with
      | ⟨0, _⟩ => rfl
      | ⟨1, _⟩ => rfl
      | ⟨2, _⟩ => rfl
    rw [hsi]
    exact clamp_eq n hn
  | ⟨1, _⟩ =>
    have hs : GatherDims.start (⟨[2], [0], [], [], [0], 2, ![1, C], wf⟩ :
        GatherDims ⟨2, ![N, C]⟩ ⟨3, ![A, B, 1]⟩ ⟨3, ![A, B, C]⟩) (ix3 a b c) idx 1 = 0 := by
      unfold GatherDims.start; rw [dif_neg (by simp)]
    show GatherDims.start _ (ix3 a b c) idx 1 + GatherDims.offCoord _ (ix3 a b c) 1 = c.val
    rw [hs, Nat.zero_add]; rfl

theorem gather_rows_apply (d : GatherDims ⟨2, ![N, C]⟩ ⟨3, ![A, B, 1]⟩ ⟨3, ![A, B, C]⟩)
    (hod : d.offsetDims = [2]) (hcs : d.collapsedSliceDims = [0]) (hob : d.operandBatchingDims = [])
    (hsb : d.startIndicesBatchingDims = []) (hsm : d.startIndexMap = [0]) (hiv : d.indexVectorDim = 2)
    (hss : d.sliceSizes = ![1, C])
    (x : (⟨2, ![N, C]⟩ : Shape).Idx → α) (idx : IVec ⟨3, ![A, B, 1]⟩ w) (a : Fin A) (b : Fin B) (c : Fin C) (n : Fin N)
    (hn : (idx (ix3 a b 0)).toInt = (n.val : Int)) :
    Host.gather d x idx (ix3 a b c) = x (ix2 n c) := by
  obtain ⟨od, cs, ob, sb, sm, iv, ss, wf⟩ := d
  dsimp only at hod hcs hob hsb hsm hiv hss
  subst hod hcs hob hsb hsm hiv hss
  unfold Host.gather
  rw [g_operandIdx wf idx a b c n hn]

end Gather

section Reads

variable {F : FTy → Type} [FloatOps F]

theorem relFix_apply (rel : (⟨S32x2048, .i32⟩ : BufTy).Contents (Elt F)) (j : S32x2048.Idx) (h : (rel j).toNat < 2049) :
    relFix (F := F) rel j = rel j := by
  show Scalar.select (IntOp.cmpi .slt (rel j) 0#32) (IntOp.addi (rel j) 2049#32) (rel j) = rel j
  have hc : ¬ IntOp.cmpi .slt (rel j) 0#32 = 1#1 := by
    rw [Predicate.slt_iff_toNat (by omega) (by decide)]
    exact Nat.not_lt_zero _
  exact if_neg hc

theorem rowsT_apply (tab : (⟨S2049x512, .f32⟩ : BufTy).Contents (Elt F)) (rel : (⟨S32x2048, .i32⟩ : BufTy).Contents (Elt F))
    (hrel : ∀ j, (rel j).toNat < 2049) (b : Fin 32) (m : Fin 2048) (d : Fin 512) :
    rowsT tab rel (ix3 b m d) = tab (ix2 (⟨(rel (ix2 b m)).toNat % 2049, Nat.mod_lt _ (by decide)⟩ : Fin 2049) d) := by
  unfold rowsT
  refine gather_rows_apply _ rfl rfl rfl rfl rfl rfl rfl tab _ b m d _ ?_
  show (broadcastInDim S32x2048x1 ![0, 1] bcast_S32x2048_S32x2048x1_0_1 (relFix (F := F) rel) (ix3 b m 0)).toInt
    = (((rel (ix2 b m)).toNat % 2049 : ℕ) : ℤ)
  have h1 : broadcastInDim S32x2048x1 ![0, 1] bcast_S32x2048_S32x2048x1_0_1 (relFix (F := F) rel) (ix3 b m 0)
      = relFix (F := F) rel (ix2 b m) :=
    broadcastInDim_apply _ _ _ _ (ix2 b m) (fun a => match a with | ⟨0, _⟩ => rfl | ⟨1, _⟩ => rfl)
  have h2 := hrel (ix2 b m)
  rw [h1, relFix_apply rel _ h2, Predicate.toInt_eq_toNat_of_lt (by omega), Nat.mod_eq_of_lt h2]

theorem memT_apply (off : Fin 4 → Nat) (h : S32x3x2048x512.Slices off S32x1x2048x512)
    (a : (⟨S32x3x2048x512, .f32⟩ : BufTy).Contents (Elt F)) (i : Fin 3)
    (h0 : off 0 = 0) (h1 : off 1 = i.val) (h2 : off 2 = 0) (h3 : off 3 = 0) (b : Fin 32) (m : Fin 2048) (d : Fin 512) :
    memT off h a (ix3 b m d) = a (ix4 b i m d) := by
  unfold memT
  refine (shapeCast_apply _ _ (ix3 b m d) (ix4 b (0 : Fin 1) m d) ?_).trans ?_
  · rw [Shape.rowMajor_val_four, Shape.rowMajor_val_three]
    show ((b.val * 1 + 0) * 2048 + m.val) * 512 + d.val = (b.val * 2048 + m.val) * 512 + d.val
    omega
  · exact extractStridedSlice_apply off a h (ix4 b (0 : Fin 1) m d) (ix4 b i m d) (fun k => match k with
      | ⟨0, _⟩ => by show b.val = off 0 + b.val; omega
      | ⟨1, _⟩ => by show i.val = off 1 + 0; omega
      | ⟨2, _⟩ => by show m.val = off 2 + m.val; omega
      | ⟨3, _⟩ => by show d.val = off 3 + d.val; omega)

theorem tabT_apply (off : Fin 3 → Nat) (h : S3x2049x512.Slices off S1x2049x512)
    (a : (⟨S3x2049x512, .f32⟩ : BufTy).Contents (Elt F)) (i : Fin 3)
    (h0 : off 0 = i.val) (h1 : off 1 = 0) (h2 : off 2 = 0) (t : Fin 2049) (d : Fin 512) :
    tabT off h a (ix2 t d) = a (ix3 i t d) := by
  unfold tabT
  refine (shapeCast_apply _ _ (ix2 t d) (ix3 (0 : Fin 1) t d) ?_).trans ?_
  · rw [Shape.rowMajor_val_three, Shape.rowMajor_val_two]
    show (0 * 2049 + t.val) * 512 + d.val = t.val * 512 + d.val
    omega
  · exact extractStridedSlice_apply off a h (ix3 (0 : Fin 1) t d) (ix3 i t d) (fun k => match k with
      | ⟨0, _⟩ => by show i.val = off 0 + 0; omega
      | ⟨1, _⟩ => by show t.val = off 1 + t.val; omega
      | ⟨2, _⟩ => by show d.val = off 2 + d.val; omega)

end Reads

section AtIdeal

open Cert.HopMath

theorem ofBits_neg_inf_f32 : Ideal.ofBits .f32 0xFF800000#32 = ⊥ := by simp [Ideal.ofBits, Ideal.ieee]

theorem logitsT_apply (K : FVec Ideal S32x2048x512 .f32) (A : FVec Ideal S2049x512 .f32) (rel : IVec S32x2048 32)
    (u : FVec Ideal S32x1x512 .f32) (hrel : ∀ j, (rel j).toNat < 2049) (b : Fin 32) (m : Fin 2048) :
    logitsT (F := Ideal) K A rel u (ix2 b m)
      = ∑ d : Fin 512, (K (ix3 b m d) + A (ix2 (⟨(rel (ix2 b m)).toNat % 2049, Nat.mod_lt _ (by decide)⟩ : Fin 2049) d))
          * u (ix3 b 0 d) := by
  unfold logitsT
  refine (hostReduceAdd_apply _ _ _ _ _).trans ?_
  refine (Ideal.hostReduceAdd_single reducesTo_S32x2048x512_S32x2048_d2 (by decide : S32x2048x512.Reduces [2] S32x2048) _ _
    (ix2 b m)).trans ?_
  rw [constant_apply, Ideal.ofBits_zero_f32, zero_add]
  refine Finset.sum_congr rfl fun (d : Fin 512) _ => ?_
  have hl : (by decide : S32x2048x512.Reduces [2] S32x2048).lift (ix2 b m) d = ix3 b m d := by
    funext a
    match a with
    | ⟨0, _⟩ => rfl
    | ⟨1, _⟩ => rfl
    | ⟨2, _⟩ => rfl
  rw [hl]
  show (K (ix3 b m d) + rowsT (F := Ideal) A rel (ix3 b m d))
      * broadcastInDim S32x2048x512 ![0, 1, 2] bcast_S32x1x512_S32x2048x512_0_1_2 u (ix3 b m d) = _
  rw [rowsT_apply (F := Ideal) A rel hrel b m d]
  refine congrArg _ ?_
  exact broadcastInDim_apply _ _ _ _ (ix3 b 0 d) (fun a => match a with | ⟨0, _⟩ => rfl | ⟨1, _⟩ => rfl | ⟨2, _⟩ => rfl)

end AtIdeal

section AtIdeal2

open Cert.HopMath

theorem expT_apply (L : FVec Ideal S32x2048 .f32) (b : Fin 32) (m : Fin 2048) :
    expT (F := Ideal) L (ix2 b m)
      = Ideal.exp (L (ix2 b m) - Finset.univ.fold max ⊥ (fun m' : Fin 2048 => L (ix2 b m'))) := by
  unfold expT
  show Ideal.exp (L (ix2 b m) - _) = Ideal.exp (L (ix2 b m) - _)
  refine congrArg (fun z => Ideal.exp (L (ix2 b m) - z)) ?_
  refine (broadcastInDim_apply _ _ _ (ix2 b m) (ix2 b (0 : Fin 1)) (fun a => match a with | ⟨0, _⟩ => rfl | ⟨1, _⟩ => rfl)).trans ?_
  refine (broadcastInDim_apply _ _ _ (ix2 b (0 : Fin 1)) (ix1 b) (fun a => match a with | ⟨0, _⟩ => rfl)).trans ?_
  show max (Ideal.ofBits .f32 0xFF800000#32)
      (Host.reduce FloatOps.maximumf L (constant (F := Ideal) S_ .f32 0xFF800000#32) reducesTo_S32x2048_S32_d1 h_S_ (ix1 b)) = _
  rw [ofBits_neg_inf_f32, max_eq_right bot_le]
  refine (Host.reduce_eq_fold_single FloatOps.maximumf L _ reducesTo_S32x2048_S32_d1 (by decide : S32x2048.Reduces [1] S32) h_S_
    (ix1 b)).trans ?_
  show Finset.univ.fold max (Ideal.ofBits .f32 0xFF800000#32)
      (fun m' : Fin 2048 => L ((by decide : S32x2048.Reduces [1] S32).lift (ix1 b) m')) = _
  rw [ofBits_neg_inf_f32]
  refine Finset.fold_congr (fun m' _ => congrArg L ?_)
  funext a
  match a with
  | ⟨0, _⟩ => rfl
  | ⟨1, _⟩ => rfl

end AtIdeal2

section AtIdeal3

open Cert.HopMath

theorem outT_apply (V : FVec Ideal S32x2048x512 .f32) (C : FVec Ideal S2049x512 .f32) (rel : IVec S32x2048 32)
    (E : FVec Ideal S32x2048 .f32) (u : FVec Ideal S32x1x512 .f32) (hrel : ∀ j, (rel j).toNat < 2049)
    (b : Fin 32) (d : Fin 512) :
    outT (F := Ideal) V C rel E u (ix3 b 0 d)
      = (∑ m : Fin 2048, (V (ix3 b m d) + C (ix2 (⟨(rel (ix2 b m)).toNat % 2049, Nat.mod_lt _ (by decide)⟩ : Fin 2049) d))
          * Ideal.div (E (ix2 b m)) (∑ m' : Fin 2048, E (ix2 b m'))) + u (ix3 b 0 d) := by
  unfold outT
  show _ + u (ix3 b 0 d) = _ + u (ix3 b 0 d)
  refine congrArg (fun z => z + u (ix3 b 0 d)) ?_
  refine (broadcastInDim_apply _ _ _ (ix3 b (0 : Fin 1) d) (ix2 b d) (fun a => match a with | ⟨0, _⟩ => rfl | ⟨1, _⟩ => rfl)).trans ?_
  refine (hostReduceAdd_apply _ _ _ _ _).trans ?_
  refine (Ideal.hostReduceAdd_single reducesTo_S32x2048x512_S32x512_d1 (by decide : S32x2048x512.Reduces [1] S32x512) _ _
    (ix2 b d)).trans ?_
  rw [constant_apply, Ideal.ofBits_zero_f32, zero_add]
  refine Finset.sum_congr rfl fun (m : Fin 2048) _ => ?_
  have hl : (by decide : S32x2048x512.Reduces [1] S32x512).lift (ix2 b d) m = ix3 b m d := by
    funext a
    match a with
    | ⟨0, _⟩ => rfl
    | ⟨1, _⟩ => rfl
    | ⟨2, _⟩ => rfl
  rw [hl]
  show (V (ix3 b m d) + rowsT (F := Ideal) C rel (ix3 b m d)) * _ = _
  rw [rowsT_apply (F := Ideal) C rel hrel b m d]
  refine congrArg _ ?_
  refine (broadcastInDim_apply _ _ _ (ix3 b m d) (ix3 b m (0 : Fin 1))
    (fun a => match a with | ⟨0, _⟩ => rfl | ⟨1, _⟩ => rfl | ⟨2, _⟩ => rfl)).trans ?_
  refine (broadcastInDim_apply _ _ _ (ix3 b m (0 : Fin 1)) (ix2 b m) (fun a => match a with | ⟨0, _⟩ => rfl | ⟨1, _⟩ => rfl)).trans ?_
  show Ideal.div (E (ix2 b m)) _ = _
  refine congrArg (Ideal.div (E (ix2 b m))) ?_
  refine (broadcastInDim_apply _ _ _ (ix2 b m) (ix2 b (0 : Fin 1)) (fun a => match a with | ⟨0, _⟩ => rfl | ⟨1, _⟩ => rfl)).trans ?_
  refine (broadcastInDim_apply _ _ _ (ix2 b (0 : Fin 1)) (ix1 b) (fun a => match a with | ⟨0, _⟩ => rfl)).trans ?_
  refine (hostReduceAdd_apply _ _ _ _ _).trans ?_
  refine (Ideal.hostReduceAdd_single reducesTo_S32x2048_S32_d1 (by decide : S32x2048.Reduces [1] S32) _ _ (ix1 b)).trans ?_
  rw [constant_apply, Ideal.ofBits_zero_f32, zero_add]
  refine Finset.sum_congr rfl fun (m' : Fin 2048) _ => congrArg E ?_
  funext a
  match a with
  | ⟨0, _⟩ => rfl
  | ⟨1, _⟩ => rfl

theorem hopT_apply (K V : FVec Ideal S32x2048x512 .f32) (A C : FVec Ideal S2049x512 .f32) (rel : IVec S32x2048 32)
    (u : FVec Ideal S32x1x512 .f32) (hrel : ∀ j, (rel j).toNat < 2049) (b : Fin 32) (d : Fin 512) :
    hopT (F := Ideal) K V A C rel u (ix3 b 0 d)
      = refHop (fun (m : Fin 2048) (d' : Fin 512) => K (ix3 b m d')) (fun (m : Fin 2048) (d' : Fin 512) => V (ix3 b m d'))
          (fun (t : Fin 2049) (d' : Fin 512) => A (ix2 t d')) (fun (t : Fin 2049) (d' : Fin 512) => C (ix2 t d'))
          (fun m : Fin 2048 => (⟨(rel (ix2 b m)).toNat % 2049, Nat.mod_lt _ (by decide)⟩ : Fin 2049))
          (fun d' : Fin 512 => u (ix3 b 0 d')) d := by
  unfold hopT
  rw [outT_apply V C rel _ u hrel b d]
  simp only [expT_apply, logitsT_apply K A rel u hrel]
  rfl

end AtIdeal3

section Result

open Cert.HopMath Cert.Spec3

theorem hopT_slices_apply (offm : Fin 4 → Nat) (hm : S32x3x2048x512.Slices offm S32x1x2048x512)
    (offt : Fin 3 → Nat) (ht : S3x2049x512.Slices offt S1x2049x512) (i : Fin 3)
    (hm0 : offm 0 = 0) (hm1 : offm 1 = i.val) (hm2 : offm 2 = 0) (hm3 : offm 3 = 0)
    (ht0 : offt 0 = i.val) (ht1 : offt 1 = 0) (ht2 : offt 2 = 0)
    (keys vals : FVec Ideal S32x3x2048x512 .f32) (ta tc : FVec Ideal S3x2049x512 .f32) (rel : IVec S32x2048 32)
    (u : FVec Ideal S32x1x512 .f32) (hrel : ∀ j, (rel j).toNat < 2049) (b : Fin 32) (d : Fin 512) :
    hopT (F := Ideal) (memT offm hm keys) (memT offm hm vals) (tabT offt ht ta) (tabT offt ht tc) rel u (ix3 b 0 d)
      = Cert.Spec3.hop rel keys vals ta tc i (fun b d => u (ix3 b 0 d)) b d := by
  rw [hopT_apply _ _ _ _ rel u hrel b d]
  have hK : (fun (m : Fin 2048) (d' : Fin 512) => memT (F := Ideal) offm hm keys (ix3 b m d')) = memOf keys b i :=
    funext fun m => funext fun d' => memT_apply (F := Ideal) offm hm keys i hm0 hm1 hm2 hm3 b m d'
  have hV : (fun (m : Fin 2048) (d' : Fin 512) => memT (F := Ideal) offm hm vals (ix3 b m d')) = memOf vals b i :=
    funext fun m => funext fun d' => memT_apply (F := Ideal) offm hm vals i hm0 hm1 hm2 hm3 b m d'
  have hA : (fun (t : Fin 2049) (d' : Fin 512) => tabT (F := Ideal) offt ht ta (ix2 t d')) = tabOf ta i :=
    funext fun t => funext fun d' => tabT_apply (F := Ideal) offt ht ta i ht0 ht1 ht2 t d'
  have hC : (fun (t : Fin 2049) (d' : Fin 512) => tabT (F := Ideal) offt ht tc (ix2 t d')) = tabOf tc i :=
    funext fun t => funext fun d' => tabT_apply (F := Ideal) offt ht tc i ht0 ht1 ht2 t d'
  rw [hK, hV, hA, hC]
  rfl

theorem resultT_apply (V0 : Valuation τ sig (Elt Ideal)) (hrel : ∀ j, (V0 (Proc.devRef .tc main_arg1) j).toNat < 2049)
    (b : Fin 32) (d : Fin 512) :
    resultT V0 (ix3 b 0 d)
      = Cert.Spec3.result (V0 (Proc.devRef .tc main_arg1)) (V0 (Proc.devRef .tc main_arg2)) (V0 (Proc.devRef .tc main_arg3))
          (V0 (Proc.devRef .tc main_arg5)) (V0 (Proc.devRef .tc main_arg6)) (fun b d => res_main_v11 V0 (ix3 b 0 d)) b d := by
  unfold resultT
  refine (hopT_slices_apply ![0, 2, 0, 0] slices_S32x3x2048x512_S32x1x2048x512_0_2_0_0 ![2, 0, 0]
    slices_S3x2049x512_S1x2049x512_2_0_0 2 rfl rfl rfl rfl rfl rfl rfl _ _ _ _ _ (u2T V0) hrel b d).trans ?_
  unfold Cert.Spec3.result
  refine congrArg (fun w => Cert.Spec3.hop (V0 (Proc.devRef .tc main_arg1)) (V0 (Proc.devRef .tc main_arg2))
    (V0 (Proc.devRef .tc main_arg3)) (V0 (Proc.devRef .tc main_arg5)) (V0 (Proc.devRef .tc main_arg6)) 2 w b d) ?_
  funext b1 d1
  unfold u2T
  refine (hopT_slices_apply ![0, 1, 0, 0] slices_S32x3x2048x512_S32x1x2048x512_0_1_0_0 ![1, 0, 0]
    slices_S3x2049x512_S1x2049x512_1_0_0 1 rfl rfl rfl rfl rfl rfl rfl _ _ _ _ _ (u1T V0) hrel b1 d1).trans ?_
  refine congrArg (fun w => Cert.Spec3.hop (V0 (Proc.devRef .tc main_arg1)) (V0 (Proc.devRef .tc main_arg2))
    (V0 (Proc.devRef .tc main_arg3)) (V0 (Proc.devRef .tc main_arg5)) (V0 (Proc.devRef .tc main_arg6)) 1 w b1 d1) ?_
  funext b0 d0
  unfold u1T
  exact hopT_slices_apply ![0, 0, 0, 0] slices_S32x3x2048x512_S32x1x2048x512_0_0_0_0 ![0, 0, 0]
    slices_S3x2049x512_S1x2049x512_0_0_0 0 rfl rfl rfl rfl rfl rfl rfl _ _ _ _ _ (res_main_v11 V0) hrel b0 d0

end Result

end Cert.ReferenceIdeal.RefValue

end
-- ==== Proof.Value0.lean ====
import proofs.«410490_j37271726195550_3_alg».proof.Proof.Frame0
import Idealize.ShloMosaic.Lib.Pipeline.Value
import Idealize.ShloMosaic.Lib.ValueIdx

set_option maxRecDepth 16384

noncomputable section

namespace Cert.KernelIdeal.Hop0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Idealize.ShloMosaic.ValueIdx
variable {F : FTy → Type} [FloatOps F]
variable (V : (c : Dev nD) → (b : Ref sig .tc) → Buf (Elt F) ((c : Thread nD τ).loc b))

theorem coords0_0 (t : Fin cfg0.N) : (grid0.coords t 0).val = t.val / 2 :=
  (by decide +kernel : ∀ t : Fin grid0.N, (grid0.coords t 0).val = t.val / 2) t

theorem coords0_1 (t : Fin cfg0.N) : (grid0.coords t 1).val = t.val % 2 :=
  (by decide +kernel : ∀ t : Fin grid0.N, (grid0.coords t 1).val = t.val % 2) t

theorem tdiv0 (t : Fin cfg0.N) : t.val / 2 < 32 := by
  have h := t.isLt
  have hN : cfg0.N = 64 := N_0
  omega

theorem trow0 (t : Fin cfg0.N) (mm : Fin 1024) : t.val % 2 * 1024 + mm.val < 2048 := by
  have h := mm.isLt
  omega

theorem todd0 (b : Fin 32) : 2 * b.val + 1 < cfg0.N := by
  have h := b.isLt
  have hN : cfg0.N = 64 := N_0
  omega

theorem idx0_0 : ∀ t : Fin cfg0.N, win0_0.index t (0 : Fin S1x1x512.rank) = t.val / 2
    ∧ win0_0.index t (1 : Fin S1x1x512.rank) = 0
    ∧ win0_0.index t (2 : Fin S1x1x512.rank) = 0 :=
  (by decide +kernel : ∀ t : Fin grid0.N, _)

theorem idx0_1 : ∀ t : Fin cfg0.N, win0_1.index t (0 : Fin 4) = t.val / 2
    ∧ win0_1.index t (1 : Fin 4) = ((0 : Fin 3) : Fin 3).val
    ∧ win0_1.index t (2 : Fin 4) = t.val % 2
    ∧ win0_1.index t (3 : Fin 4) = 0 :=
  (by decide +kernel : ∀ t : Fin grid0.N, _)

theorem idx0_2 : ∀ t : Fin cfg0.N, win0_2.index t (0 : Fin 4) = t.val / 2
    ∧ win0_2.index t (1 : Fin 4) = ((0 : Fin 3) : Fin 3).val
    ∧ win0_2.index t (2 : Fin 4) = t.val % 2
    ∧ win0_2.index t (3 : Fin 4) = 0 :=
  (by decide +kernel : ∀ t : Fin grid0.N, _)

theorem idx0_3 : ∀ t : Fin cfg0.N, win0_3.index t (0 : Fin 2) = 0
    ∧ win0_3.index t (1 : Fin 2) = t.val % 2 :=
  (by decide +kernel : ∀ t : Fin grid0.N, _)

theorem idx0_4 : ∀ t : Fin cfg0.N, win0_4.index t (0 : Fin 2) = 0
    ∧ win0_4.index t (1 : Fin 2) = 0 :=
  (by decide +kernel : ∀ t : Fin grid0.N, _)

theorem idx0_5 : ∀ t : Fin cfg0.N, win0_5.index t (0 : Fin 2) = 0
    ∧ win0_5.index t (1 : Fin 2) = 0 :=
  (by decide +kernel : ∀ t : Fin grid0.N, _)

theorem idx0_6 : ∀ t : Fin cfg0.N, win0_6.index t (0 : Fin S1x1x512.rank) = t.val / 2
    ∧ win0_6.index t (1 : Fin S1x1x512.rank) = 0
    ∧ win0_6.index t (2 : Fin S1x1x512.rank) = 0 :=
  (by decide +kernel : ∀ t : Fin grid0.N, _)

theorem iblk0_0_apply (c : Dev nD) (t : Fin cfg0.N) (d : Fin 512) :
    iblk0 V c 0 t (ix3 (0 : Fin 1) (0 : Fin 1) d) = V c main_v11 (ix3 (⟨t.val / 2, tdiv0 t⟩ : Fin 32) (0 : Fin 1) d) := by
  obtain ⟨e1, e2, e3⟩ := idx0_0 t
  unfold iblk0
  rw [View.read_apply]
  show V c main_v11 (((cfg0.win 0).blk t).view.emb (ix3 (0 : Fin 1) (0 : Fin 1) d)) = V c main_v11 _
  congr 1
  funext a
  apply Fin.ext
  match a with
  | ⟨0, _⟩ => show win0_0.index t (0 : Fin S1x1x512.rank) * 1 + 1 * 0 = t.val / 2; omega
  | ⟨1, _⟩ => show win0_0.index t (1 : Fin S1x1x512.rank) * 1 + 1 * 0 = 0; omega
  | ⟨2, _⟩ => show win0_0.index t (2 : Fin S1x1x512.rank) * 512 + 1 * d.val = d.val; omega

theorem iblk0_1_apply (c : Dev nD) (t : Fin cfg0.N) (mm : Fin 1024) (d : Fin 512) :
    iblk0 V c 1 t (ix4 (0 : Fin 1) (0 : Fin 1) mm d)
      = V c main_arg2 (ix4 (⟨t.val / 2, tdiv0 t⟩ : Fin 32)
          (0 : Fin 3)
          (⟨t.val % 2 * 1024 + mm.val, trow0 t mm⟩ : Fin 2048) d) := by
  obtain ⟨e1, e2, e3, e4⟩ := idx0_1 t
  unfold iblk0
  rw [View.read_apply]
  show V c main_arg2 (((cfg0.win 1).blk t).view.emb (ix4 (0 : Fin 1) (0 : Fin 1) mm d)) = V c main_arg2 _
  congr 1
  funext a
  apply Fin.ext
  match a with
  | ⟨0, _⟩ => show win0_1.index t (0 : Fin 4) * 1 + 1 * 0 = t.val / 2; omega
  | ⟨1, _⟩ => show win0_1.index t (1 : Fin 4) * 1 + 1 * 0 = _; rw [e2]; rfl
  | ⟨2, _⟩ => show win0_1.index t (2 : Fin 4) * 1024 + 1 * mm.val = t.val % 2 * 1024 + mm.val; omega
  | ⟨3, _⟩ => show win0_1.index t (3 : Fin 4) * 512 + 1 * d.val = d.val; omega

theorem iblk0_2_apply (c : Dev nD) (t : Fin cfg0.N) (mm : Fin 1024) (d : Fin 512) :
    iblk0 V c 2 t (ix4 (0 : Fin 1) (0 : Fin 1) mm d)
      = V c main_arg3 (ix4 (⟨t.val / 2, tdiv0 t⟩ : Fin 32)
          (0 : Fin 3)
          (⟨t.val % 2 * 1024 + mm.val, trow0 t mm⟩ : Fin 2048) d) := by
  obtain ⟨e1, e2, e3, e4⟩ := idx0_2 t
  unfold iblk0
  rw [View.read_apply]
  show V c main_arg3 (((cfg0.win 2).blk t).view.emb (ix4 (0 : Fin 1) (0 : Fin 1) mm d)) = V c main_arg3 _
  congr 1
  funext a
  apply Fin.ext
  match a with
  | ⟨0, _⟩ => show win0_2.index t (0 : Fin 4) * 1 + 1 * 0 = t.val / 2; omega
  | ⟨1, _⟩ => show win0_2.index t (1 : Fin 4) * 1 + 1 * 0 = _; rw [e2]; rfl
  | ⟨2, _⟩ => show win0_2.index t (2 : Fin 4) * 1024 + 1 * mm.val = t.val % 2 * 1024 + mm.val; omega
  | ⟨3, _⟩ => show win0_2.index t (3 : Fin 4) * 512 + 1 * d.val = d.val; omega

theorem iblk0_3_apply (c : Dev nD) (t : Fin cfg0.N) (b' : Fin 32) (mm : Fin 1024) :
    iblk0 V c 3 t (ix2 b' mm) = V c main_arg1 (ix2 b' (⟨t.val % 2 * 1024 + mm.val, trow0 t mm⟩ : Fin 2048)) := by
  obtain ⟨e1, e2⟩ := idx0_3 t
  unfold iblk0
  rw [View.read_apply]
  show V c main_arg1 (((cfg0.win 3).blk t).view.emb (ix2 b' mm)) = V c main_arg1 _
  congr 1
  funext a
  apply Fin.ext
  match a with
  | ⟨0, _⟩ => show win0_3.index t (0 : Fin 2) * 32 + 1 * b'.val = b'.val; omega
  | ⟨1, _⟩ => show win0_3.index t (1 : Fin 2) * 1024 + 1 * mm.val = t.val % 2 * 1024 + mm.val; omega

theorem iblk0_4_apply (c : Dev nD) (t : Fin cfg0.N) (tt : Fin 2176) (d : Fin 512) :
    iblk0 V c 4 t (ix2 tt d) = V c main_v17 (ix2 tt d) := by
  obtain ⟨e1, e2⟩ := idx0_4 t
  unfold iblk0
  rw [View.read_apply]
  show V c main_v17 (((cfg0.win 4).blk t).view.emb (ix2 tt d)) = V c main_v17 _
  congr 1
  funext a
  apply Fin.ext
  match a with
  | ⟨0, _⟩ => show win0_4.index t (0 : Fin 2) * 2176 + 1 * tt.val = tt.val; omega
  | ⟨1, _⟩ => show win0_4.index t (1 : Fin 2) * 512 + 1 * d.val = d.val; omega

theorem iblk0_5_apply (c : Dev nD) (t : Fin cfg0.N) (tt : Fin 2176) (d : Fin 512) :
    iblk0 V c 5 t (ix2 tt d) = V c main_v19 (ix2 tt d) := by
  obtain ⟨e1, e2⟩ := idx0_5 t
  unfold iblk0
  rw [View.read_apply]
  show V c main_v19 (((cfg0.win 5).blk t).view.emb (ix2 tt d)) = V c main_v19 _
  congr 1
  funext a
  apply Fin.ext
  match a with
  | ⟨0, _⟩ => show win0_5.index t (0 : Fin 2) * 2176 + 1 * tt.val = tt.val; omega
  | ⟨1, _⟩ => show win0_5.index t (1 : Fin 2) * 512 + 1 * d.val = d.val; omega

theorem outAt0_congr (c : Dev nD) {n n' : ℕ} (hn : n < cfg0.N) (hn' : n' < cfg0.N) (h : n = n')
    {j j' : S1x1x512.Idx} (hj : j = j') : outAt0 V c n hn j = outAt0 V c n' hn' j' := by
  subst h
  subst hj
  rfl

def outArr0 (c : Dev nD) : Vec F S32x1x512 .f32 :=
  fun i => outAt0 V c (2 * (i 0).val + 1) (todd0 (i 0)) (ix3 (0 : Fin 1) (0 : Fin 1) (i 2))

theorem read0_6 (c : Dev nD) (t : Fin cfg0.N) (ht : t.val % 2 = 1) (y : S1x1x512.Idx) :
    ((cfg0.win 6).blk t).view.read (Elt F) (outArr0 V c) y = outAt0 V c t.val t.isLt y := by
  obtain ⟨e1, e2, e3⟩ := idx0_6 t
  obtain ⟨p, q, r, rfl⟩ : ∃ (p : Fin 1) (q : Fin 1) (r : Fin 512), y = ix3 p q r := ⟨y 0, y 1, y 2, eq_ix3 y⟩
  obtain rfl : p = 0 := Subsingleton.elim _ _
  obtain rfl : q = 0 := Subsingleton.elim _ _
  rw [View.read_apply]
  show outArr0 V c (((cfg0.win 6).blk t).view.emb (ix3 (0 : Fin 1) (0 : Fin 1) r)) = _
  unfold outArr0
  refine outAt0_congr V c _ _ ?_ (congrArg (ix3 (0 : Fin 1) (0 : Fin 1)) (Fin.ext ?_))
  · show 2 * (win0_6.index t (0 : Fin S1x1x512.rank) * 1 + 1 * 0) + 1 = t.val
    omega
  · show win0_6.index t (2 : Fin S1x1x512.rank) * 512 + 1 * r.val = r.val
    omega

theorem flushed0_6_eq (c : Dev nD) (t : Fin cfg0.N) (hf : (cfg0.win 6).flush t = true) :
    (dat0 V c).flushed 6 t = ((cfg0.win 6).blk t).view.read (Elt F) (outArr0 V c) := by
  have ht : t.val % 2 = 1 := (flush0_6 t).mp hf
  show (cfg0.win 6).cut (grid0.coords t) ((dat0 V c).after 6 t) = _
  rw [after0_6]
  funext y
  exact (read0_6 V c t ht y).symm

theorem memblk0_6 (t : Fin cfg0.N) (i : S32x1x512.Idx) :
    i ∈ ((cfg0.win 6).blk t).view.set ↔ ∀ a : Fin 3, win0_6.index t a * S1x1x512.size a ≤ (i a).val
      ∧ (i a).val < win0_6.index t a * S1x1x512.size a + S1x1x512.size a := by
  show i ∈ ((View.whole main_v20).slice (win0_6.rect t)).set ↔ _
  rw [View.set_slice_whole, Rect.mem_set_unit]
  exact Iff.rfl

theorem cover0_6 (i : S32x1x512.Idx) :
    ∃ t : Fin cfg0.N, (cfg0.win 6).flush t = true ∧ i ∈ ((cfg0.win 6).blk t).view.set := by
  have hA : (i 0).val < 32 := (i 0).isLt
  have hB : (i 1).val < 1 := (i 1).isLt
  have hC : (i 2).val < 512 := (i 2).isLt
  refine ⟨⟨2 * (i 0).val + 1, todd0 (i 0)⟩, (flush0_6 _).mpr (by show (2 * (i 0).val + 1) % 2 = 1; omega), ?_⟩
  obtain ⟨e1, e2, e3⟩ := idx0_6 ⟨2 * (i 0).val + 1, todd0 (i 0)⟩
  have eA : win0_6.index ⟨2 * (i 0).val + 1, todd0 (i 0)⟩ (0 : Fin S1x1x512.rank) = (2 * (i 0).val + 1) / 2 := e1
  rw [memblk0_6]
  intro a
  match a with
  | ⟨0, _⟩ =>
    show win0_6.index ⟨2 * (i 0).val + 1, todd0 (i 0)⟩ (0 : Fin S1x1x512.rank) * 1 ≤ (i 0).val
      ∧ (i 0).val < win0_6.index ⟨2 * (i 0).val + 1, todd0 (i 0)⟩ (0 : Fin S1x1x512.rank) * 1 + 1
    omega
  | ⟨1, _⟩ =>
    show win0_6.index ⟨2 * (i 0).val + 1, todd0 (i 0)⟩ (1 : Fin S1x1x512.rank) * 1 ≤ (i 1).val
      ∧ (i 1).val < win0_6.index ⟨2 * (i 0).val + 1, todd0 (i 0)⟩ (1 : Fin S1x1x512.rank) * 1 + 1
    omega
  | ⟨2, _⟩ =>
    show win0_6.index ⟨2 * (i 0).val + 1, todd0 (i 0)⟩ (2 : Fin S1x1x512.rank) * 512 ≤ (i 2).val
      ∧ (i 2).val < win0_6.index ⟨2 * (i 0).val + 1, todd0 (i 0)⟩ (2 : Fin S1x1x512.rank) * 512 + 512
    omega

theorem arrAt0_6_eq (c : Dev nD) : (dat0 V c).arrAt 6 cfg0.N = outArr0 V c :=
  (dat0 V c).arrAt_eq_of_cover 6 (outArr0 V c) (fun t hf => flushed0_6_eq V c t hf) (cover0_6)

theorem arrAt0_6_apply (c : Dev nD) (b : Fin 32) (d : Fin 512) :
    (dat0 V c).arrAt 6 cfg0.N (ix3 b (0 : Fin 1) d)
      = outAt0 V c (2 * b.val + 1) (todd0 b) (ix3 (0 : Fin 1) (0 : Fin 1) d) :=
  congrFun (arrAt0_6_eq V c) (ix3 b (0 : Fin 1) d)

end Cert.KernelIdeal.Hop0

end
-- ==== Proof.KernelRead.lean ====
import proofs.«410490_j37271726195550_3_alg».proof.Proof.Step
import proofs.«410490_j37271726195550_3_alg».proof.Proof.Spec3
import proofs.«410490_j37271726195550_3_alg».proof.Proof.HopMath
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Hop

open Cert.KernelIdeal Cert.KernelIdeal.Gen Idealize.ShloMosaic Idealize.ShloMosaic.ValueIdx
open scoped BigOperators

/-- A row times a matrix whose second axis is contracted, entry by entry, as a plain sum: the contracted index is the one coordinate
    of the contraction's index, the free ones are the output's. -/
theorem dotNT_apply {K N : ℕ} {φ₁ φ₂ : FTy} (D : DotDims ⟨2, ![1, K]⟩ ⟨2, ![N, K]⟩ ⟨2, ![1, N]⟩)
    (hr : D.contr.rank = 1) (hs : D.contr.size ⟨0, by omega⟩ = K)
    (la : ∀ i q, (D.lhsIdx i q 0).val = (i 0).val) (lb : ∀ i q (h0 : 0 < D.contr.rank), (D.lhsIdx i q 1).val = (q ⟨0, h0⟩).val)
    (ra : ∀ i q, (D.rhsIdx i q 0).val = (i 1).val) (rb : ∀ i q (h0 : 0 < D.contr.rank), (D.rhsIdx i q 1).val = (q ⟨0, h0⟩).val)
    (x : FVec Ideal ⟨2, ![1, K]⟩ φ₁) (y : FVec Ideal ⟨2, ![N, K]⟩ φ₂) (n : Fin N) :
    matmul D none x y (constant ⟨2, ![1, N]⟩ .f32 0x00000000#32) (ix2 0 n) = ∑ k : Fin K, x (ix2 0 k) * y (ix2 n k) := by
  refine (Ideal.matmul_constant_zero_apply D none x y (ix2 0 n)).trans ?_
  rw [← Equiv.sum_comp (contrEquiv1 D K hr hs).symm]
  refine Finset.sum_congr rfl fun k _ => ?_
  have hk := contrEquiv1_symm_val D K hr hs k
  have el : D.lhsIdx (ix2 0 n) ((contrEquiv1 D K hr hs).symm k) = ix2 0 k := funext fun a => Fin.ext (by
    match a with
    | ⟨0, _⟩ => exact la _ _
    | ⟨1, _⟩ => exact (lb _ _ _).trans hk)
  have er : D.rhsIdx (ix2 0 n) ((contrEquiv1 D K hr hs).symm k) = ix2 n k := funext fun a => Fin.ext (by
    match a with
    | ⟨0, _⟩ => exact ra _ _
    | ⟨1, _⟩ => exact (rb _ _ _).trans hk)
  rw [el, er]

/-- The same with the matrix's first axis contracted. -/
theorem dotNN_apply {K N : ℕ} {φ₁ φ₂ : FTy} (D : DotDims ⟨2, ![1, K]⟩ ⟨2, ![K, N]⟩ ⟨2, ![1, N]⟩)
    (hr : D.contr.rank = 1) (hs : D.contr.size ⟨0, by omega⟩ = K)
    (la : ∀ i q, (D.lhsIdx i q 0).val = (i 0).val) (lb : ∀ i q (h0 : 0 < D.contr.rank), (D.lhsIdx i q 1).val = (q ⟨0, h0⟩).val)
    (ra : ∀ i q (h0 : 0 < D.contr.rank), (D.rhsIdx i q 0).val = (q ⟨0, h0⟩).val) (rb : ∀ i q, (D.rhsIdx i q 1).val = (i 1).val)
    (x : FVec Ideal ⟨2, ![1, K]⟩ φ₁) (y : FVec Ideal ⟨2, ![K, N]⟩ φ₂) (n : Fin N) :
    matmul D none x y (constant ⟨2, ![1, N]⟩ .f32 0x00000000#32) (ix2 0 n) = ∑ k : Fin K, x (ix2 0 k) * y (ix2 k n) := by
  refine (Ideal.matmul_constant_zero_apply D none x y (ix2 0 n)).trans ?_
  rw [← Equiv.sum_comp (contrEquiv1 D K hr hs).symm]
  refine Finset.sum_congr rfl fun k _ => ?_
  have hk := contrEquiv1_symm_val D K hr hs k
  have el : D.lhsIdx (ix2 0 n) ((contrEquiv1 D K hr hs).symm k) = ix2 0 k := funext fun a => Fin.ext (by
    match a with
    | ⟨0, _⟩ => exact la _ _
    | ⟨1, _⟩ => exact (lb _ _ _).trans hk)
  have er : D.rhsIdx (ix2 0 n) ((contrEquiv1 D K hr hs).symm k) = ix2 k n := funext fun a => Fin.ext (by
    match a with
    | ⟨0, _⟩ => exact (ra _ _ _).trans hk
    | ⟨1, _⟩ => exact rb _ _)
  rw [el, er]

theorem dotTU_la (i : S1x2176.Idx) (q : dot_S1x512_S2176x512_S1x2176_1_1_0_0_n_n.contr.Idx) : (dot_S1x512_S2176x512_S1x2176_1_1_0_0_n_n.lhsIdx i q 0).val = (i 0).val := by
  unfold DotDims.lhsIdx
  rw [dif_neg (show ¬(0 : Fin S1x512.rank) ∈ dot_S1x512_S2176x512_S1x2176_1_1_0_0_n_n.lhsBatch by decide), dif_pos (show (0 : Fin S1x512.rank) ∈ dot_S1x512_S2176x512_S1x2176_1_1_0_0_n_n.lhsNonContracting by decide)]
  rfl

theorem dotTU_lb (i : S1x2176.Idx) (q : dot_S1x512_S2176x512_S1x2176_1_1_0_0_n_n.contr.Idx) : (dot_S1x512_S2176x512_S1x2176_1_1_0_0_n_n.lhsIdx i q 1).val = (q ⟨0, by decide⟩).val :=
  dot_S1x512_S2176x512_S1x2176_1_1_0_0_n_n.lhsIdx_val_of_single rfl i q

theorem dotTU_ra (i : S1x2176.Idx) (q : dot_S1x512_S2176x512_S1x2176_1_1_0_0_n_n.contr.Idx) : (dot_S1x512_S2176x512_S1x2176_1_1_0_0_n_n.rhsIdx i q 0).val = (i 1).val := by
  unfold DotDims.rhsIdx
  rw [dif_neg (show ¬(0 : Fin S2176x512.rank) ∈ dot_S1x512_S2176x512_S1x2176_1_1_0_0_n_n.rhsBatch by decide), dif_pos (show (0 : Fin S2176x512.rank) ∈ dot_S1x512_S2176x512_S1x2176_1_1_0_0_n_n.rhsNonContracting by decide)]
  rfl

theorem dotTU_rb (i : S1x2176.Idx) (q : dot_S1x512_S2176x512_S1x2176_1_1_0_0_n_n.contr.Idx) : (dot_S1x512_S2176x512_S1x2176_1_1_0_0_n_n.rhsIdx i q 1).val = (q ⟨0, by decide⟩).val :=
  dot_S1x512_S2176x512_S1x2176_1_1_0_0_n_n.rhsIdx_val_of_single rfl i q

theorem dotTU_apply {φ₁ φ₂ : FTy} (x : FVec Ideal S1x512 φ₁) (y : FVec Ideal S2176x512 φ₂) (n : Fin 2176) :
    matmul dot_S1x512_S2176x512_S1x2176_1_1_0_0_n_n none x y (constant S1x2176 .f32 0x00000000#32) (ix2 0 n) = ∑ k : Fin 512, x (ix2 0 k) * y (ix2 n k) :=
  dotNT_apply _ rfl rfl dotTU_la (fun i q _ => dotTU_lb i q) dotTU_ra (fun i q _ => dotTU_rb i q) x y n

theorem dotUK_la (i : S1x1024.Idx) (q : dot_S1x512_S1024x512_S1x1024_1_1_0_0_n_n.contr.Idx) : (dot_S1x512_S1024x512_S1x1024_1_1_0_0_n_n.lhsIdx i q 0).val = (i 0).val := by
  unfold DotDims.lhsIdx
  rw [dif_neg (show ¬(0 : Fin S1x512.rank) ∈ dot_S1x512_S1024x512_S1x1024_1_1_0_0_n_n.lhsBatch by decide), dif_pos (show (0 : Fin S1x512.rank) ∈ dot_S1x512_S1024x512_S1x1024_1_1_0_0_n_n.lhsNonContracting by decide)]
  rfl

theorem dotUK_lb (i : S1x1024.Idx) (q : dot_S1x512_S1024x512_S1x1024_1_1_0_0_n_n.contr.Idx) : (dot_S1x512_S1024x512_S1x1024_1_1_0_0_n_n.lhsIdx i q 1).val = (q ⟨0, by decide⟩).val :=
  dot_S1x512_S1024x512_S1x1024_1_1_0_0_n_n.lhsIdx_val_of_single rfl i q

theorem dotUK_ra (i : S1x1024.Idx) (q : dot_S1x512_S1024x512_S1x1024_1_1_0_0_n_n.contr.Idx) : (dot_S1x512_S1024x512_S1x1024_1_1_0_0_n_n.rhsIdx i q 0).val = (i 1).val := by
  unfold DotDims.rhsIdx
  rw [dif_neg (show ¬(0 : Fin S1024x512.rank) ∈ dot_S1x512_S1024x512_S1x1024_1_1_0_0_n_n.rhsBatch by decide), dif_pos (show (0 : Fin S1024x512.rank) ∈ dot_S1x512_S1024x512_S1x1024_1_1_0_0_n_n.rhsNonContracting by decide)]
  rfl

theorem dotUK_rb (i : S1x1024.Idx) (q : dot_S1x512_S1024x512_S1x1024_1_1_0_0_n_n.contr.Idx) : (dot_S1x512_S1024x512_S1x1024_1_1_0_0_n_n.rhsIdx i q 1).val = (q ⟨0, by decide⟩).val :=
  dot_S1x512_S1024x512_S1x1024_1_1_0_0_n_n.rhsIdx_val_of_single rfl i q

theorem dotUK_apply {φ₁ φ₂ : FTy} (x : FVec Ideal S1x512 φ₁) (y : FVec Ideal S1024x512 φ₂) (n : Fin 1024) :
    matmul dot_S1x512_S1024x512_S1x1024_1_1_0_0_n_n none x y (constant S1x1024 .f32 0x00000000#32) (ix2 0 n) = ∑ k : Fin 512, x (ix2 0 k) * y (ix2 n k) :=
  dotNT_apply _ rfl rfl dotUK_la (fun i q _ => dotUK_lb i q) dotUK_ra (fun i q _ => dotUK_rb i q) x y n

theorem dotTO_la (i : S1x1024.Idx) (q : dot_S1x2176_S1024x2176_S1x1024_1_1_0_0_n_n.contr.Idx) : (dot_S1x2176_S1024x2176_S1x1024_1_1_0_0_n_n.lhsIdx i q 0).val = (i 0).val := by
  unfold DotDims.lhsIdx
  rw [dif_neg (show ¬(0 : Fin S1x2176.rank) ∈ dot_S1x2176_S1024x2176_S1x1024_1_1_0_0_n_n.lhsBatch by decide), dif_pos (show (0 : Fin S1x2176.rank) ∈ dot_S1x2176_S1024x2176_S1x1024_1_1_0_0_n_n.lhsNonContracting by decide)]
  rfl

theorem dotTO_lb (i : S1x1024.Idx) (q : dot_S1x2176_S1024x2176_S1x1024_1_1_0_0_n_n.contr.Idx) : (dot_S1x2176_S1024x2176_S1x1024_1_1_0_0_n_n.lhsIdx i q 1).val = (q ⟨0, by decide⟩).val :=
  dot_S1x2176_S1024x2176_S1x1024_1_1_0_0_n_n.lhsIdx_val_of_single rfl i q

theorem dotTO_ra (i : S1x1024.Idx) (q : dot_S1x2176_S1024x2176_S1x1024_1_1_0_0_n_n.contr.Idx) : (dot_S1x2176_S1024x2176_S1x1024_1_1_0_0_n_n.rhsIdx i q 0).val = (i 1).val := by
  unfold DotDims.rhsIdx
  rw [dif_neg (show ¬(0 : Fin S1024x2176.rank) ∈ dot_S1x2176_S1024x2176_S1x1024_1_1_0_0_n_n.rhsBatch by decide), dif_pos (show (0 : Fin S1024x2176.rank) ∈ dot_S1x2176_S1024x2176_S1x1024_1_1_0_0_n_n.rhsNonContracting by decide)]
  rfl

theorem dotTO_rb (i : S1x1024.Idx) (q : dot_S1x2176_S1024x2176_S1x1024_1_1_0_0_n_n.contr.Idx) : (dot_S1x2176_S1024x2176_S1x1024_1_1_0_0_n_n.rhsIdx i q 1).val = (q ⟨0, by decide⟩).val :=
  dot_S1x2176_S1024x2176_S1x1024_1_1_0_0_n_n.rhsIdx_val_of_single rfl i q

theorem dotTO_apply {φ₁ φ₂ : FTy} (x : FVec Ideal S1x2176 φ₁) (y : FVec Ideal S1024x2176 φ₂) (n : Fin 1024) :
    matmul dot_S1x2176_S1024x2176_S1x1024_1_1_0_0_n_n none x y (constant S1x1024 .f32 0x00000000#32) (ix2 0 n) = ∑ k : Fin 2176, x (ix2 0 k) * y (ix2 n k) :=
  dotNT_apply _ rfl rfl dotTO_la (fun i q _ => dotTO_lb i q) dotTO_ra (fun i q _ => dotTO_rb i q) x y n

theorem dotPV_la (i : S1x512.Idx) (q : dot_S1x1024_S1024x512_S1x512_1_0_0_1_n_n.contr.Idx) : (dot_S1x1024_S1024x512_S1x512_1_0_0_1_n_n.lhsIdx i q 0).val = (i 0).val := by
  unfold DotDims.lhsIdx
  rw [dif_neg (show ¬(0 : Fin S1x1024.rank) ∈ dot_S1x1024_S1024x512_S1x512_1_0_0_1_n_n.lhsBatch by decide), dif_pos (show (0 : Fin S1x1024.rank) ∈ dot_S1x1024_S1024x512_S1x512_1_0_0_1_n_n.lhsNonContracting by decide)]
  rfl

theorem dotPV_lb (i : S1x512.Idx) (q : dot_S1x1024_S1024x512_S1x512_1_0_0_1_n_n.contr.Idx) : (dot_S1x1024_S1024x512_S1x512_1_0_0_1_n_n.lhsIdx i q 1).val = (q ⟨0, by decide⟩).val :=
  dot_S1x1024_S1024x512_S1x512_1_0_0_1_n_n.lhsIdx_val_of_single rfl i q

theorem dotPV_ra (i : S1x512.Idx) (q : dot_S1x1024_S1024x512_S1x512_1_0_0_1_n_n.contr.Idx) : (dot_S1x1024_S1024x512_S1x512_1_0_0_1_n_n.rhsIdx i q 0).val = (q ⟨0, by decide⟩).val :=
  dot_S1x1024_S1024x512_S1x512_1_0_0_1_n_n.rhsIdx_val_of_single rfl i q

theorem dotPV_rb (i : S1x512.Idx) (q : dot_S1x1024_S1024x512_S1x512_1_0_0_1_n_n.contr.Idx) : (dot_S1x1024_S1024x512_S1x512_1_0_0_1_n_n.rhsIdx i q 1).val = (i 1).val := by
  unfold DotDims.rhsIdx
  rw [dif_neg (show ¬(1 : Fin S1024x512.rank) ∈ dot_S1x1024_S1024x512_S1x512_1_0_0_1_n_n.rhsBatch by decide), dif_pos (show (1 : Fin S1024x512.rank) ∈ dot_S1x1024_S1024x512_S1x512_1_0_0_1_n_n.rhsNonContracting by decide)]
  rfl

theorem dotPV_apply {φ₁ φ₂ : FTy} (x : FVec Ideal S1x1024 φ₁) (y : FVec Ideal S1024x512 φ₂) (n : Fin 512) :
    matmul dot_S1x1024_S1024x512_S1x512_1_0_0_1_n_n none x y (constant S1x512 .f32 0x00000000#32) (ix2 0 n) = ∑ k : Fin 1024, x (ix2 0 k) * y (ix2 k n) :=
  dotNN_apply _ rfl rfl dotPV_la (fun i q _ => dotPV_lb i q) (fun i q _ => dotPV_ra i q) dotPV_rb x y n

theorem dotPQ_la (i : S1x2176.Idx) (q : dot_S1x1024_S1024x2176_S1x2176_1_0_0_1_n_n.contr.Idx) : (dot_S1x1024_S1024x2176_S1x2176_1_0_0_1_n_n.lhsIdx i q 0).val = (i 0).val := by
  unfold DotDims.lhsIdx
  rw [dif_neg (show ¬(0 : Fin S1x1024.rank) ∈ dot_S1x1024_S1024x2176_S1x2176_1_0_0_1_n_n.lhsBatch by decide), dif_pos (show (0 : Fin S1x1024.rank) ∈ dot_S1x1024_S1024x2176_S1x2176_1_0_0_1_n_n.lhsNonContracting by decide)]
  rfl

theorem dotPQ_lb (i : S1x2176.Idx) (q : dot_S1x1024_S1024x2176_S1x2176_1_0_0_1_n_n.contr.Idx) : (dot_S1x1024_S1024x2176_S1x2176_1_0_0_1_n_n.lhsIdx i q 1).val = (q ⟨0, by decide⟩).val :=
  dot_S1x1024_S1024x2176_S1x2176_1_0_0_1_n_n.lhsIdx_val_of_single rfl i q

theorem dotPQ_ra (i : S1x2176.Idx) (q : dot_S1x1024_S1024x2176_S1x2176_1_0_0_1_n_n.contr.Idx) : (dot_S1x1024_S1024x2176_S1x2176_1_0_0_1_n_n.rhsIdx i q 0).val = (q ⟨0, by decide⟩).val :=
  dot_S1x1024_S1024x2176_S1x2176_1_0_0_1_n_n.rhsIdx_val_of_single rfl i q

theorem dotPQ_rb (i : S1x2176.Idx) (q : dot_S1x1024_S1024x2176_S1x2176_1_0_0_1_n_n.contr.Idx) : (dot_S1x1024_S1024x2176_S1x2176_1_0_0_1_n_n.rhsIdx i q 1).val = (i 1).val := by
  unfold DotDims.rhsIdx
  rw [dif_neg (show ¬(1 : Fin S1024x2176.rank) ∈ dot_S1x1024_S1024x2176_S1x2176_1_0_0_1_n_n.rhsBatch by decide), dif_pos (show (1 : Fin S1024x2176.rank) ∈ dot_S1x1024_S1024x2176_S1x2176_1_0_0_1_n_n.rhsNonContracting by decide)]
  rfl

theorem dotPQ_apply {φ₁ φ₂ : FTy} (x : FVec Ideal S1x1024 φ₁) (y : FVec Ideal S1024x2176 φ₂) (n : Fin 2176) :
    matmul dot_S1x1024_S1024x2176_S1x2176_1_0_0_1_n_n none x y (constant S1x2176 .f32 0x00000000#32) (ix2 0 n) = ∑ k : Fin 1024, x (ix2 0 k) * y (ix2 k n) :=
  dotNN_apply _ rfl rfl dotPQ_la (fun i q _ => dotPQ_lb i q) (fun i q _ => dotPQ_ra i q) dotPQ_rb x y n

theorem dotQC_la (i : S1x512.Idx) (q : dot_S1x2176_S2176x512_S1x512_1_0_0_1_n_n.contr.Idx) : (dot_S1x2176_S2176x512_S1x512_1_0_0_1_n_n.lhsIdx i q 0).val = (i 0).val := by
  unfold DotDims.lhsIdx
  rw [dif_neg (show ¬(0 : Fin S1x2176.rank) ∈ dot_S1x2176_S2176x512_S1x512_1_0_0_1_n_n.lhsBatch by decide), dif_pos (show (0 : Fin S1x2176.rank) ∈ dot_S1x2176_S2176x512_S1x512_1_0_0_1_n_n.lhsNonContracting by decide)]
  rfl

theorem dotQC_lb (i : S1x512.Idx) (q : dot_S1x2176_S2176x512_S1x512_1_0_0_1_n_n.contr.Idx) : (dot_S1x2176_S2176x512_S1x512_1_0_0_1_n_n.lhsIdx i q 1).val = (q ⟨0, by decide⟩).val :=
  dot_S1x2176_S2176x512_S1x512_1_0_0_1_n_n.lhsIdx_val_of_single rfl i q

theorem dotQC_ra (i : S1x512.Idx) (q : dot_S1x2176_S2176x512_S1x512_1_0_0_1_n_n.contr.Idx) : (dot_S1x2176_S2176x512_S1x512_1_0_0_1_n_n.rhsIdx i q 0).val = (q ⟨0, by decide⟩).val :=
  dot_S1x2176_S2176x512_S1x512_1_0_0_1_n_n.rhsIdx_val_of_single rfl i q

theorem dotQC_rb (i : S1x512.Idx) (q : dot_S1x2176_S2176x512_S1x512_1_0_0_1_n_n.contr.Idx) : (dot_S1x2176_S2176x512_S1x512_1_0_0_1_n_n.rhsIdx i q 1).val = (i 1).val := by
  unfold DotDims.rhsIdx
  rw [dif_neg (show ¬(1 : Fin S2176x512.rank) ∈ dot_S1x2176_S2176x512_S1x512_1_0_0_1_n_n.rhsBatch by decide), dif_pos (show (1 : Fin S2176x512.rank) ∈ dot_S1x2176_S2176x512_S1x512_1_0_0_1_n_n.rhsNonContracting by decide)]
  rfl

theorem dotQC_apply {φ₁ φ₂ : FTy} (x : FVec Ideal S1x2176 φ₁) (y : FVec Ideal S2176x512 φ₂) (n : Fin 512) :
    matmul dot_S1x2176_S2176x512_S1x512_1_0_0_1_n_n none x y (constant S1x512 .f32 0x00000000#32) (ix2 0 n) = ∑ k : Fin 2176, x (ix2 0 k) * y (ix2 k n) :=
  dotNN_apply _ rfl rfl dotQC_la (fun i q _ => dotQC_lb i q) (fun i q _ => dotQC_ra i q) dotQC_rb x y n

section Layout

variable {α : Type}

theorem shapeCast_11ab_ab_apply {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    simp only [Nat.zero_mul, Nat.zero_add])

theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

theorem broadcastTo_11_1b_apply {b : ℕ} (v : (⟨2, ![1, 1]⟩ : Shape).Idx → α) (h : (⟨2, ![1, 1]⟩ : Shape).Broadcasts ⟨2, ![1, b]⟩)
    (u : Fin 1) (j : Fin b) : broadcastTo ⟨2, ![1, b]⟩ v h (ix2 u j) = v (ix2 (0 : Fin 1) (0 : Fin 1)) := by
  refine broadcastTo_apply v h (ix2 u j) (ix2 (0 : Fin 1) (0 : Fin 1)) fun ax => ?_
  match ax with
  | ⟨0, _⟩ => rfl
  | ⟨1, _⟩ => rfl

end Layout

theorem relRow_apply (i : grid0.Coords) (b : Fin 32) (hb : (i 0).val = b.val) (x5 : Vec Ideal S32x1024 .i32) (m : Fin 1024) :
    relRow i x5 (ix2 0 m) = x5 (ix2 b m) := by
  show x5 ((relRect i).idx (ix2 0 m)) = x5 (ix2 b m)
  refine congrArg x5 (funext fun a => Fin.ext ?_)
  rw [LoadRect.idx_apply]
  match a with
  | ⟨0, _⟩ => simp [Rect.unit, k0_off1_eq i, hb]
  | ⟨1, _⟩ => simp [Rect.unit, k0_off1_eq i]

theorem ofBits_negInf : Ideal.ofBits .f32 0xFF800000#32 = ⊥ := by simp [Ideal.ofBits, Ideal.ieee]

theorem word_of_true : (((BitVec.ofBool true).setWidth 32 : BitVec 32).toInt) = 1 := by decide

theorem word_of_false : (((BitVec.ofBool false).setWidth 32 : BitVec 32).toInt) = 0 := by decide

theorem onehot_word (w : BitVec 32) (t : Fin 2176) :
    FloatOps.sitofp (F := Ideal) .f32 ((IntOp.cmpi .eq w (BitVec.ofNat 32 t.val)).setWidth 32)
      = if w.toNat = t.val then (1 : EReal) else 0 := by
  have ht : t.val < 2 ^ 32 := lt_trans t.isLt (by norm_num)
  by_cases h : w.toNat = t.val
  · have hw : w = BitVec.ofNat 32 t.val := BitVec.eq_of_toNat_eq (by rw [BitVec.toNat_ofNat, Nat.mod_eq_of_lt ht]; exact h)
    rw [if_pos h, hw]
    show (((((BitVec.ofBool (BitVec.ofNat 32 t.val == BitVec.ofNat 32 t.val)).setWidth 32).toInt : ℤ) : ℝ) : EReal) = 1
    rw [beq_self_eq_true, word_of_true]
    norm_num
  · have hw : ¬ w = BitVec.ofNat 32 t.val := fun e => h (by rw [e, BitVec.toNat_ofNat, Nat.mod_eq_of_lt ht])
    rw [if_neg h]
    show (((((BitVec.ofBool (w == BitVec.ofNat 32 t.val)).setWidth 32).toInt : ℤ) : ℝ) : EReal) = 0
    rw [beq_eq_false_iff_ne.mpr hw, word_of_false]
    norm_num

theorem query_read (x2 : Vec Ideal S1x1x512 .f32) (d : Fin 512) : k0_pay7 x2 (ix2 0 d) = x2 (ix3 0 0 d) := by
  unfold k0_pay7
  refine (congrFun (shapeCast_self _ _) _).trans ?_
  exact shapeCast_1ab_ab_apply x2 _ 0 d

theorem initMax_read (j : S1x1.Idx) : (k0_pay8 (F := Ideal)) j = ⊥ := by
  unfold k0_pay8
  exact ofBits_negInf

theorem initSum_read (j : S1x1.Idx) : (k0_pay9 (F := Ideal)) j = 0 := by
  unfold k0_pay9
  exact Ideal.ofBits_zero_f32

theorem initAcc_read (j : S1x512.Idx) : (k0_pay10 (F := Ideal)) j = 0 := by
  unfold k0_pay10
  exact Ideal.ofBits_zero_f32

theorem initHist_read (j : S1x2176.Idx) : (k0_pay11 (F := Ideal)) j = 0 := by
  unfold k0_pay11
  exact Ideal.ofBits_zero_f32

theorem tuRow_read (x2 : Vec Ideal S1x1x512 .f32) (x6 : Vec Ideal S2176x512 .bf16) (t : Fin 2176) :
    k0_pay12 x2 x6 (ix2 0 t) = ∑ d : Fin 512, x2 (ix3 0 0 d) * x6 (ix2 t d) := by
  unfold k0_pay12
  refine (congrFun (shapeCast_self _ _) _).trans ?_
  refine (dotTU_apply _ _ t).trans ?_
  refine Finset.sum_congr rfl fun d _ => ?_
  refine congrArg₂ (· * ·) ?_ ?_
  · exact shapeCast_1ab_ab_apply x2 _ 0 d
  · exact congrFun (shapeCast_self x6 _) _

theorem onehot_read (v4 : Vec Ideal S1x1024 .i32) (m : Fin 1024) (t : Fin 2176) :
    k0_pay13 (F := Ideal) v4 (ix2 m t) = if (v4 (ix2 0 m) : BitVec 32).toNat = t.val then (1 : EReal) else 0 := by
  unfold k0_pay13
  have e1 : broadcastTo S1024x2176 (shapeCast S1024x1 (shapeCast S1024 v4 shapeCasts_S1x1024_S1024) shapeCasts_S1024_S1024x1)
      broadcasts_S1024x1_S1024x2176 (ix2 m t) = v4 (ix2 0 m) :=
    (broadcastTo_a1_ab_apply _ _ m t).trans ((shapeCast_a_a1_apply _ _ m 0).trans (shapeCast_1a_a_apply v4 _ m))
  have e2 : broadcastTo S1024x2176 (iota .tc S1x2176 32 [1] iota_S1x2176_d1_w32) broadcasts_S1x2176_S1024x2176 (ix2 m t)
      = BitVec.ofNat 32 t.val :=
    (broadcastTo_1b_ab_apply _ _ m t).trans (iota_single_apply .tc S1x2176 32 1 _ (ix2 0 t))
  exact (congrArg₂ (fun a b : BitVec 32 => FloatOps.sitofp (F := Ideal) .f32 ((IntOp.cmpi .eq a b).setWidth 32)) e1 e2).trans
    (onehot_word _ t)

section Tile

open Cert.HopMath
variable (v4 : Vec Ideal S1x1024 .i32) (u : Vec Ideal S1x512 .f32) (x3 : Vec Ideal S1x1x1024x512 .f32)
  (tu : Vec Ideal S1x2176 .f32) (mx : Vec Ideal S1x1 .f32)

theorem logits_read (m : Fin 1024) :
    k0_pay14 v4 u x3 tu (ix2 0 m)
      = tileLogit (fun d => u (ix2 0 d)) (fun m d => x3 (ix4 0 0 m d)) (fun t => tu (ix2 0 t))
          (fun m t => if (v4 (ix2 0 m) : BitVec 32).toNat = t.val then (1 : EReal) else 0) m := by
  unfold k0_pay14 tileLogit
  refine congrArg₂ (· + ·) ((dotUK_apply _ _ m).trans ?_) ((dotTO_apply _ _ m).trans ?_)
  · refine Finset.sum_congr rfl fun d _ => congrArg (u (ix2 0 d) * ·) ?_
    exact shapeCast_11ab_ab_apply x3 _ m d
  · refine Finset.sum_congr rfl fun t _ => congrArg (tu (ix2 0 t) * ·) ?_
    exact onehot_read v4 m t

theorem lift_row (m : Fin 1024) : reduces_S1x1024_S1.lift (ix1 (0 : Fin 1)) m = ix2 (0 : Fin 1) m := by
  funext a
  match a with
  | ⟨0, _⟩ => rfl
  | ⟨1, _⟩ => rfl

theorem newMax_read :
    k0_pay15 v4 u x3 tu mx (ix2 0 0)
      = max (mx (ix2 0 0)) (Finset.univ.fold max ⊥
          (tileLogit (fun d => u (ix2 0 d)) (fun m d => x3 (ix4 0 0 m d)) (fun t => tu (ix2 0 t))
            (fun m t => if (v4 (ix2 0 m) : BitVec 32).toNat = t.val then (1 : EReal) else 0))) := by
  unfold k0_pay15
  refine congrArg (max (mx (ix2 0 0))) ?_
  refine (shapeCast_a_1a_apply _ _ 0 0).trans ?_
  refine (Ideal.multiReduction_maximumf_single (k0_pay14 v4 u x3 tu) 0xFF800000#32 reduces_S1x1024_S1 (.inl rfl) rfl (ix1 0)).trans ?_
  rw [show FloatOps.ofBits (F := Ideal) .f32 0xFF800000#32 = ⊥ from ofBits_negInf]
  refine congrArg (Finset.univ.fold max ⊥) (funext fun m => ?_)
  exact (congrArg (k0_pay14 v4 u x3 tu) (lift_row m)).trans (logits_read v4 u x3 tu m)

theorem rescale_read (mx' : Vec Ideal S1x1 .f32) :
    k0_pay16 v4 u x3 tu mx mx' (ix2 0 0) = Ideal.exp (mx' (ix2 0 0) - k0_pay15 v4 u x3 tu mx (ix2 0 0)) := by
  unfold k0_pay16
  rfl

theorem weights_read (m : Fin 1024) :
    k0_pay17 v4 u x3 tu mx (ix2 0 m) = Ideal.exp (k0_pay14 v4 u x3 tu (ix2 0 m) - k0_pay15 v4 u x3 tu mx (ix2 0 0)) := by
  unfold k0_pay17
  refine congrArg (fun z => Ideal.exp (k0_pay14 v4 u x3 tu (ix2 0 m) - z)) ?_
  exact broadcastTo_11_1b_apply _ _ 0 m

theorem oldSum_read (mx' l : Vec Ideal S1x1 .f32) :
    k0_pay18 v4 u x3 tu mx mx' l (ix2 0 0) = k0_pay16 v4 u x3 tu mx mx' (ix2 0 0) * l (ix2 0 0) := by
  unfold k0_pay18
  rfl

end Tile

theorem newSum_read (p : FVec Ideal S1x1024 .f32) (c : FVec Ideal S1x1 .f32) :
    k0_pay1 (F := Ideal) p c (ix2 0 0) = c (ix2 0 0) + ∑ m : Fin 1024, p (ix2 0 m) := by
  unfold k0_pay1
  refine (congrFun (shapeCast_self _ _) _).trans ?_
  refine congrArg (c (ix2 0 0) + ·) ?_
  refine (shapeCast_a_1a_apply _ _ 0 0).trans ?_
  refine (Ideal.multiReduction_add_single p 0x00000000#32 reduces_S1x1024_S1 (.inl rfl) rfl (ix1 0)).trans ?_
  exact Finset.sum_congr rfl fun m _ => congrArg p (lift_row m)

theorem newAcc_read (al : FVec Ideal S1x1 .f32) (p : FVec Ideal S1x1024 .f32) (x4 : Vec Ideal S1x1x1024x512 .f32)
    (acc : Vec Ideal S1x512 .f32) (d : Fin 512) :
    k0_pay3 (F := Ideal) al p x4 acc (ix2 0 d) = al (ix2 0 0) * acc (ix2 0 d) + ∑ m : Fin 1024, p (ix2 0 m) * x4 (ix4 0 0 m d) := by
  unfold k0_pay3
  refine (congrFun (shapeCast_self _ _) _).trans ?_
  refine congrArg₂ (· + ·) (congrArg (· * acc (ix2 0 d)) ?_) ((dotPV_apply _ _ d).trans ?_)
  · exact broadcastTo_11_1b_apply _ _ 0 d
  · refine Finset.sum_congr rfl fun m _ => congrArg (p (ix2 0 m) * ·) ?_
    exact shapeCast_11ab_ab_apply x4 _ m d

theorem newHist_read (oh : FVec Ideal S1024x2176 .bf16) (al : FVec Ideal S1x1 .f32) (p : FVec Ideal S1x1024 .f32)
    (q : Vec Ideal S1x2176 .f32) (t : Fin 2176) :
    k0_pay4 (F := Ideal) oh al p q (ix2 0 t) = al (ix2 0 0) * q (ix2 0 t) + ∑ m : Fin 1024, p (ix2 0 m) * oh (ix2 m t) := by
  unfold k0_pay4
  refine (congrFun (shapeCast_self _ _) _).trans ?_
  refine congrArg₂ (· + ·) (congrArg (· * q (ix2 0 t)) ?_) (dotPQ_apply _ _ t)
  exact broadcastTo_11_1b_apply _ _ 0 t

theorem storedMax_read (v : FVec Ideal S1x1 .f32) : k0_pay5 (F := Ideal) v = v := by
  unfold k0_pay5
  exact shapeCast_self _ _

theorem outBlock_read (q : Vec Ideal S1x2176 .f32) (x7 : Vec Ideal S2176x512 .bf16) (acc : Vec Ideal S1x512 .f32)
    (l : Vec Ideal S1x1 .f32) (u : Vec Ideal S1x512 .f32) (d : Fin 512) :
    k0_pay6 (F := Ideal) q x7 acc l u (ix3 0 0 d)
      = Ideal.div (acc (ix2 0 d) + ∑ t : Fin 2176, q (ix2 0 t) * x7 (ix2 t d)) (l (ix2 0 0)) + u (ix2 0 d) := by
  unfold k0_pay6
  refine (shapeCast_ab_1ab_apply _ _ 0 0 d).trans ?_
  refine congrArg (· + u (ix2 0 d)) ?_
  refine congrArg₂ Ideal.div (congrArg (acc (ix2 0 d) + ·) ((dotQC_apply _ _ d).trans ?_)) ?_
  · refine Finset.sum_congr rfl fun t _ => congrArg (q (ix2 0 t) * ·) ?_
    exact congrFun (shapeCast_self x7 _) _
  · exact broadcastTo_11_1b_apply _ _ 0 d

section Spec

open Cert.HopMath

theorem St_ext {nD nTp : ℕ} (a c : St nD nTp) (hmx : a.mx = c.mx) (hl : a.l = c.l) (hacc : a.acc = c.acc) (hq : a.q = c.q) :
    a = c := by
  cases a; cases c
  simp only at hmx hl hacc hq
  subst hmx hl hacc hq
  rfl

def stOf (s : Scr Ideal) : St 512 2176 :=
  ⟨s.mx (ix2 0 0), s.l (ix2 0 0), fun d => s.acc (ix2 0 d), fun t => s.q (ix2 0 t)⟩

def uOf (s : Scr Ideal) : Fin 512 → EReal := fun d => s.u (ix2 0 d)

def tuOf (s : Scr Ideal) : Fin 2176 → EReal := fun t => s.tu (ix2 0 t)

def rowsOf (x : Vec Ideal S1x1x1024x512 .f32) : Fin 1024 → Fin 512 → EReal := fun m d => x (ix4 0 0 m d)

def ohOf (v4 : Vec Ideal S1x1024 .i32) : Fin 1024 → Fin 2176 → EReal :=
  fun m t => if (v4 (ix2 0 m) : BitVec 32).toNat = t.val then 1 else 0

theorem reset_u (x2 : Vec Ideal S1x1x512 .f32) (x6 : Vec Ideal S2176x512 .bf16) :
    uOf (reset x2 x6) = fun d => x2 (ix3 0 0 d) :=
  funext fun d => query_read x2 d

theorem reset_tu (x2 : Vec Ideal S1x1x512 .f32) (x6 : Vec Ideal S2176x512 .bf16) :
    tuOf (reset x2 x6) = tuRow (fun d => x2 (ix3 0 0 d)) (fun t d => x6 (ix2 t d)) :=
  funext fun t => tuRow_read x2 x6 t

theorem reset_st (x2 : Vec Ideal S1x1x512 .f32) (x6 : Vec Ideal S2176x512 .bf16) : stOf (reset x2 x6) = St.init :=
  St_ext _ _ (initMax_read (ix2 0 0)) (initSum_read (ix2 0 0)) (funext fun d => initAcc_read (ix2 0 d))
    (funext fun t => initHist_read (ix2 0 t))

theorem fold_u (v4 : Vec Ideal S1x1024 .i32) (x3 x4 : Vec Ideal S1x1x1024x512 .f32) (s : Scr Ideal) :
    uOf (fold v4 x3 x4 s) = uOf s := rfl

theorem fold_tu (v4 : Vec Ideal S1x1024 .i32) (x3 x4 : Vec Ideal S1x1x1024x512 .f32) (s : Scr Ideal) :
    tuOf (fold v4 x3 x4 s) = tuOf s := rfl

/-- Read entry by entry, the kernel's per-tile update is `foldTile` of the specification. -/
theorem fold_spec (v4 : Vec Ideal S1x1024 .i32) (x3 x4 : Vec Ideal S1x1x1024x512 .f32) (s : Scr Ideal) :
    stOf (fold v4 x3 x4 s) = foldTile (uOf s) (rowsOf x3) (rowsOf x4) (tuOf s) (ohOf v4) (stOf s) := by
  have hmx : k0_pay15 v4 s.u x3 s.tu s.mx (ix2 0 0)
      = max (s.mx (ix2 0 0)) (Finset.univ.fold max ⊥ (tileLogit (uOf s) (rowsOf x3) (tuOf s) (ohOf v4))) :=
    newMax_read v4 s.u x3 s.tu s.mx
  have hal : k0_pay16 v4 s.u x3 s.tu s.mx s.mx (ix2 0 0)
      = Ideal.exp (s.mx (ix2 0 0) - max (s.mx (ix2 0 0)) (Finset.univ.fold max ⊥ (tileLogit (uOf s) (rowsOf x3) (tuOf s) (ohOf v4)))) := by
    rw [rescale_read, hmx]
  have hp : ∀ m : Fin 1024, k0_pay17 v4 s.u x3 s.tu s.mx (ix2 0 m)
      = Ideal.exp (tileLogit (uOf s) (rowsOf x3) (tuOf s) (ohOf v4) m
          - max (s.mx (ix2 0 0)) (Finset.univ.fold max ⊥ (tileLogit (uOf s) (rowsOf x3) (tuOf s) (ohOf v4)))) := by
    intro m
    rw [weights_read, hmx, logits_read]
    rfl
  refine St_ext _ _ ?_ ?_ ?_ ?_
  · exact (congrFun (storedMax_read _) _).trans hmx
  · refine (newSum_read _ _).trans ?_
    rw [oldSum_read, hal]
    exact congrArg (_ + ·) (Finset.sum_congr rfl fun m _ => hp m)
  · funext d
    refine (newAcc_read _ _ x4 s.acc d).trans ?_
    rw [hal]
    exact congrArg (_ + ·) (Finset.sum_congr rfl fun m _ => congrArg (· * x4 (ix4 0 0 m d)) (hp m))
  · funext t
    refine (newHist_read _ _ _ s.q t).trans ?_
    rw [hal]
    exact congrArg (_ + ·) (Finset.sum_congr rfl fun m _ => congrArg₂ (· * ·) (hp m) (onehot_read v4 m t))

theorem ohOf_relRow (i : grid0.Coords) (b : Fin 32) (hb : (i 0).val = b.val) (x5 : Vec Ideal S32x1024 .i32) :
    ohOf (relRow i x5) = fun m t => if (x5 (ix2 b m) : BitVec 32).toNat = t.val then (1 : EReal) else 0 := by
  funext m t
  unfold ohOf
  rw [relRow_apply i b hb]

theorem outB_spec (s : Scr Ideal) (x7 : Vec Ideal S2176x512 .bf16) (d : Fin 512) :
    outB s x7 (ix3 0 0 d)
      = Ideal.div ((stOf s).acc d + ∑ t : Fin 2176, (stOf s).q t * x7 (ix2 t d)) (stOf s).l + uOf s d :=
  outBlock_read s.q x7 s.acc s.l s.u d

theorem outB_apply (i0 i1 : grid0.Coords) (b : Fin 32) (hb0 : (i0 0).val = b.val) (hb1 : (i1 0).val = b.val)
    (x2 : Vec Ideal S1x1x512 .f32) (k0 v0 k1 v1 : Vec Ideal S1x1x1024x512 .f32) (r0 r1 : Vec Ideal S32x1024 .i32)
    (x6 x7 : Vec Ideal S2176x512 .bf16) (d : Fin 512) :
    outB (stepB i1 k1 v1 r1 (stepA i0 x2 k0 v0 r0 x6)) x7 (ix3 0 0 d)
      = Cert.HopMath.kernelHop (nM := 1024) (nD := 512) (nTp := 2176) (fun d' => x2 (ix3 0 0 d'))
          (fun m d' => k0 (ix4 0 0 m d')) (fun m d' => k1 (ix4 0 0 m d')) (fun m d' => v0 (ix4 0 0 m d'))
          (fun m d' => v1 (ix4 0 0 m d'))
          (fun t d' => x6 (ix2 t d')) (fun t d' => x7 (ix2 t d'))
          (fun m t => if (r0 (ix2 b m) : BitVec 32).toNat = t.val then 1 else 0)
          (fun m t => if (r1 (ix2 b m) : BitVec 32).toNat = t.val then 1 else 0) d := by
  refine (outB_spec _ x7 d).trans ?_
  have hu : uOf (stepB i1 k1 v1 r1 (stepA i0 x2 k0 v0 r0 x6)) = fun d' => x2 (ix3 0 0 d') := reset_u x2 x6
  have hst : stOf (stepB i1 k1 v1 r1 (stepA i0 x2 k0 v0 r0 x6))
      = twoTiles (fun d' => x2 (ix3 0 0 d')) (fun m d' => k0 (ix4 0 0 m d')) (fun m d' => k1 (ix4 0 0 m d'))
          (fun m d' => v0 (ix4 0 0 m d')) (fun m d' => v1 (ix4 0 0 m d')) (fun t d' => x6 (ix2 t d'))
          (fun m t => if (r0 (ix2 b m) : BitVec 32).toNat = t.val then 1 else 0)
          (fun m t => if (r1 (ix2 b m) : BitVec 32).toNat = t.val then 1 else 0) := by
    unfold twoTiles stepB stepA
    rw [fold_spec, fold_spec, fold_u, fold_tu, reset_st, reset_u, reset_tu, ohOf_relRow i0 b hb0, ohOf_relRow i1 b hb1]
    rfl
  rw [hu, hst]
  rfl

end Spec

theorem kernelHop_congr {nR nE nB : ℕ} {u u' : Fin nE → EReal} {KA KA' KB KB' VA VA' VB VB' : Fin nR → Fin nE → EReal}
    {Ap Ap' Cp Cp' : Fin nB → Fin nE → EReal} {ohA ohA' ohB ohB' : Fin nR → Fin nB → EReal}
    (hu : ∀ d, u d = u' d) (hKA : ∀ m d, KA m d = KA' m d) (hKB : ∀ m d, KB m d = KB' m d)
    (hVA : ∀ m d, VA m d = VA' m d) (hVB : ∀ m d, VB m d = VB' m d)
    (hAp : ∀ t d, Ap t d = Ap' t d) (hCp : ∀ t d, Cp t d = Cp' t d)
    (hoA : ∀ m t, ohA m t = ohA' m t) (hoB : ∀ m t, ohB m t = ohB' m t) (d : Fin nE) :
    Cert.HopMath.kernelHop u KA KB VA VB Ap Cp ohA ohB d = Cert.HopMath.kernelHop u' KA' KB' VA' VB' Ap' Cp' ohA' ohB' d := by
  obtain rfl : u = u' := funext hu
  obtain rfl : KA = KA' := funext fun m => funext (hKA m)
  obtain rfl : KB = KB' := funext fun m => funext (hKB m)
  obtain rfl : VA = VA' := funext fun m => funext (hVA m)
  obtain rfl : VB = VB' := funext fun m => funext (hVB m)
  obtain rfl : Ap = Ap' := funext fun t => funext (hAp t)
  obtain rfl : Cp = Cp' := funext fun t => funext (hCp t)
  obtain rfl : ohA = ohA' := funext fun m => funext (hoA m)
  obtain rfl : ohB = ohB' := funext fun m => funext (hoB m)
  rfl

theorem relOf_val (rel : (⟨2, ![32, 2048]⟩ : Shape).Idx → BitVec 32) (b : Fin 32) (m : Fin (1024 + 1024))
    (h : (rel (ix2 b m)).toNat < 2049) : (Cert.Spec3.relOf rel b m).val = (rel (ix2 b m)).toNat :=
  Nat.mod_eq_of_lt h

end Cert.KernelIdeal.Hop

end
-- ==== Proof.RegionValue0.lean ====
import proofs.«410490_j37271726195550_3_alg».proof.Proof.Value0
import proofs.«410490_j37271726195550_3_alg».proof.Proof.KernelRead
import proofs.«410490_j37271726195550_3_alg».proof.Proof.Spec3

set_option maxRecDepth 16384

noncomputable section

namespace Cert.KernelIdeal.Hop0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.Hop
open Idealize.ShloMosaic.ValueIdx

section Points

variable {F : FTy → Type} [FloatOps F]
variable (V : (c : Dev nD) → (b : Ref sig .tc) → Buf (Elt F) ((c : Thread nD τ).loc b))

theorem teven0 (b : Fin 32) : 2 * b.val < cfg0.N := by
  have h := b.isLt
  have hN : cfg0.N = 64 := N_0
  omega

def ptA0 (b : Fin 32) : Fin cfg0.N := ⟨2 * b.val, teven0 b⟩

def ptB0 (b : Fin 32) : Fin cfg0.N := ⟨2 * b.val + 1, todd0 b⟩

theorem ptA0_val (b : Fin 32) : (ptA0 b).val = 2 * b.val := rfl

theorem ptB0_val (b : Fin 32) : (ptB0 b).val = 2 * b.val + 1 := rfl

theorem scrAt0_congr (c : Dev nD) {n n' : ℕ} (hn : n < cfg0.N) (hn' : n' < cfg0.N) (h : n = n') :
    scrAt0 V c n hn = scrAt0 V c n' hn' := by
  subst h
  rfl

theorem out0_pair (c : Dev nD) (b : Fin 32) :
    outAt0 V c (2 * b.val + 1) (todd0 b)
      = outB (stepB (grid0.coords (ptB0 b)) (iblk0 V c 1 (ptB0 b)) (iblk0 V c 2 (ptB0 b)) (iblk0 V c 3 (ptB0 b))
          (stepA (grid0.coords (ptA0 b)) (iblk0 V c 0 (ptA0 b)) (iblk0 V c 1 (ptA0 b)) (iblk0 V c 2 (ptA0 b))
            (iblk0 V c 3 (ptA0 b)) (iblk0 V c 4 (ptA0 b))))
          (iblk0 V c 5 (ptB0 b)) := by
  have hodd : (ptB0 b).val % 2 = 1 := by rw [ptB0_val]; omega
  have heven : (ptA0 b).val % 2 = 0 := by rw [ptA0_val]; omega
  have hB := scrAt0_odd V c (ptB0 b) hodd
  have hA := scrAt0_even V c (ptA0 b) heven
  have hAB : scrAt0 V c ((ptB0 b).val - 1) (Nat.lt_of_le_of_lt (Nat.sub_le _ _) (ptB0 b).isLt)
      = scrAt0 V c (ptA0 b).val (ptA0 b).isLt :=
    scrAt0_congr V c _ _ (by rw [ptB0_val, ptA0_val]; omega)
  rw [hAB, hA] at hB
  show outB (scrAt0 V c (ptB0 b).val (ptB0 b).isLt) (iblk0 V c 5 (ptB0 b)) = _
  rw [hB]

end Points

/-- Row b of the hop's output is what the second of the row's two grid points stored, and on real entries that is one hop of the
    specification (`kernelHop_eq_refHop`). -/
theorem region0_value (V : (c : Dev nD) → (b : Ref sig .tc) → Buf (Elt Ideal) ((c : Thread nD τ).loc b)) (c : Dev nD)
    (ta tc : (⟨3, ![3, 2049, 512]⟩ : Shape).Idx → EReal)
    (hk : ∀ j, ∃ x : ℝ, V c main_arg2 j = (x : EReal)) (hv : ∀ j, ∃ x : ℝ, V c main_arg3 j = (x : EReal))
    (hta : Cert.HopMath.IsReal ta) (htc : Cert.HopMath.IsReal tc)
    (hu : ∀ j, ∃ x : ℝ, V c main_v11 j = (x : EReal))
    (hrel : ∀ j, (V c main_arg1 j : BitVec 32).toNat < 2049)
    (hAp : ∀ (t : Fin 2176) (d : Fin 512), V c main_v17 (ix2 t d) = if h : t.val < 2049 then ta (ix3 (0 : Fin 3) ⟨t.val, h⟩ d) else 0)
    (hCp : ∀ (t : Fin 2176) (d : Fin 512), V c main_v19 (ix2 t d) = if h : t.val < 2049 then tc (ix3 (0 : Fin 3) ⟨t.val, h⟩ d) else 0)
    (b : Fin 32) (d : Fin 512) :
    (dat0 V c).arrAt 6 cfg0.N (ix3 b (0 : Fin 1) d)
      = Cert.Spec3.hop (V c main_arg1) (V c main_arg2) (V c main_arg3) ta tc (0 : Fin 3)
          (fun b d => V c main_v11 (ix3 b (0 : Fin 1) d)) b d := by
  have hdA : (⟨(ptA0 b).val / 2, tdiv0 (ptA0 b)⟩ : Fin 32) = b := Fin.ext (by show (ptA0 b).val / 2 = b.val; rw [ptA0_val]; omega)
  have hdB : (⟨(ptB0 b).val / 2, tdiv0 (ptB0 b)⟩ : Fin 32) = b := Fin.ext (by show (ptB0 b).val / 2 = b.val; rw [ptB0_val]; omega)
  have hrA : ∀ m : Fin 1024, (⟨(ptA0 b).val % 2 * 1024 + m.val, trow0 (ptA0 b) m⟩ : Fin 2048) = Fin.castAdd 1024 m :=
    fun m => Fin.ext (by show (ptA0 b).val % 2 * 1024 + m.val = m.val; rw [ptA0_val]; omega)
  have hrB : ∀ m : Fin 1024, (⟨(ptB0 b).val % 2 * 1024 + m.val, trow0 (ptB0 b) m⟩ : Fin 2048) = Fin.natAdd 1024 m :=
    fun m => Fin.ext (by show (ptB0 b).val % 2 * 1024 + m.val = 1024 + m.val; rw [ptB0_val]; omega)
  have hbA : (grid0.coords (ptA0 b) 0).val = b.val := by rw [coords0_0, ptA0_val]; omega
  have hbB : (grid0.coords (ptB0 b) 0).val = b.val := by rw [coords0_0, ptB0_val]; omega
  have key := Cert.HopMath.kernelHop_eq_refHop (nM := 1024) (nD := 512) (nT := 2049) (nTp := 2176) (by decide) (by decide)
    (Cert.Spec3.memOf (V c main_arg2) b (0 : Fin 3))
    (Cert.Spec3.memOf (V c main_arg3) b (0 : Fin 3))
    (Cert.Spec3.tabOf ta (0 : Fin 3))
    (Cert.Spec3.tabOf tc (0 : Fin 3))
    (fun t d' => V c main_v17 (ix2 t d')) (fun t d' => V c main_v19 (ix2 t d'))
    (Cert.Spec3.relOf (V c main_arg1) b) (fun d' => V c main_v11 (ix3 b (0 : Fin 1) d'))
    (fun m t => if t.val = (Cert.Spec3.relOf (V c main_arg1) b (Fin.castAdd 1024 m)).val then 1 else 0)
    (fun m t => if t.val = (Cert.Spec3.relOf (V c main_arg1) b (Fin.natAdd 1024 m)).val then 1 else 0)
    (fun m d' => hk _) (fun m d' => hv _) (fun t d' => hta _) (fun t d' => htc _) (fun d' => hu _)
    (fun t d' => hAp t d') (fun t d' => hCp t d') (fun m t => rfl) (fun m t => rfl) d
  rw [arrAt0_6_apply, out0_pair]
  refine ((outB_apply (grid0.coords (ptA0 b)) (grid0.coords (ptB0 b)) b hbA hbB
    (iblk0 V c 0 (ptA0 b)) (iblk0 V c 1 (ptA0 b)) (iblk0 V c 2 (ptA0 b)) (iblk0 V c 1 (ptB0 b)) (iblk0 V c 2 (ptB0 b))
    (iblk0 V c 3 (ptA0 b)) (iblk0 V c 3 (ptB0 b)) (iblk0 V c 4 (ptA0 b)) (iblk0 V c 5 (ptB0 b)) d).trans
    (kernelHop_congr ?_ ?_ ?_ ?_ ?_ ?_ ?_ ?_ ?_ d)).trans key
  · intro d'
    refine (iblk0_0_apply V c (ptA0 b) d').trans ?_
    rw [hdA]
  · intro m d'
    refine (iblk0_1_apply V c (ptA0 b) m d').trans ?_
    rw [hdA, hrA m]
    rfl
  · intro m d'
    refine (iblk0_1_apply V c (ptB0 b) m d').trans ?_
    rw [hdB, hrB m]
    rfl
  · intro m d'
    refine (iblk0_2_apply V c (ptA0 b) m d').trans ?_
    rw [hdA, hrA m]
    rfl
  · intro m d'
    refine (iblk0_2_apply V c (ptB0 b) m d').trans ?_
    rw [hdB, hrB m]
    rfl
  · intro t d'
    exact iblk0_4_apply V c (ptA0 b) t d'
  · intro t d'
    exact iblk0_5_apply V c (ptB0 b) t d'
  · intro m t
    rw [iblk0_3_apply V c (ptA0 b) b m, hrA m, relOf_val (V c main_arg1) b (Fin.castAdd 1024 m) (hrel _)]
    exact if_congr eq_comm rfl rfl
  · intro m t
    rw [iblk0_3_apply V c (ptB0 b) b m, hrB m, relOf_val (V c main_arg1) b (Fin.natAdd 1024 m) (hrel _)]
    exact if_congr eq_comm rfl rfl

end Cert.KernelIdeal.Hop0

end
-- ==== Proof.Value1.lean ====
import proofs.«410490_j37271726195550_3_alg».proof.Proof.Frame1
import Idealize.ShloMosaic.Lib.Pipeline.Value
import Idealize.ShloMosaic.Lib.ValueIdx

set_option maxRecDepth 16384

noncomputable section

namespace Cert.KernelIdeal.Hop1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Idealize.ShloMosaic.ValueIdx
variable {F : FTy → Type} [FloatOps F]
variable (V : (c : Dev nD) → (b : Ref sig .tc) → Buf (Elt F) ((c : Thread nD τ).loc b))

theorem coords1_0 (t : Fin cfg1.N) : (grid1.coords t 0).val = t.val / 2 :=
  (by decide +kernel : ∀ t : Fin grid1.N, (grid1.coords t 0).val = t.val / 2) t

theorem coords1_1 (t : Fin cfg1.N) : (grid1.coords t 1).val = t.val % 2 :=
  (by decide +kernel : ∀ t : Fin grid1.N, (grid1.coords t 1).val = t.val % 2) t

theorem tdiv1 (t : Fin cfg1.N) : t.val / 2 < 32 := by
  have h := t.isLt
  have hN : cfg1.N = 64 := N_1
  omega

theorem trow1 (t : Fin cfg1.N) (mm : Fin 1024) : t.val % 2 * 1024 + mm.val < 2048 := by
  have h := mm.isLt
  omega

theorem todd1 (b : Fin 32) : 2 * b.val + 1 < cfg1.N := by
  have h := b.isLt
  have hN : cfg1.N = 64 := N_1
  omega

theorem idx1_0 : ∀ t : Fin cfg1.N, win1_0.index t (0 : Fin S1x1x512.rank) = t.val / 2
    ∧ win1_0.index t (1 : Fin S1x1x512.rank) = 0
    ∧ win1_0.index t (2 : Fin S1x1x512.rank) = 0 :=
  (by decide +kernel : ∀ t : Fin grid1.N, _)

theorem idx1_1 : ∀ t : Fin cfg1.N, win1_1.index t (0 : Fin 4) = t.val / 2
    ∧ win1_1.index t (1 : Fin 4) = ((1 : Fin 3) : Fin 3).val
    ∧ win1_1.index t (2 : Fin 4) = t.val % 2
    ∧ win1_1.index t (3 : Fin 4) = 0 :=
  (by decide +kernel : ∀ t : Fin grid1.N, _)

theorem idx1_2 : ∀ t : Fin cfg1.N, win1_2.index t (0 : Fin 4) = t.val / 2
    ∧ win1_2.index t (1 : Fin 4) = ((1 : Fin 3) : Fin 3).val
    ∧ win1_2.index t (2 : Fin 4) = t.val % 2
    ∧ win1_2.index t (3 : Fin 4) = 0 :=
  (by decide +kernel : ∀ t : Fin grid1.N, _)

theorem idx1_3 : ∀ t : Fin cfg1.N, win1_3.index t (0 : Fin 2) = 0
    ∧ win1_3.index t (1 : Fin 2) = t.val % 2 :=
  (by decide +kernel : ∀ t : Fin grid1.N, _)

theorem idx1_4 : ∀ t : Fin cfg1.N, win1_4.index t (0 : Fin 2) = 0
    ∧ win1_4.index t (1 : Fin 2) = 0 :=
  (by decide +kernel : ∀ t : Fin grid1.N, _)

theorem idx1_5 : ∀ t : Fin cfg1.N, win1_5.index t (0 : Fin 2) = 0
    ∧ win1_5.index t (1 : Fin 2) = 0 :=
  (by decide +kernel : ∀ t : Fin grid1.N, _)

theorem idx1_6 : ∀ t : Fin cfg1.N, win1_6.index t (0 : Fin S1x1x512.rank) = t.val / 2
    ∧ win1_6.index t (1 : Fin S1x1x512.rank) = 0
    ∧ win1_6.index t (2 : Fin S1x1x512.rank) = 0 :=
  (by decide +kernel : ∀ t : Fin grid1.N, _)

theorem iblk1_0_apply (c : Dev nD) (t : Fin cfg1.N) (d : Fin 512) :
    iblk1 V c 0 t (ix3 (0 : Fin 1) (0 : Fin 1) d) = V c main_v20 (ix3 (⟨t.val / 2, tdiv1 t⟩ : Fin 32) (0 : Fin 1) d) := by
  obtain ⟨e1, e2, e3⟩ := idx1_0 t
  unfold iblk1
  rw [View.read_apply]
  show V c main_v20 (((cfg1.win 0).blk t).view.emb (ix3 (0 : Fin 1) (0 : Fin 1) d)) = V c main_v20 _
  congr 1
  funext a
  apply Fin.ext
  match a with
  | ⟨0, _⟩ => show win1_0.index t (0 : Fin S1x1x512.rank) * 1 + 1 * 0 = t.val / 2; omega
  | ⟨1, _⟩ => show win1_0.index t (1 : Fin S1x1x512.rank) * 1 + 1 * 0 = 0; omega
  | ⟨2, _⟩ => show win1_0.index t (2 : Fin S1x1x512.rank) * 512 + 1 * d.val = d.val; omega

theorem iblk1_1_apply (c : Dev nD) (t : Fin cfg1.N) (mm : Fin 1024) (d : Fin 512) :
    iblk1 V c 1 t (ix4 (0 : Fin 1) (0 : Fin 1) mm d)
      = V c main_arg2 (ix4 (⟨t.val / 2, tdiv1 t⟩ : Fin 32)
          (1 : Fin 3)
          (⟨t.val % 2 * 1024 + mm.val, trow1 t mm⟩ : Fin 2048) d) := by
  obtain ⟨e1, e2, e3, e4⟩ := idx1_1 t
  unfold iblk1
  rw [View.read_apply]
  show V c main_arg2 (((cfg1.win 1).blk t).view.emb (ix4 (0 : Fin 1) (0 : Fin 1) mm d)) = V c main_arg2 _
  congr 1
  funext a
  apply Fin.ext
  match a with
  | ⟨0, _⟩ => show win1_1.index t (0 : Fin 4) * 1 + 1 * 0 = t.val / 2; omega
  | ⟨1, _⟩ => show win1_1.index t (1 : Fin 4) * 1 + 1 * 0 = _; rw [e2]; rfl
  | ⟨2, _⟩ => show win1_1.index t (2 : Fin 4) * 1024 + 1 * mm.val = t.val % 2 * 1024 + mm.val; omega
  | ⟨3, _⟩ => show win1_1.index t (3 : Fin 4) * 512 + 1 * d.val = d.val; omega

theorem iblk1_2_apply (c : Dev nD) (t : Fin cfg1.N) (mm : Fin 1024) (d : Fin 512) :
    iblk1 V c 2 t (ix4 (0 : Fin 1) (0 : Fin 1) mm d)
      = V c main_arg3 (ix4 (⟨t.val / 2, tdiv1 t⟩ : Fin 32)
          (1 : Fin 3)
          (⟨t.val % 2 * 1024 + mm.val, trow1 t mm⟩ : Fin 2048) d) := by
  obtain ⟨e1, e2, e3, e4⟩ := idx1_2 t
  unfold iblk1
  rw [View.read_apply]
  show V c main_arg3 (((cfg1.win 2).blk t).view.emb (ix4 (0 : Fin 1) (0 : Fin 1) mm d)) = V c main_arg3 _
  congr 1
  funext a
  apply Fin.ext
  match a with
  | ⟨0, _⟩ => show win1_2.index t (0 : Fin 4) * 1 + 1 * 0 = t.val / 2; omega
  | ⟨1, _⟩ => show win1_2.index t (1 : Fin 4) * 1 + 1 * 0 = _; rw [e2]; rfl
  | ⟨2, _⟩ => show win1_2.index t (2 : Fin 4) * 1024 + 1 * mm.val = t.val % 2 * 1024 + mm.val; omega
  | ⟨3, _⟩ => show win1_2.index t (3 : Fin 4) * 512 + 1 * d.val = d.val; omega

theorem iblk1_3_apply (c : Dev nD) (t : Fin cfg1.N) (b' : Fin 32) (mm : Fin 1024) :
    iblk1 V c 3 t (ix2 b' mm) = V c main_arg1 (ix2 b' (⟨t.val % 2 * 1024 + mm.val, trow1 t mm⟩ : Fin 2048)) := by
  obtain ⟨e1, e2⟩ := idx1_3 t
  unfold iblk1
  rw [View.read_apply]
  show V c main_arg1 (((cfg1.win 3).blk t).view.emb (ix2 b' mm)) = V c main_arg1 _
  congr 1
  funext a
  apply Fin.ext
  match a with
  | ⟨0, _⟩ => show win1_3.index t (0 : Fin 2) * 32 + 1 * b'.val = b'.val; omega
  | ⟨1, _⟩ => show win1_3.index t (1 : Fin 2) * 1024 + 1 * mm.val = t.val % 2 * 1024 + mm.val; omega

theorem iblk1_4_apply (c : Dev nD) (t : Fin cfg1.N) (tt : Fin 2176) (d : Fin 512) :
    iblk1 V c 4 t (ix2 tt d) = V c main_v22 (ix2 tt d) := by
  obtain ⟨e1, e2⟩ := idx1_4 t
  unfold iblk1
  rw [View.read_apply]
  show V c main_v22 (((cfg1.win 4).blk t).view.emb (ix2 tt d)) = V c main_v22 _
  congr 1
  funext a
  apply Fin.ext
  match a with
  | ⟨0, _⟩ => show win1_4.index t (0 : Fin 2) * 2176 + 1 * tt.val = tt.val; omega
  | ⟨1, _⟩ => show win1_4.index t (1 : Fin 2) * 512 + 1 * d.val = d.val; omega

theorem iblk1_5_apply (c : Dev nD) (t : Fin cfg1.N) (tt : Fin 2176) (d : Fin 512) :
    iblk1 V c 5 t (ix2 tt d) = V c main_v24 (ix2 tt d) := by
  obtain ⟨e1, e2⟩ := idx1_5 t
  unfold iblk1
  rw [View.read_apply]
  show V c main_v24 (((cfg1.win 5).blk t).view.emb (ix2 tt d)) = V c main_v24 _
  congr 1
  funext a
  apply Fin.ext
  match a with
  | ⟨0, _⟩ => show win1_5.index t (0 : Fin 2) * 2176 + 1 * tt.val = tt.val; omega
  | ⟨1, _⟩ => show win1_5.index t (1 : Fin 2) * 512 + 1 * d.val = d.val; omega

theorem outAt1_congr (c : Dev nD) {n n' : ℕ} (hn : n < cfg1.N) (hn' : n' < cfg1.N) (h : n = n')
    {j j' : S1x1x512.Idx} (hj : j = j') : outAt1 V c n hn j = outAt1 V c n' hn' j' := by
  subst h
  subst hj
  rfl

def outArr1 (c : Dev nD) : Vec F S32x1x512 .f32 :=
  fun i => outAt1 V c (2 * (i 0).val + 1) (todd1 (i 0)) (ix3 (0 : Fin 1) (0 : Fin 1) (i 2))

theorem read1_6 (c : Dev nD) (t : Fin cfg1.N) (ht : t.val % 2 = 1) (y : S1x1x512.Idx) :
    ((cfg1.win 6).blk t).view.read (Elt F) (outArr1 V c) y = outAt1 V c t.val t.isLt y := by
  obtain ⟨e1, e2, e3⟩ := idx1_6 t
  obtain ⟨p, q, r, rfl⟩ : ∃ (p : Fin 1) (q : Fin 1) (r : Fin 512), y = ix3 p q r := ⟨y 0, y 1, y 2, eq_ix3 y⟩
  obtain rfl : p = 0 := Subsingleton.elim _ _
  obtain rfl : q = 0 := Subsingleton.elim _ _
  rw [View.read_apply]
  show outArr1 V c (((cfg1.win 6).blk t).view.emb (ix3 (0 : Fin 1) (0 : Fin 1) r)) = _
  unfold outArr1
  refine outAt1_congr V c _ _ ?_ (congrArg (ix3 (0 : Fin 1) (0 : Fin 1)) (Fin.ext ?_))
  · show 2 * (win1_6.index t (0 : Fin S1x1x512.rank) * 1 + 1 * 0) + 1 = t.val
    omega
  · show win1_6.index t (2 : Fin S1x1x512.rank) * 512 + 1 * r.val = r.val
    omega

theorem flushed1_6_eq (c : Dev nD) (t : Fin cfg1.N) (hf : (cfg1.win 6).flush t = true) :
    (dat1 V c).flushed 6 t = ((cfg1.win 6).blk t).view.read (Elt F) (outArr1 V c) := by
  have ht : t.val % 2 = 1 := (flush1_6 t).mp hf
  show (cfg1.win 6).cut (grid1.coords t) ((dat1 V c).after 6 t) = _
  rw [after1_6]
  funext y
  exact (read1_6 V c t ht y).symm

theorem memblk1_6 (t : Fin cfg1.N) (i : S32x1x512.Idx) :
    i ∈ ((cfg1.win 6).blk t).view.set ↔ ∀ a : Fin 3, win1_6.index t a * S1x1x512.size a ≤ (i a).val
      ∧ (i a).val < win1_6.index t a * S1x1x512.size a + S1x1x512.size a := by
  show i ∈ ((View.whole main_v25).slice (win1_6.rect t)).set ↔ _
  rw [View.set_slice_whole, Rect.mem_set_unit]
  exact Iff.rfl

theorem cover1_6 (i : S32x1x512.Idx) :
    ∃ t : Fin cfg1.N, (cfg1.win 6).flush t = true ∧ i ∈ ((cfg1.win 6).blk t).view.set := by
  have hA : (i 0).val < 32 := (i 0).isLt
  have hB : (i 1).val < 1 := (i 1).isLt
  have hC : (i 2).val < 512 := (i 2).isLt
  refine ⟨⟨2 * (i 0).val + 1, todd1 (i 0)⟩, (flush1_6 _).mpr (by show (2 * (i 0).val + 1) % 2 = 1; omega), ?_⟩
  obtain ⟨e1, e2, e3⟩ := idx1_6 ⟨2 * (i 0).val + 1, todd1 (i 0)⟩
  have eA : win1_6.index ⟨2 * (i 0).val + 1, todd1 (i 0)⟩ (0 : Fin S1x1x512.rank) = (2 * (i 0).val + 1) / 2 := e1
  rw [memblk1_6]
  intro a
  match a with
  | ⟨0, _⟩ =>
    show win1_6.index ⟨2 * (i 0).val + 1, todd1 (i 0)⟩ (0 : Fin S1x1x512.rank) * 1 ≤ (i 0).val
      ∧ (i 0).val < win1_6.index ⟨2 * (i 0).val + 1, todd1 (i 0)⟩ (0 : Fin S1x1x512.rank) * 1 + 1
    omega
  | ⟨1, _⟩ =>
    show win1_6.index ⟨2 * (i 0).val + 1, todd1 (i 0)⟩ (1 : Fin S1x1x512.rank) * 1 ≤ (i 1).val
      ∧ (i 1).val < win1_6.index ⟨2 * (i 0).val + 1, todd1 (i 0)⟩ (1 : Fin S1x1x512.rank) * 1 + 1
    omega
  | ⟨2, _⟩ =>
    show win1_6.index ⟨2 * (i 0).val + 1, todd1 (i 0)⟩ (2 : Fin S1x1x512.rank) * 512 ≤ (i 2).val
      ∧ (i 2).val < win1_6.index ⟨2 * (i 0).val + 1, todd1 (i 0)⟩ (2 : Fin S1x1x512.rank) * 512 + 512
    omega

theorem arrAt1_6_eq (c : Dev nD) : (dat1 V c).arrAt 6 cfg1.N = outArr1 V c :=
  (dat1 V c).arrAt_eq_of_cover 6 (outArr1 V c) (fun t hf => flushed1_6_eq V c t hf) (cover1_6)

theorem arrAt1_6_apply (c : Dev nD) (b : Fin 32) (d : Fin 512) :
    (dat1 V c).arrAt 6 cfg1.N (ix3 b (0 : Fin 1) d)
      = outAt1 V c (2 * b.val + 1) (todd1 b) (ix3 (0 : Fin 1) (0 : Fin 1) d) :=
  congrFun (arrAt1_6_eq V c) (ix3 b (0 : Fin 1) d)

end Cert.KernelIdeal.Hop1

end
-- ==== Proof.RegionValue1.lean ====
import proofs.«410490_j37271726195550_3_alg».proof.Proof.Value1
import proofs.«410490_j37271726195550_3_alg».proof.Proof.KernelRead
import proofs.«410490_j37271726195550_3_alg».proof.Proof.Spec3

set_option maxRecDepth 16384

noncomputable section

namespace Cert.KernelIdeal.Hop1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.Hop
open Idealize.ShloMosaic.ValueIdx

section Points

variable {F : FTy → Type} [FloatOps F]
variable (V : (c : Dev nD) → (b : Ref sig .tc) → Buf (Elt F) ((c : Thread nD τ).loc b))

theorem teven1 (b : Fin 32) : 2 * b.val < cfg1.N := by
  have h := b.isLt
  have hN : cfg1.N = 64 := N_1
  omega

def ptA1 (b : Fin 32) : Fin cfg1.N := ⟨2 * b.val, teven1 b⟩

def ptB1 (b : Fin 32) : Fin cfg1.N := ⟨2 * b.val + 1, todd1 b⟩

theorem ptA1_val (b : Fin 32) : (ptA1 b).val = 2 * b.val := rfl

theorem ptB1_val (b : Fin 32) : (ptB1 b).val = 2 * b.val + 1 := rfl

theorem scrAt1_congr (c : Dev nD) {n n' : ℕ} (hn : n < cfg1.N) (hn' : n' < cfg1.N) (h : n = n') :
    scrAt1 V c n hn = scrAt1 V c n' hn' := by
  subst h
  rfl

theorem out1_pair (c : Dev nD) (b : Fin 32) :
    outAt1 V c (2 * b.val + 1) (todd1 b)
      = outB (stepB (grid1.coords (ptB1 b)) (iblk1 V c 1 (ptB1 b)) (iblk1 V c 2 (ptB1 b)) (iblk1 V c 3 (ptB1 b))
          (stepA (grid1.coords (ptA1 b)) (iblk1 V c 0 (ptA1 b)) (iblk1 V c 1 (ptA1 b)) (iblk1 V c 2 (ptA1 b))
            (iblk1 V c 3 (ptA1 b)) (iblk1 V c 4 (ptA1 b))))
          (iblk1 V c 5 (ptB1 b)) := by
  have hodd : (ptB1 b).val % 2 = 1 := by rw [ptB1_val]; omega
  have heven : (ptA1 b).val % 2 = 0 := by rw [ptA1_val]; omega
  have hB := scrAt1_odd V c (ptB1 b) hodd
  have hA := scrAt1_even V c (ptA1 b) heven
  have hAB : scrAt1 V c ((ptB1 b).val - 1) (Nat.lt_of_le_of_lt (Nat.sub_le _ _) (ptB1 b).isLt)
      = scrAt1 V c (ptA1 b).val (ptA1 b).isLt :=
    scrAt1_congr V c _ _ (by rw [ptB1_val, ptA1_val]; omega)
  rw [hAB, hA] at hB
  show outB (scrAt1 V c (ptB1 b).val (ptB1 b).isLt) (iblk1 V c 5 (ptB1 b)) = _
  rw [hB]

end Points

/-- Row b of the hop's output is what the second of the row's two grid points stored, and on real entries that is one hop of the
    specification (`kernelHop_eq_refHop`). -/
theorem region1_value (V : (c : Dev nD) → (b : Ref sig .tc) → Buf (Elt Ideal) ((c : Thread nD τ).loc b)) (c : Dev nD)
    (ta tc : (⟨3, ![3, 2049, 512]⟩ : Shape).Idx → EReal)
    (hk : ∀ j, ∃ x : ℝ, V c main_arg2 j = (x : EReal)) (hv : ∀ j, ∃ x : ℝ, V c main_arg3 j = (x : EReal))
    (hta : Cert.HopMath.IsReal ta) (htc : Cert.HopMath.IsReal tc)
    (hu : ∀ j, ∃ x : ℝ, V c main_v20 j = (x : EReal))
    (hrel : ∀ j, (V c main_arg1 j : BitVec 32).toNat < 2049)
    (hAp : ∀ (t : Fin 2176) (d : Fin 512), V c main_v22 (ix2 t d) = if h : t.val < 2049 then ta (ix3 (1 : Fin 3) ⟨t.val, h⟩ d) else 0)
    (hCp : ∀ (t : Fin 2176) (d : Fin 512), V c main_v24 (ix2 t d) = if h : t.val < 2049 then tc (ix3 (1 : Fin 3) ⟨t.val, h⟩ d) else 0)
    (b : Fin 32) (d : Fin 512) :
    (dat1 V c).arrAt 6 cfg1.N (ix3 b (0 : Fin 1) d)
      = Cert.Spec3.hop (V c main_arg1) (V c main_arg2) (V c main_arg3) ta tc (1 : Fin 3)
          (fun b d => V c main_v20 (ix3 b (0 : Fin 1) d)) b d := by
  have hdA : (⟨(ptA1 b).val / 2, tdiv1 (ptA1 b)⟩ : Fin 32) = b := Fin.ext (by show (ptA1 b).val / 2 = b.val; rw [ptA1_val]; omega)
  have hdB : (⟨(ptB1 b).val / 2, tdiv1 (ptB1 b)⟩ : Fin 32) = b := Fin.ext (by show (ptB1 b).val / 2 = b.val; rw [ptB1_val]; omega)
  have hrA : ∀ m : Fin 1024, (⟨(ptA1 b).val % 2 * 1024 + m.val, trow1 (ptA1 b) m⟩ : Fin 2048) = Fin.castAdd 1024 m :=
    fun m => Fin.ext (by show (ptA1 b).val % 2 * 1024 + m.val = m.val; rw [ptA1_val]; omega)
  have hrB : ∀ m : Fin 1024, (⟨(ptB1 b).val % 2 * 1024 + m.val, trow1 (ptB1 b) m⟩ : Fin 2048) = Fin.natAdd 1024 m :=
    fun m => Fin.ext (by show (ptB1 b).val % 2 * 1024 + m.val = 1024 + m.val; rw [ptB1_val]; omega)
  have hbA : (grid1.coords (ptA1 b) 0).val = b.val := by rw [coords1_0, ptA1_val]; omega
  have hbB : (grid1.coords (ptB1 b) 0).val = b.val := by rw [coords1_0, ptB1_val]; omega
  have key := Cert.HopMath.kernelHop_eq_refHop (nM := 1024) (nD := 512) (nT := 2049) (nTp := 2176) (by decide) (by decide)
    (Cert.Spec3.memOf (V c main_arg2) b (1 : Fin 3))
    (Cert.Spec3.memOf (V c main_arg3) b (1 : Fin 3))
    (Cert.Spec3.tabOf ta (1 : Fin 3))
    (Cert.Spec3.tabOf tc (1 : Fin 3))
    (fun t d' => V c main_v22 (ix2 t d')) (fun t d' => V c main_v24 (ix2 t d'))
    (Cert.Spec3.relOf (V c main_arg1) b) (fun d' => V c main_v20 (ix3 b (0 : Fin 1) d'))
    (fun m t => if t.val = (Cert.Spec3.relOf (V c main_arg1) b (Fin.castAdd 1024 m)).val then 1 else 0)
    (fun m t => if t.val = (Cert.Spec3.relOf (V c main_arg1) b (Fin.natAdd 1024 m)).val then 1 else 0)
    (fun m d' => hk _) (fun m d' => hv _) (fun t d' => hta _) (fun t d' => htc _) (fun d' => hu _)
    (fun t d' => hAp t d') (fun t d' => hCp t d') (fun m t => rfl) (fun m t => rfl) d
  rw [arrAt1_6_apply, out1_pair]
  refine ((outB_apply (grid1.coords (ptA1 b)) (grid1.coords (ptB1 b)) b hbA hbB
    (iblk1 V c 0 (ptA1 b)) (iblk1 V c 1 (ptA1 b)) (iblk1 V c 2 (ptA1 b)) (iblk1 V c 1 (ptB1 b)) (iblk1 V c 2 (ptB1 b))
    (iblk1 V c 3 (ptA1 b)) (iblk1 V c 3 (ptB1 b)) (iblk1 V c 4 (ptA1 b)) (iblk1 V c 5 (ptB1 b)) d).trans
    (kernelHop_congr ?_ ?_ ?_ ?_ ?_ ?_ ?_ ?_ ?_ d)).trans key
  · intro d'
    refine (iblk1_0_apply V c (ptA1 b) d').trans ?_
    rw [hdA]
  · intro m d'
    refine (iblk1_1_apply V c (ptA1 b) m d').trans ?_
    rw [hdA, hrA m]
    rfl
  · intro m d'
    refine (iblk1_1_apply V c (ptB1 b) m d').trans ?_
    rw [hdB, hrB m]
    rfl
  · intro m d'
    refine (iblk1_2_apply V c (ptA1 b) m d').trans ?_
    rw [hdA, hrA m]
    rfl
  · intro m d'
    refine (iblk1_2_apply V c (ptB1 b) m d').trans ?_
    rw [hdB, hrB m]
    rfl
  · intro t d'
    exact iblk1_4_apply V c (ptA1 b) t d'
  · intro t d'
    exact iblk1_5_apply V c (ptB1 b) t d'
  · intro m t
    rw [iblk1_3_apply V c (ptA1 b) b m, hrA m, relOf_val (V c main_arg1) b (Fin.castAdd 1024 m) (hrel _)]
    exact if_congr eq_comm rfl rfl
  · intro m t
    rw [iblk1_3_apply V c (ptB1 b) b m, hrB m, relOf_val (V c main_arg1) b (Fin.natAdd 1024 m) (hrel _)]
    exact if_congr eq_comm rfl rfl

end Cert.KernelIdeal.Hop1

end
-- ==== Proof.Value2.lean ====
import proofs.«410490_j37271726195550_3_alg».proof.Proof.Frame2
import Idealize.ShloMosaic.Lib.Pipeline.Value
import Idealize.ShloMosaic.Lib.ValueIdx

set_option maxRecDepth 16384

noncomputable section

namespace Cert.KernelIdeal.Hop2

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Idealize.ShloMosaic.ValueIdx
variable {F : FTy → Type} [FloatOps F]
variable (V : (c : Dev nD) → (b : Ref sig .tc) → Buf (Elt F) ((c : Thread nD τ).loc b))

theorem coords2_0 (t : Fin cfg2.N) : (grid2.coords t 0).val = t.val / 2 :=
  (by decide +kernel : ∀ t : Fin grid2.N, (grid2.coords t 0).val = t.val / 2) t

theorem coords2_1 (t : Fin cfg2.N) : (grid2.coords t 1).val = t.val % 2 :=
  (by decide +kernel : ∀ t : Fin grid2.N, (grid2.coords t 1).val = t.val % 2) t

theorem tdiv2 (t : Fin cfg2.N) : t.val / 2 < 32 := by
  have h := t.isLt
  have hN : cfg2.N = 64 := N_2
  omega

theorem trow2 (t : Fin cfg2.N) (mm : Fin 1024) : t.val % 2 * 1024 + mm.val < 2048 := by
  have h := mm.isLt
  omega

theorem todd2 (b : Fin 32) : 2 * b.val + 1 < cfg2.N := by
  have h := b.isLt
  have hN : cfg2.N = 64 := N_2
  omega

theorem idx2_0 : ∀ t : Fin cfg2.N, win2_0.index t (0 : Fin S1x1x512.rank) = t.val / 2
    ∧ win2_0.index t (1 : Fin S1x1x512.rank) = 0
    ∧ win2_0.index t (2 : Fin S1x1x512.rank) = 0 :=
  (by decide +kernel : ∀ t : Fin grid2.N, _)

theorem idx2_1 : ∀ t : Fin cfg2.N, win2_1.index t (0 : Fin 4) = t.val / 2
    ∧ win2_1.index t (1 : Fin 4) = ((2 : Fin 3) : Fin 3).val
    ∧ win2_1.index t (2 : Fin 4) = t.val % 2
    ∧ win2_1.index t (3 : Fin 4) = 0 :=
  (by decide +kernel : ∀ t : Fin grid2.N, _)

theorem idx2_2 : ∀ t : Fin cfg2.N, win2_2.index t (0 : Fin 4) = t.val / 2
    ∧ win2_2.index t (1 : Fin 4) = ((2 : Fin 3) : Fin 3).val
    ∧ win2_2.index t (2 : Fin 4) = t.val % 2
    ∧ win2_2.index t (3 : Fin 4) = 0 :=
  (by decide +kernel : ∀ t : Fin grid2.N, _)

theorem idx2_3 : ∀ t : Fin cfg2.N, win2_3.index t (0 : Fin 2) = 0
    ∧ win2_3.index t (1 : Fin 2) = t.val % 2 :=
  (by decide +kernel : ∀ t : Fin grid2.N, _)

theorem idx2_4 : ∀ t : Fin cfg2.N, win2_4.index t (0 : Fin 2) = 0
    ∧ win2_4.index t (1 : Fin 2) = 0 :=
  (by decide +kernel : ∀ t : Fin grid2.N, _)

theorem idx2_5 : ∀ t : Fin cfg2.N, win2_5.index t (0 : Fin 2) = 0
    ∧ win2_5.index t (1 : Fin 2) = 0 :=
  (by decide +kernel : ∀ t : Fin grid2.N, _)

theorem idx2_6 : ∀ t : Fin cfg2.N, win2_6.index t (0 : Fin S1x1x512.rank) = t.val / 2
    ∧ win2_6.index t (1 : Fin S1x1x512.rank) = 0
    ∧ win2_6.index t (2 : Fin S1x1x512.rank) = 0 :=
  (by decide +kernel : ∀ t : Fin grid2.N, _)

theorem iblk2_0_apply (c : Dev nD) (t : Fin cfg2.N) (d : Fin 512) :
    iblk2 V c 0 t (ix3 (0 : Fin 1) (0 : Fin 1) d) = V c main_v25 (ix3 (⟨t.val / 2, tdiv2 t⟩ : Fin 32) (0 : Fin 1) d) := by
  obtain ⟨e1, e2, e3⟩ := idx2_0 t
  unfold iblk2
  rw [View.read_apply]
  show V c main_v25 (((cfg2.win 0).blk t).view.emb (ix3 (0 : Fin 1) (0 : Fin 1) d)) = V c main_v25 _
  congr 1
  funext a
  apply Fin.ext
  match a with
  | ⟨0, _⟩ => show win2_0.index t (0 : Fin S1x1x512.rank) * 1 + 1 * 0 = t.val / 2; omega
  | ⟨1, _⟩ => show win2_0.index t (1 : Fin S1x1x512.rank) * 1 + 1 * 0 = 0; omega
  | ⟨2, _⟩ => show win2_0.index t (2 : Fin S1x1x512.rank) * 512 + 1 * d.val = d.val; omega

theorem iblk2_1_apply (c : Dev nD) (t : Fin cfg2.N) (mm : Fin 1024) (d : Fin 512) :
    iblk2 V c 1 t (ix4 (0 : Fin 1) (0 : Fin 1) mm d)
      = V c main_arg2 (ix4 (⟨t.val / 2, tdiv2 t⟩ : Fin 32)
          (2 : Fin 3)
          (⟨t.val % 2 * 1024 + mm.val, trow2 t mm⟩ : Fin 2048) d) := by
  obtain ⟨e1, e2, e3, e4⟩ := idx2_1 t
  unfold iblk2
  rw [View.read_apply]
  show V c main_arg2 (((cfg2.win 1).blk t).view.emb (ix4 (0 : Fin 1) (0 : Fin 1) mm d)) = V c main_arg2 _
  congr 1
  funext a
  apply Fin.ext
  match a with
  | ⟨0, _⟩ => show win2_1.index t (0 : Fin 4) * 1 + 1 * 0 = t.val / 2; omega
  | ⟨1, _⟩ => show win2_1.index t (1 : Fin 4) * 1 + 1 * 0 = _; rw [e2]; rfl
  | ⟨2, _⟩ => show win2_1.index t (2 : Fin 4) * 1024 + 1 * mm.val = t.val % 2 * 1024 + mm.val; omega
  | ⟨3, _⟩ => show win2_1.index t (3 : Fin 4) * 512 + 1 * d.val = d.val; omega

theorem iblk2_2_apply (c : Dev nD) (t : Fin cfg2.N) (mm : Fin 1024) (d : Fin 512) :
    iblk2 V c 2 t (ix4 (0 : Fin 1) (0 : Fin 1) mm d)
      = V c main_arg3 (ix4 (⟨t.val / 2, tdiv2 t⟩ : Fin 32)
          (2 : Fin 3)
          (⟨t.val % 2 * 1024 + mm.val, trow2 t mm⟩ : Fin 2048) d) := by
  obtain ⟨e1, e2, e3, e4⟩ := idx2_2 t
  unfold iblk2
  rw [View.read_apply]
  show V c main_arg3 (((cfg2.win 2).blk t).view.emb (ix4 (0 : Fin 1) (0 : Fin 1) mm d)) = V c main_arg3 _
  congr 1
  funext a
  apply Fin.ext
  match a with
  | ⟨0, _⟩ => show win2_2.index t (0 : Fin 4) * 1 + 1 * 0 = t.val / 2; omega
  | ⟨1, _⟩ => show win2_2.index t (1 : Fin 4) * 1 + 1 * 0 = _; rw [e2]; rfl
  | ⟨2, _⟩ => show win2_2.index t (2 : Fin 4) * 1024 + 1 * mm.val = t.val % 2 * 1024 + mm.val; omega
  | ⟨3, _⟩ => show win2_2.index t (3 : Fin 4) * 512 + 1 * d.val = d.val; omega

theorem iblk2_3_apply (c : Dev nD) (t : Fin cfg2.N) (b' : Fin 32) (mm : Fin 1024) :
    iblk2 V c 3 t (ix2 b' mm) = V c main_arg1 (ix2 b' (⟨t.val % 2 * 1024 + mm.val, trow2 t mm⟩ : Fin 2048)) := by
  obtain ⟨e1, e2⟩ := idx2_3 t
  unfold iblk2
  rw [View.read_apply]
  show V c main_arg1 (((cfg2.win 3).blk t).view.emb (ix2 b' mm)) = V c main_arg1 _
  congr 1
  funext a
  apply Fin.ext
  match a with
  | ⟨0, _⟩ => show win2_3.index t (0 : Fin 2) * 32 + 1 * b'.val = b'.val; omega
  | ⟨1, _⟩ => show win2_3.index t (1 : Fin 2) * 1024 + 1 * mm.val = t.val % 2 * 1024 + mm.val; omega

theorem iblk2_4_apply (c : Dev nD) (t : Fin cfg2.N) (tt : Fin 2176) (d : Fin 512) :
    iblk2 V c 4 t (ix2 tt d) = V c main_v27 (ix2 tt d) := by
  obtain ⟨e1, e2⟩ := idx2_4 t
  unfold iblk2
  rw [View.read_apply]
  show V c main_v27 (((cfg2.win 4).blk t).view.emb (ix2 tt d)) = V c main_v27 _
  congr 1
  funext a
  apply Fin.ext
  match a with
  | ⟨0, _⟩ => show win2_4.index t (0 : Fin 2) * 2176 + 1 * tt.val = tt.val; omega
  | ⟨1, _⟩ => show win2_4.index t (1 : Fin 2) * 512 + 1 * d.val = d.val; omega

theorem iblk2_5_apply (c : Dev nD) (t : Fin cfg2.N) (tt : Fin 2176) (d : Fin 512) :
    iblk2 V c 5 t (ix2 tt d) = V c main_v29 (ix2 tt d) := by
  obtain ⟨e1, e2⟩ := idx2_5 t
  unfold iblk2
  rw [View.read_apply]
  show V c main_v29 (((cfg2.win 5).blk t).view.emb (ix2 tt d)) = V c main_v29 _
  congr 1
  funext a
  apply Fin.ext
  match a with
  | ⟨0, _⟩ => show win2_5.index t (0 : Fin 2) * 2176 + 1 * tt.val = tt.val; omega
  | ⟨1, _⟩ => show win2_5.index t (1 : Fin 2) * 512 + 1 * d.val = d.val; omega

theorem outAt2_congr (c : Dev nD) {n n' : ℕ} (hn : n < cfg2.N) (hn' : n' < cfg2.N) (h : n = n')
    {j j' : S1x1x512.Idx} (hj : j = j') : outAt2 V c n hn j = outAt2 V c n' hn' j' := by
  subst h
  subst hj
  rfl

def outArr2 (c : Dev nD) : Vec F S32x1x512 .f32 :=
  fun i => outAt2 V c (2 * (i 0).val + 1) (todd2 (i 0)) (ix3 (0 : Fin 1) (0 : Fin 1) (i 2))

theorem read2_6 (c : Dev nD) (t : Fin cfg2.N) (ht : t.val % 2 = 1) (y : S1x1x512.Idx) :
    ((cfg2.win 6).blk t).view.read (Elt F) (outArr2 V c) y = outAt2 V c t.val t.isLt y := by
  obtain ⟨e1, e2, e3⟩ := idx2_6 t
  obtain ⟨p, q, r, rfl⟩ : ∃ (p : Fin 1) (q : Fin 1) (r : Fin 512), y = ix3 p q r := ⟨y 0, y 1, y 2, eq_ix3 y⟩
  obtain rfl : p = 0 := Subsingleton.elim _ _
  obtain rfl : q = 0 := Subsingleton.elim _ _
  rw [View.read_apply]
  show outArr2 V c (((cfg2.win 6).blk t).view.emb (ix3 (0 : Fin 1) (0 : Fin 1) r)) = _
  unfold outArr2
  refine outAt2_congr V c _ _ ?_ (congrArg (ix3 (0 : Fin 1) (0 : Fin 1)) (Fin.ext ?_))
  · show 2 * (win2_6.index t (0 : Fin S1x1x512.rank) * 1 + 1 * 0) + 1 = t.val
    omega
  · show win2_6.index t (2 : Fin S1x1x512.rank) * 512 + 1 * r.val = r.val
    omega

theorem flushed2_6_eq (c : Dev nD) (t : Fin cfg2.N) (hf : (cfg2.win 6).flush t = true) :
    (dat2 V c).flushed 6 t = ((cfg2.win 6).blk t).view.read (Elt F) (outArr2 V c) := by
  have ht : t.val % 2 = 1 := (flush2_6 t).mp hf
  show (cfg2.win 6).cut (grid2.coords t) ((dat2 V c).after 6 t) = _
  rw [after2_6]
  funext y
  exact (read2_6 V c t ht y).symm

theorem memblk2_6 (t : Fin cfg2.N) (i : S32x1x512.Idx) :
    i ∈ ((cfg2.win 6).blk t).view.set ↔ ∀ a : Fin 3, win2_6.index t a * S1x1x512.size a ≤ (i a).val
      ∧ (i a).val < win2_6.index t a * S1x1x512.size a + S1x1x512.size a := by
  show i ∈ ((View.whole main_v30).slice (win2_6.rect t)).set ↔ _
  rw [View.set_slice_whole, Rect.mem_set_unit]
  exact Iff.rfl

theorem cover2_6 (i : S32x1x512.Idx) :
    ∃ t : Fin cfg2.N, (cfg2.win 6).flush t = true ∧ i ∈ ((cfg2.win 6).blk t).view.set := by
  have hA : (i 0).val < 32 := (i 0).isLt
  have hB : (i 1).val < 1 := (i 1).isLt
  have hC : (i 2).val < 512 := (i 2).isLt
  refine ⟨⟨2 * (i 0).val + 1, todd2 (i 0)⟩, (flush2_6 _).mpr (by show (2 * (i 0).val + 1) % 2 = 1; omega), ?_⟩
  obtain ⟨e1, e2, e3⟩ := idx2_6 ⟨2 * (i 0).val + 1, todd2 (i 0)⟩
  have eA : win2_6.index ⟨2 * (i 0).val + 1, todd2 (i 0)⟩ (0 : Fin S1x1x512.rank) = (2 * (i 0).val + 1) / 2 := e1
  rw [memblk2_6]
  intro a
  match a with
  | ⟨0, _⟩ =>
    show win2_6.index ⟨2 * (i 0).val + 1, todd2 (i 0)⟩ (0 : Fin S1x1x512.rank) * 1 ≤ (i 0).val
      ∧ (i 0).val < win2_6.index ⟨2 * (i 0).val + 1, todd2 (i 0)⟩ (0 : Fin S1x1x512.rank) * 1 + 1
    omega
  | ⟨1, _⟩ =>
    show win2_6.index ⟨2 * (i 0).val + 1, todd2 (i 0)⟩ (1 : Fin S1x1x512.rank) * 1 ≤ (i 1).val
      ∧ (i 1).val < win2_6.index ⟨2 * (i 0).val + 1, todd2 (i 0)⟩ (1 : Fin S1x1x512.rank) * 1 + 1
    omega
  | ⟨2, _⟩ =>
    show win2_6.index ⟨2 * (i 0).val + 1, todd2 (i 0)⟩ (2 : Fin S1x1x512.rank) * 512 ≤ (i 2).val
      ∧ (i 2).val < win2_6.index ⟨2 * (i 0).val + 1, todd2 (i 0)⟩ (2 : Fin S1x1x512.rank) * 512 + 512
    omega

theorem arrAt2_6_eq (c : Dev nD) : (dat2 V c).arrAt 6 cfg2.N = outArr2 V c :=
  (dat2 V c).arrAt_eq_of_cover 6 (outArr2 V c) (fun t hf => flushed2_6_eq V c t hf) (cover2_6)

theorem arrAt2_6_apply (c : Dev nD) (b : Fin 32) (d : Fin 512) :
    (dat2 V c).arrAt 6 cfg2.N (ix3 b (0 : Fin 1) d)
      = outAt2 V c (2 * b.val + 1) (todd2 b) (ix3 (0 : Fin 1) (0 : Fin 1) d) :=
  congrFun (arrAt2_6_eq V c) (ix3 b (0 : Fin 1) d)

end Cert.KernelIdeal.Hop2

end
-- ==== Proof.RegionValue2.lean ====
import proofs.«410490_j37271726195550_3_alg».proof.Proof.Value2
import proofs.«410490_j37271726195550_3_alg».proof.Proof.KernelRead
import proofs.«410490_j37271726195550_3_alg».proof.Proof.Spec3

set_option maxRecDepth 16384

noncomputable section

namespace Cert.KernelIdeal.Hop2

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.Hop
open Idealize.ShloMosaic.ValueIdx

section Points

variable {F : FTy → Type} [FloatOps F]
variable (V : (c : Dev nD) → (b : Ref sig .tc) → Buf (Elt F) ((c : Thread nD τ).loc b))

theorem teven2 (b : Fin 32) : 2 * b.val < cfg2.N := by
  have h := b.isLt
  have hN : cfg2.N = 64 := N_2
  omega

def ptA2 (b : Fin 32) : Fin cfg2.N := ⟨2 * b.val, teven2 b⟩

def ptB2 (b : Fin 32) : Fin cfg2.N := ⟨2 * b.val + 1, todd2 b⟩

theorem ptA2_val (b : Fin 32) : (ptA2 b).val = 2 * b.val := rfl

theorem ptB2_val (b : Fin 32) : (ptB2 b).val = 2 * b.val + 1 := rfl

theorem scrAt2_congr (c : Dev nD) {n n' : ℕ} (hn : n < cfg2.N) (hn' : n' < cfg2.N) (h : n = n') :
    scrAt2 V c n hn = scrAt2 V c n' hn' := by
  subst h
  rfl

theorem out2_pair (c : Dev nD) (b : Fin 32) :
    outAt2 V c (2 * b.val + 1) (todd2 b)
      = outB (stepB (grid2.coords (ptB2 b)) (iblk2 V c 1 (ptB2 b)) (iblk2 V c 2 (ptB2 b)) (iblk2 V c 3 (ptB2 b))
          (stepA (grid2.coords (ptA2 b)) (iblk2 V c 0 (ptA2 b)) (iblk2 V c 1 (ptA2 b)) (iblk2 V c 2 (ptA2 b))
            (iblk2 V c 3 (ptA2 b)) (iblk2 V c 4 (ptA2 b))))
          (iblk2 V c 5 (ptB2 b)) := by
  have hodd : (ptB2 b).val % 2 = 1 := by rw [ptB2_val]; omega
  have heven : (ptA2 b).val % 2 = 0 := by rw [ptA2_val]; omega
  have hB := scrAt2_odd V c (ptB2 b) hodd
  have hA := scrAt2_even V c (ptA2 b) heven
  have hAB : scrAt2 V c ((ptB2 b).val - 1) (Nat.lt_of_le_of_lt (Nat.sub_le _ _) (ptB2 b).isLt)
      = scrAt2 V c (ptA2 b).val (ptA2 b).isLt :=
    scrAt2_congr V c _ _ (by rw [ptB2_val, ptA2_val]; omega)
  rw [hAB, hA] at hB
  show outB (scrAt2 V c (ptB2 b).val (ptB2 b).isLt) (iblk2 V c 5 (ptB2 b)) = _
  rw [hB]

end Points

/-- Row b of the hop's output is what the second of the row's two grid points stored, and on real entries that is one hop of the
    specification (`kernelHop_eq_refHop`). -/
theorem region2_value (V : (c : Dev nD) → (b : Ref sig .tc) → Buf (Elt Ideal) ((c : Thread nD τ).loc b)) (c : Dev nD)
    (ta tc : (⟨3, ![3, 2049, 512]⟩ : Shape).Idx → EReal)
    (hk : ∀ j, ∃ x : ℝ, V c main_arg2 j = (x : EReal)) (hv : ∀ j, ∃ x : ℝ, V c main_arg3 j = (x : EReal))
    (hta : Cert.HopMath.IsReal ta) (htc : Cert.HopMath.IsReal tc)
    (hu : ∀ j, ∃ x : ℝ, V c main_v25 j = (x : EReal))
    (hrel : ∀ j, (V c main_arg1 j : BitVec 32).toNat < 2049)
    (hAp : ∀ (t : Fin 2176) (d : Fin 512), V c main_v27 (ix2 t d) = if h : t.val < 2049 then ta (ix3 (2 : Fin 3) ⟨t.val, h⟩ d) else 0)
    (hCp : ∀ (t : Fin 2176) (d : Fin 512), V c main_v29 (ix2 t d) = if h : t.val < 2049 then tc (ix3 (2 : Fin 3) ⟨t.val, h⟩ d) else 0)
    (b : Fin 32) (d : Fin 512) :
    (dat2 V c).arrAt 6 cfg2.N (ix3 b (0 : Fin 1) d)
      = Cert.Spec3.hop (V c main_arg1) (V c main_arg2) (V c main_arg3) ta tc (2 : Fin 3)
          (fun b d => V c main_v25 (ix3 b (0 : Fin 1) d)) b d := by
  have hdA : (⟨(ptA2 b).val / 2, tdiv2 (ptA2 b)⟩ : Fin 32) = b := Fin.ext (by show (ptA2 b).val / 2 = b.val; rw [ptA2_val]; omega)
  have hdB : (⟨(ptB2 b).val / 2, tdiv2 (ptB2 b)⟩ : Fin 32) = b := Fin.ext (by show (ptB2 b).val / 2 = b.val; rw [ptB2_val]; omega)
  have hrA : ∀ m : Fin 1024, (⟨(ptA2 b).val % 2 * 1024 + m.val, trow2 (ptA2 b) m⟩ : Fin 2048) = Fin.castAdd 1024 m :=
    fun m => Fin.ext (by show (ptA2 b).val % 2 * 1024 + m.val = m.val; rw [ptA2_val]; omega)
  have hrB : ∀ m : Fin 1024, (⟨(ptB2 b).val % 2 * 1024 + m.val, trow2 (ptB2 b) m⟩ : Fin 2048) = Fin.natAdd 1024 m :=
    fun m => Fin.ext (by show (ptB2 b).val % 2 * 1024 + m.val = 1024 + m.val; rw [ptB2_val]; omega)
  have hbA : (grid2.coords (ptA2 b) 0).val = b.val := by rw [coords2_0, ptA2_val]; omega
  have hbB : (grid2.coords (ptB2 b) 0).val = b.val := by rw [coords2_0, ptB2_val]; omega
  have key := Cert.HopMath.kernelHop_eq_refHop (nM := 1024) (nD := 512) (nT := 2049) (nTp := 2176) (by decide) (by decide)
    (Cert.Spec3.memOf (V c main_arg2) b (2 : Fin 3))
    (Cert.Spec3.memOf (V c main_arg3) b (2 : Fin 3))
    (Cert.Spec3.tabOf ta (2 : Fin 3))
    (Cert.Spec3.tabOf tc (2 : Fin 3))
    (fun t d' => V c main_v27 (ix2 t d')) (fun t d' => V c main_v29 (ix2 t d'))
    (Cert.Spec3.relOf (V c main_arg1) b) (fun d' => V c main_v25 (ix3 b (0 : Fin 1) d'))
    (fun m t => if t.val = (Cert.Spec3.relOf (V c main_arg1) b (Fin.castAdd 1024 m)).val then 1 else 0)
    (fun m t => if t.val = (Cert.Spec3.relOf (V c main_arg1) b (Fin.natAdd 1024 m)).val then 1 else 0)
    (fun m d' => hk _) (fun m d' => hv _) (fun t d' => hta _) (fun t d' => htc _) (fun d' => hu _)
    (fun t d' => hAp t d') (fun t d' => hCp t d') (fun m t => rfl) (fun m t => rfl) d
  rw [arrAt2_6_apply, out2_pair]
  refine ((outB_apply (grid2.coords (ptA2 b)) (grid2.coords (ptB2 b)) b hbA hbB
    (iblk2 V c 0 (ptA2 b)) (iblk2 V c 1 (ptA2 b)) (iblk2 V c 2 (ptA2 b)) (iblk2 V c 1 (ptB2 b)) (iblk2 V c 2 (ptB2 b))
    (iblk2 V c 3 (ptA2 b)) (iblk2 V c 3 (ptB2 b)) (iblk2 V c 4 (ptA2 b)) (iblk2 V c 5 (ptB2 b)) d).trans
    (kernelHop_congr ?_ ?_ ?_ ?_ ?_ ?_ ?_ ?_ ?_ d)).trans key
  · intro d'
    refine (iblk2_0_apply V c (ptA2 b) d').trans ?_
    rw [hdA]
  · intro m d'
    refine (iblk2_1_apply V c (ptA2 b) m d').trans ?_
    rw [hdA, hrA m]
    rfl
  · intro m d'
    refine (iblk2_1_apply V c (ptB2 b) m d').trans ?_
    rw [hdB, hrB m]
    rfl
  · intro m d'
    refine (iblk2_2_apply V c (ptA2 b) m d').trans ?_
    rw [hdA, hrA m]
    rfl
  · intro m d'
    refine (iblk2_2_apply V c (ptB2 b) m d').trans ?_
    rw [hdB, hrB m]
    rfl
  · intro t d'
    exact iblk2_4_apply V c (ptA2 b) t d'
  · intro t d'
    exact iblk2_5_apply V c (ptB2 b) t d'
  · intro m t
    rw [iblk2_3_apply V c (ptA2 b) b m, hrA m, relOf_val (V c main_arg1) b (Fin.castAdd 1024 m) (hrel _)]
    exact if_congr eq_comm rfl rfl
  · intro m t
    rw [iblk2_3_apply V c (ptB2 b) b m, hrB m, relOf_val (V c main_arg1) b (Fin.natAdd 1024 m) (hrel _)]
    exact if_congr eq_comm rfl rfl

end Cert.KernelIdeal.Hop2

end
-- ==== Proof.KernelChain.lean ====
import proofs.«410490_j37271726195550_3_alg».proof.Proof.HostSide
import proofs.«410490_j37271726195550_3_alg».proof.Proof.Spec3
import proofs.«410490_j37271726195550_3_alg».proof.Proof.RegionValue0
import proofs.«410490_j37271726195550_3_alg».proof.Proof.RegionValue1
import proofs.«410490_j37271726195550_3_alg».proof.Proof.RegionValue2
import proofs.«410490_j37271726195550_3_alg».proof.Proof.Regions

noncomputable section

namespace Cert.KernelIdeal.Chain

open Idealize.ShloMosaic Idealize.ShloMosaic.TcCoe Idealize.ShloMosaic.ValueIdx
open Idealize.SL.Sem
open Cert.KernelIdeal Cert.KernelIdeal.Gen
open Cert.HopMath (IsReal)

abbrev Vals : Type := (c : Dev nD) → (b : Ref sig .tc) → Buf (Elt Ideal) ((c : Thread nD τ).loc b)

theorem eq_ix3_mid (j : S32x1x512.Idx) : j = ix3 (j 0) (0 : Fin 1) (j 2) := by
  have h := eq_ix3 j
  have e : j 1 = (0 : Fin 1) := Fin.ext (by have h1 : (j 1).val < 1 := (j 1).isLt; show (j 1).val = 0; omega)
  rw [e] at h
  exact h

theorem exists_ix3_mid (j : S32x1x512.Idx) : ∃ (b : Fin 32) (d : Fin 512), j = ix3 b (0 : Fin 1) d :=
  ⟨j 0, j 2, eq_ix3_mid j⟩

section

variable [Cert.Pre_finite_inputs.Facts]
variable (m : (ℓ : Loc nD τ sig) → Buf (Elt Ideal) ℓ) (hpre : ∀ c : Dev nD, Cert.Pre_finite_inputs.fn (F := Ideal) (m ((c.tc : Thread nD τ).loc main_arg0))
      (m ((c.tc : Thread nD τ).loc main_arg1)) (m ((c.tc : Thread nD τ).loc main_arg2)) (m ((c.tc : Thread nD τ).loc main_arg3))
      (m ((c.tc : Thread nD τ).loc main_arg4)) (m ((c.tc : Thread nD τ).loc main_arg5)) (m ((c.tc : Thread nD τ).loc main_arg6))
      (m ((c.tc : Thread nD τ).loc main_arg7)) = fun _ => 1#1)
  (c : Dev nD)

def uZero : Fin 32 → Fin 512 → EReal := fun b d => (HostVals.u0T (fun r => m (c, r)) : S32x1x512.Idx → EReal) (ix3 b (0 : Fin 1) d)

def hopM (i : Fin 3) (u : Fin 32 → Fin 512 → EReal) : Fin 32 → Fin 512 → EReal :=
  Cert.Spec3.hop (m ((c : Thread nD τ).loc main_arg1)) (m ((c : Thread nD τ).loc main_arg2)) (m ((c : Thread nD τ).loc main_arg3))
    (m ((c : Thread nD τ).loc main_arg5)) (m ((c : Thread nD τ).loc main_arg6)) i u
include hpre in
theorem pre_facts :
    IsReal (m ((c : Thread nD τ).loc main_arg2) : S32x3x2048x512.Idx → EReal)
      ∧ IsReal (m ((c : Thread nD τ).loc main_arg3) : S32x3x2048x512.Idx → EReal)
      ∧ IsReal (m ((c : Thread nD τ).loc main_arg4) : S32000x512.Idx → EReal)
      ∧ IsReal (m ((c : Thread nD τ).loc main_arg5) : S3x2049x512.Idx → EReal)
      ∧ IsReal (m ((c : Thread nD τ).loc main_arg6) : S3x2049x512.Idx → EReal)
      ∧ IsReal (m ((c : Thread nD τ).loc main_arg7) : S32x512.Idx → EReal)
      ∧ ∀ j, ((m ((c : Thread nD τ).loc main_arg1) : S32x2048.Idx → BitVec 32) j).toNat < 2049 :=
  Cert.PreFacts.pre_decode _ _ _ _ _ _ _ _ (hpre c)
include hpre in
theorem uZero_real (b : Fin 32) : IsReal (uZero m c b) := fun d =>
  HostVals.u0T_real (fun r => m (c, r)) (pre_facts m hpre c).2.2.1 (pre_facts m hpre c).2.2.2.2.2.1 b d
include hpre in
theorem hopM_real (i : Fin 3) (u : Fin 32 → Fin 512 → EReal) (hu : ∀ b, IsReal (u b)) (b : Fin 32) : IsReal (hopM m c i u b) :=
  Cert.Spec3.hop_real _ _ _ _ _ (pre_facts m hpre c).1 (pre_facts m hpre c).2.1 (pre_facts m hpre c).2.2.2.1
    (pre_facts m hpre c).2.2.2.2.1 i u hu b

variable (outs : Gen.Outs (F := Ideal))
  (hoA : ∀ c, outs 6 main_v20 c = (Hop0.dat0 (fun c b => Gen.V5 m c b) c).arrAt 6 cfg0.N)
  (hoB : ∀ c, outs 8 main_v25 c = (Hop1.dat1 (fun c b => Gen.V7 m outs c b) c).arrAt 6 cfg1.N)
  (hoC : ∀ c, outs 10 main_v30 c = (Hop2.dat2 (fun c b => Gen.V9 m outs c b) c).arrAt 6 cfg2.N)
include hpre hoA in
theorem first_value (b : Fin 32) (d : Fin 512) :
    (outs 6 main_v20 c : S32x1x512.Idx → EReal) (ix3 b (0 : Fin 1) d) = hopM m c 0 (uZero m c) b d := by
  obtain ⟨h2, h3, h4, h5, h6, h7, h1⟩ := pre_facts m hpre c
  have h := Hop0.region0_value (fun c b => Gen.V5 m c b) c (m ((c : Thread nD τ).loc main_arg5)) (m ((c : Thread nD τ).loc main_arg6))
    (by intro j; rw [HostVals.V5_main_arg2 m c]; exact h2 j)
    (by intro j; rw [HostVals.V5_main_arg3 m c]; exact h3 j)
    h5 h6
    (by
      intro j
      obtain ⟨b', d', rfl⟩ := exists_ix3_mid j
      rw [HostVals.v11_eq m c]
      exact HostVals.u0T_real (fun r => m (c, r)) h4 h7 b' d')
    (by intro j; rw [HostVals.V5_main_arg1 m c]; exact h1 j)
    (fun t d => HostVals.v17_apply m c t d) (fun t d => HostVals.v19_apply m c t d) b d
  rw [hoA c]
  refine h.trans ?_
  show Cert.Spec3.hop (Gen.V5 m c main_arg1) (Gen.V5 m c main_arg2) (Gen.V5 m c main_arg3) _ _ 0
    (fun b d => (Gen.V5 m c main_v11 : S32x1x512.Idx → EReal) (ix3 b (0 : Fin 1) d)) b d = _
  rw [HostVals.V5_main_arg1 m c, HostVals.V5_main_arg2 m c, HostVals.V5_main_arg3 m c, HostVals.v11_eq m c]
  rfl
include hpre hoA hoB in
theorem second_value (b : Fin 32) (d : Fin 512) :
    (outs 8 main_v25 c : S32x1x512.Idx → EReal) (ix3 b (0 : Fin 1) d) = hopM m c 1 (hopM m c 0 (uZero m c)) b d := by
  obtain ⟨h2, h3, h4, h5, h6, h7, h1⟩ := pre_facts m hpre c
  have hq : ∀ (b : Fin 32) (d : Fin 512), (Gen.V7 m outs c main_v20 : S32x1x512.Idx → EReal) (ix3 b (0 : Fin 1) d)
      = hopM m c 0 (uZero m c) b d := by
    intro b d
    rw [HostVals.V7_main_v20 m outs c]
    exact first_value m hpre c outs hoA b d
  have h := Hop1.region1_value (fun c b => Gen.V7 m outs c b) c (m ((c : Thread nD τ).loc main_arg5)) (m ((c : Thread nD τ).loc main_arg6))
    (by intro j; rw [HostVals.V7_main_arg2 m outs c]; exact h2 j)
    (by intro j; rw [HostVals.V7_main_arg3 m outs c]; exact h3 j)
    h5 h6
    (by
      intro j
      obtain ⟨b', d', rfl⟩ := exists_ix3_mid j
      obtain ⟨x, hx⟩ := hopM_real m hpre c 0 _ (uZero_real m hpre c) b' d'
      exact ⟨x, (hq b' d').trans hx⟩)
    (by intro j; rw [HostVals.V7_main_arg1 m outs c]; exact h1 j)
    (fun t d => HostVals.v22_apply m outs c t d) (fun t d => HostVals.v24_apply m outs c t d) b d
  rw [hoB c]
  refine h.trans ?_
  show Cert.Spec3.hop (Gen.V7 m outs c main_arg1) (Gen.V7 m outs c main_arg2) (Gen.V7 m outs c main_arg3) _ _ 1
    (fun b d => (Gen.V7 m outs c main_v20 : S32x1x512.Idx → EReal) (ix3 b (0 : Fin 1) d)) b d = _
  rw [HostVals.V7_main_arg1 m outs c, HostVals.V7_main_arg2 m outs c, HostVals.V7_main_arg3 m outs c,
    show (fun b d => (Gen.V7 m outs c main_v20 : S32x1x512.Idx → EReal) (ix3 b (0 : Fin 1) d)) = hopM m c 0 (uZero m c) from
      funext fun b => funext fun d => hq b d]
  rfl
include hpre hoA hoB hoC in
theorem third_value (b : Fin 32) (d : Fin 512) :
    (outs 10 main_v30 c : S32x1x512.Idx → EReal) (ix3 b (0 : Fin 1) d)
      = hopM m c 2 (hopM m c 1 (hopM m c 0 (uZero m c))) b d := by
  obtain ⟨h2, h3, h4, h5, h6, h7, h1⟩ := pre_facts m hpre c
  have hq : ∀ (b : Fin 32) (d : Fin 512), (Gen.V9 m outs c main_v25 : S32x1x512.Idx → EReal) (ix3 b (0 : Fin 1) d)
      = hopM m c 1 (hopM m c 0 (uZero m c)) b d := by
    intro b d
    rw [HostVals.V9_main_v25 m outs c]
    exact second_value m hpre c outs hoA hoB b d
  have h := Hop2.region2_value (fun c b => Gen.V9 m outs c b) c (m ((c : Thread nD τ).loc main_arg5)) (m ((c : Thread nD τ).loc main_arg6))
    (by intro j; rw [HostVals.V9_main_arg2 m outs c]; exact h2 j)
    (by intro j; rw [HostVals.V9_main_arg3 m outs c]; exact h3 j)
    h5 h6
    (by
      intro j
      obtain ⟨b', d', rfl⟩ := exists_ix3_mid j
      obtain ⟨x, hx⟩ := hopM_real m hpre c 1 _ (hopM_real m hpre c 0 _ (uZero_real m hpre c)) b' d'
      exact ⟨x, (hq b' d').trans hx⟩)
    (by intro j; rw [HostVals.V9_main_arg1 m outs c]; exact h1 j)
    (fun t d => HostVals.v27_apply m outs c t d) (fun t d => HostVals.v29_apply m outs c t d) b d
  rw [hoC c]
  refine h.trans ?_
  show Cert.Spec3.hop (Gen.V9 m outs c main_arg1) (Gen.V9 m outs c main_arg2) (Gen.V9 m outs c main_arg3) _ _ 2
    (fun b d => (Gen.V9 m outs c main_v25 : S32x1x512.Idx → EReal) (ix3 b (0 : Fin 1) d)) b d = _
  rw [HostVals.V9_main_arg1 m outs c, HostVals.V9_main_arg2 m outs c, HostVals.V9_main_arg3 m outs c,
    show (fun b d => (Gen.V9 m outs c main_v25 : S32x1x512.Idx → EReal) (ix3 b (0 : Fin 1) d))
        = hopM m c 1 (hopM m c 0 (uZero m c)) from funext fun b => funext fun d => hq b d]
  rfl
include hpre hoA hoB hoC in
/-- The three hops chain: each hop's query is the previous hop's result, and real entries stay real. -/
theorem chain_value (b : Fin 32) (d : Fin 512) :
    (outs 10 main_v30 c : S32x1x512.Idx → EReal) (ix3 b (0 : Fin 1) d)
      = Cert.Spec3.result (m ((c.tc : Thread nD τ).loc main_arg1)) (m ((c.tc : Thread nD τ).loc main_arg2))
          (m ((c.tc : Thread nD τ).loc main_arg3)) (m ((c.tc : Thread nD τ).loc main_arg5)) (m ((c.tc : Thread nD τ).loc main_arg6))
          (fun b d => (HostVals.u0T (fun r => m (c, r)) : S32x1x512.Idx → EReal) (ix3 b (0 : Fin 1) d)) b d :=
  third_value m hpre c outs hoA hoB hoC b d
omit c in
include hpre in
theorem kernel_value (c : Dev nD) (b : Fin 32) (d : Fin 512) :
    (Run.outs (F := Ideal) m 10 main_v30 c : S32x1x512.Idx → EReal) (ix3 b (0 : Fin 1) d)
      = Cert.Spec3.result (m ((c.tc : Thread nD τ).loc main_arg1)) (m ((c.tc : Thread nD τ).loc main_arg2))
          (m ((c.tc : Thread nD τ).loc main_arg3)) (m ((c.tc : Thread nD τ).loc main_arg5)) (m ((c.tc : Thread nD τ).loc main_arg6))
          (fun b d => (HostVals.u0T (fun r => m (c, r)) : S32x1x512.Idx → EReal) (ix3 b (0 : Fin 1) d)) b d :=
  chain_value m hpre c (Run.outs m) (fun c => Run.outs_6 m c) (fun c => Run.outs_8 m c) (fun c => Run.outs_10 m c) b d

end

end Cert.KernelIdeal.Chain

end
-- ==== Proof.Bridge.lean ====
import proofs.«410490_j37271726195550_3_alg».proof.Defs
import proofs.«410490_j37271726195550_3_alg».proof.Proof.Gen.KernelIdeal
import proofs.«410490_j37271726195550_3_alg».proof.Proof.Gen.ReferenceIdeal
import proofs.«410490_j37271726195550_3_alg».proof.Proof.Gen.Pre_finite_inputs
import proofs.«410490_j37271726195550_3_alg».proof.Proof.Gen.ReferenceIdeal.Run
import proofs.«410490_j37271726195550_3_alg».proof.Proof.Spec3
import proofs.«410490_j37271726195550_3_alg».proof.Proof.HostSide
import proofs.«410490_j37271726195550_3_alg».proof.Proof.RefRead
import proofs.«410490_j37271726195550_3_alg».proof.Proof.Regions
import proofs.«410490_j37271726195550_3_alg».proof.Proof.KernelChain

set_option maxRecDepth 16384

noncomputable section

namespace Cert.Proof.Bridge

open Idealize.ShloMosaic Idealize.ShloMosaic.ValueIdx Idealize.SL.Sem

theorem u0_agree (V0 : Valuation Cert.KernelIdeal.τ Cert.KernelIdeal.sig (Elt Ideal))
    (V0' : Valuation Cert.ReferenceIdeal.τ Cert.ReferenceIdeal.sig (Elt Ideal))
    (h0 : V0' (Proc.devRef .tc Cert.ReferenceIdeal.main_arg0) = V0 (Proc.devRef .tc Cert.KernelIdeal.main_arg0))
    (h4 : V0' (Proc.devRef .tc Cert.ReferenceIdeal.main_arg4) = V0 (Proc.devRef .tc Cert.KernelIdeal.main_arg4))
    (h7 : V0' (Proc.devRef .tc Cert.ReferenceIdeal.main_arg7) = V0 (Proc.devRef .tc Cert.KernelIdeal.main_arg7)) :
    (Cert.ReferenceIdeal.Value.res_main_v11 (F := Ideal) V0' : Cert.KernelIdeal.S32x1x512.Idx → EReal)
      = Cert.KernelIdeal.HostVals.u0T (F := Ideal) V0 := by
  unfold Cert.ReferenceIdeal.Value.res_main_v11 Cert.KernelIdeal.HostVals.u0T
  rw [h0, h4, h7]
  rfl

/-- Both programs end at `Spec3.result` of arguments that agree. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => Cert.KernelIdeal.Run.outs (F := Ideal) m 10 Cert.KernelIdeal.main_v30 c, Cert.KernelIdeal.Run.run_main (F := Ideal) m ρ, ?_⟩
  refine (θ_run Cert.ReferenceIdeal.defs _ _).mono (fun _ h c => ⟨(h c).1.trans ?_, (h c).2⟩) (Cert.ReferenceIdeal.RefValue.run_resultT (F := Ideal) m' ρ')
  obtain ⟨ha0, ha1, ha2, ha3, ha4, ha5, ha6, ha7⟩ := hagree c
  obtain ⟨-, -, -, -, -, -, hrel⟩ := Cert.PreFacts.pre_decode _ _ _ _ _ _ _ _ (hpre c)
  refine funext fun (j : Cert.ReferenceIdeal.S32x1x512.Idx) => ?_
  obtain ⟨b, z, d, rfl⟩ : ∃ (b : Fin 32) (z : Fin 1) (d : Fin 512), j = ix3 b z d := ⟨j 0, j 1, j 2, eq_ix3 j⟩
  obtain rfl : z = 0 := Subsingleton.elim _ _
  have hrel' : ∀ j, (StableHlo.launchContents m' c (Proc.devRef .tc Cert.ReferenceIdeal.main_arg1) j).toNat < 2049 := by
    intro j
    show (m' ((c.tc : Thread Cert.ReferenceIdeal.nD Cert.ReferenceIdeal.τ).loc Cert.ReferenceIdeal.main_arg1) j).toNat < 2049
    rw [ha1]
    exact hrel j
  refine (Cert.ReferenceIdeal.RefValue.resultT_apply (StableHlo.launchContents m' c) hrel' b d).trans ?_
  refine Eq.trans ?_ (Cert.KernelIdeal.Chain.kernel_value m hpre c b d).symm
  show Cert.Spec3.result (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3))
      (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6))
      (fun b d => Cert.ReferenceIdeal.Value.res_main_v11 (F := Ideal) (StableHlo.launchContents m' c) (ix3 b 0 d)) b d = _
  rw [ha1, ha2, ha3, ha5, ha6, u0_agree (fun r => m (c, r)) (StableHlo.launchContents m' c) ha0 ha4 ha7]

end Cert.Proof.Bridge

end
-- ==== Proof.lean ====
import proofs.«410490_j37271726195550_3_alg».proof.Defs
import proofs.«410490_j37271726195550_3_alg».proof.Proof.Gen.Kernel
import proofs.«410490_j37271726195550_3_alg».proof.Proof.Gen.KernelIdeal
import proofs.«410490_j37271726195550_3_alg».proof.Proof.Gen.ReferenceIdeal
import proofs.«410490_j37271726195550_3_alg».proof.Proof.Gen.Pre_finite_inputs
import proofs.«410490_j37271726195550_3_alg».proof.Proof.Gen.ReferenceIdeal.Run
import proofs.«410490_j37271726195550_3_alg».proof.Proof.Regions
import proofs.«410490_j37271726195550_3_alg».proof.Proof.WRegions
import proofs.«410490_j37271726195550_3_alg».proof.Proof.Bridge
import Idealize.ShloMosaic.Adequacy
import Idealize.ShloMosaic.Init

noncomputable section

namespace Cert.Proof

open Idealize.ShloMosaic Idealize.SL.Sem

theorem frame_kernel : Cert.frame_Kernel := fun m ρ _ =>
  (θ_run (Cert.Kernel.defs (F := Bits)) _ _).mono (fun _ h c => (h c).2) (Cert.Kernel.Run.run_main (F := Bits) m ρ)

theorem frame_kernelIdeal : Cert.frame_KernelIdeal := fun m ρ _ =>
  (θ_run (Cert.KernelIdeal.defs (F := Ideal)) _ _).mono (fun _ h c => (h c).2) (Cert.KernelIdeal.Run.run_main (F := Ideal) m ρ)

theorem frame_referenceIdeal : Cert.frame_ReferenceIdeal := fun m ρ _ =>
  (θ_run (Cert.ReferenceIdeal.defs (F := Ideal)) _ _).mono (fun _ h c => (h c).2) (Cert.ReferenceIdeal.Value.run (F := Ideal) m ρ)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, Cert.Proof.Bridge.algebraic⟩

end Cert.Proof

end
